-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v57)) (v2 : (c : Dev Cert.KernelIdeal.nD) → Buf (Elt Ideal) ((c.tc : Thread Cert.KernelIdeal.nD Cert.KernelIdeal.τ).loc Cert.KernelIdeal.main_v59)) (v3 : (c : Dev Cert.KernelIdeal.nD) → Buf (Elt Ideal) ((c.tc : Thread Cert.KernelIdeal.nD Cert.KernelIdeal.τ).loc Cert.KernelIdeal.main_v51)) (v4 : (c : Dev Cert.KernelIdeal.nD) → Buf (Elt Ideal) ((c.tc : Thread Cert.KernelIdeal.nD Cert.KernelIdeal.τ).loc Cert.KernelIdeal.main_v55)) (v5 : (c : Dev Cert.KernelIdeal.nD) → Buf (Elt Ideal) ((c.tc : Thread Cert.KernelIdeal.nD Cert.KernelIdeal.τ).loc Cert.KernelIdeal.main_cst_16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_v59) = v2 c
          ∧ r.2.mem ((c.tc : Thread Cert.KernelIdeal.nD Cert.KernelIdeal.τ).loc Cert.KernelIdeal.main_v51) = v3 c
          ∧ r.2.mem ((c.tc : Thread Cert.KernelIdeal.nD Cert.KernelIdeal.τ).loc Cert.KernelIdeal.main_v55) = v4 c
          ∧ r.2.mem ((c.tc : Thread Cert.KernelIdeal.nD Cert.KernelIdeal.τ).loc Cert.KernelIdeal.main_cst_16) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_v73) = v4 c
          ∧ r.2.mem ((c.tc : Thread Cert.ReferenceIdeal.nD Cert.ReferenceIdeal.τ).loc Cert.ReferenceIdeal.main_cst_19) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x2048 : Shape := ⟨3, ![2, 512, 2048]⟩
abbrev S32000x2048 : Shape := ⟨2, ![32000, 2048]⟩
abbrev S32000 : Shape := ⟨1, ![32000]⟩
abbrev S2x512 : Shape := ⟨2, ![2, 512]⟩
abbrev S_ : Shape := ⟨0, ![]⟩

class Facts : Prop where
  bcast_S_S2x512x2048 : S_.BroadcastsInDim S2x512x2048 (![] : Fin 0 → Fin S2x512x2048.rank)
  reducesTo_S2x512x2048_S_d0_1_2 : S2x512x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S32000 : S_.BroadcastsInDim S32000 (![] : Fin 0 → Fin S32000.rank)
  reducesTo_S32000_S_d0 : S32000.ReducesTo [0] S_
  bcast_S_S2x512 : S_.BroadcastsInDim S2x512 (![] : Fin 0 → Fin S2x512.rank)
  reducesTo_S2x512_S_d0_1 : S2x512.ReducesTo [0, 1] S_

variable [Facts]

def fn_part3 {F : FTy → Type} [FloatOps F] (main_arg9 : IVec S2x512 32) (main_v48 : IVec S_ 1) (main_v50 : IVec S2x512 1) : IVec S_ 1 :=
  let main_c_19 : IVec S_ 32 := constantI S_ 32 32000#32
  let main_v51 : IVec S2x512 32 := broadcastInDim S2x512 ![] bcast_S_S2x512 main_c_19
  let main_v52 : IVec S2x512 1 := cmpi .slt main_arg9 main_v51
  let main_v53 : IVec S2x512 1 := andi main_v50 main_v52
  let main_c_20 : IVec S_ 32 := constantI S_ 32 4294967196#32
  let main_v54 : IVec S2x512 32 := broadcastInDim S2x512 ![] bcast_S_S2x512 main_c_20
  let main_v55 : IVec S2x512 1 := cmpi .eq main_arg9 main_v54
  let main_v56 : IVec S2x512 1 := ori main_v53 main_v55
  let main_c_21 : IVec S_ 1 := constantI S_ 1 1#1
  let main_v57 : IVec S_ 1 := (fun x v => Host.reduce IntOp.andi x v reducesTo_S2x512_S_d0_1 h_S_) main_v56 main_c_21
  let main_v58 : IVec S_ 1 := andi main_v48 main_v57
  main_v58

def fn_part2 {F : FTy → Type} [FloatOps F] (main_arg7 : FVec F S32000 .f32) (main_arg8 : IVec S2x512 32) (main_arg9 : IVec S2x512 32) (main_v33 : IVec S_ 1) : IVec S_ 1 :=
  let main_v34 : FVec F S32000 .f32 := Host.absf main_arg7
  let main_cst_12 : FVec F S_ .f32 := constant S_ .f32 0x7F800000#32
  let main_v35 : FVec F S32000 .f32 := broadcastInDim S32000 ![] bcast_S_S32000 main_cst_12
  let main_v36 : IVec S32000 1 := cmpf .olt main_v34 main_v35
  let main_c_13 : IVec S_ 1 := constantI S_ 1 1#1
  let main_v37 : IVec S_ 1 := (fun x v => Host.reduce IntOp.andi x v reducesTo_S32000_S_d0 h_S_) main_v36 main_c_13
  let main_v38 : IVec S_ 1 := andi main_v33 main_v37
  let main_c_14 : IVec S_ 32 := constantI S_ 32 0#32
  let main_v39 : IVec S2x512 32 := broadcastInDim S2x512 ![] bcast_S_S2x512 main_c_14
  let main_v40 : IVec S2x512 1 := cmpi .sge main_arg8 main_v39
  let main_c_15 : IVec S_ 32 := constantI S_ 32 32000#32
  let main_v41 : IVec S2x512 32 := broadcastInDim S2x512 ![] bcast_S_S2x512 main_c_15
  let main_v42 : IVec S2x512 1 := cmpi .slt main_arg8 main_v41
  let main_v43 : IVec S2x512 1 := andi main_v40 main_v42
  let main_c_16 : IVec S_ 32 := constantI S_ 32 4294967196#32
  let main_v44 : IVec S2x512 32 := broadcastInDim S2x512 ![] bcast_S_S2x512 main_c_16
  let main_v45 : IVec S2x512 1 := cmpi .eq main_arg8 main_v44
  let main_v46 : IVec S2x512 1 := ori main_v43 main_v45
  let main_c_17 : IVec S_ 1 := constantI S_ 1 1#1
  let main_v47 : IVec S_ 1 := (fun x v => Host.reduce IntOp.andi x v reducesTo_S2x512_S_d0_1 h_S_) main_v46 main_c_17
  let main_v48 : IVec S_ 1 := andi main_v38 main_v47
  let main_c_18 : IVec S_ 32 := constantI S_ 32 0#32
  let main_v49 : IVec S2x512 32 := broadcastInDim S2x512 ![] bcast_S_S2x512 main_c_18
  let main_v50 : IVec S2x512 1 := cmpi .sge main_arg9 main_v49
  fn_part3 (F := F) main_arg9 main_v48 main_v50

def fn_part1 {F : FTy → Type} [FloatOps F] (main_arg4 : FVec F S32000x2048 .f32) (main_arg5 : FVec F S32000 .f32) (main_arg6 : FVec F S32000x2048 .f32) (main_arg7 : FVec F S32000 .f32) (main_arg8 : IVec S2x512 32) (main_arg9 : IVec S2x512 32) (main_v13 : IVec S_ 1) (main_v16 : IVec S2x512x2048 1) : IVec S_ 1 :=
  let main_c_5 : IVec S_ 1 := constantI S_ 1 1#1
  let main_v17 : IVec S_ 1 := (fun x v => Host.reduce IntOp.andi x v reducesTo_S2x512x2048_S_d0_1_2 h_S_) main_v16 main_c_5
  let main_v18 : IVec S_ 1 := andi main_v13 main_v17
  let main_v19 : FVec F S32000x2048 .f32 := Host.absf main_arg4
  let main_cst_6 : FVec F S_ .f32 := constant S_ .f32 0x7F800000#32
  let main_v20 : FVec F S32000x2048 .f32 := broadcastInDim S32000x2048 ![] bcast_S_S32000x2048 main_cst_6
  let main_v21 : IVec S32000x2048 1 := cmpf .olt main_v19 main_v20
  let main_c_7 : IVec S_ 1 := constantI S_ 1 1#1
  let main_v22 : IVec S_ 1 := (fun x v => Host.reduce IntOp.andi x v reducesTo_S32000x2048_S_d0_1 h_S_) main_v21 main_c_7
  let main_v23 : IVec S_ 1 := andi main_v18 main_v22
  let main_v24 : FVec F S32000 .f32 := Host.absf main_arg5
  let main_cst_8 : FVec F S_ .f32 := constant S_ .f32 0x7F800000#32
  let main_v25 : FVec F S32000 .f32 := broadcastInDim S32000 ![] bcast_S_S32000 main_cst_8
  let main_v26 : IVec S32000 1 := cmpf .olt main_v24 main_v25
  let main_c_9 : IVec S_ 1 := constantI S_ 1 1#1
  let main_v27 : IVec S_ 1 := (fun x v => Host.reduce IntOp.andi x v reducesTo_S32000_S_d0 h_S_) main_v26 main_c_9
  let main_v28 : IVec S_ 1 := andi main_v23 main_v27
  let main_v29 : FVec F S32000x2048 .f32 := Host.absf main_arg6
  let main_cst_10 : FVec F S_ .f32 := constant S_ .f32 0x7F800000#32
  let main_v30 : FVec F S32000x2048 .f32 := broadcastInDim S32000x2048 ![] bcast_S_S32000x2048 main_cst_10
  let main_v31 : IVec S32000x2048 1 := cmpf .olt main_v29 main_v30
  let main_c_11 : IVec S_ 1 := constantI S_ 1 1#1
  let main_v32 : IVec S_ 1 := (fun x v => Host.reduce IntOp.andi x v reducesTo_S32000x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S2x512x2048 .f32) (main_arg1 : FVec F S2x512x2048 .f32) (main_arg2 : FVec F S2x512x2048 .f32) (main_arg3 : FVec F S2x512x2048 .f32) (main_arg4 : FVec F S32000x2048 .f32) (main_arg5 : FVec F S32000 .f32) (main_arg6 : FVec F S32000x2048 .f32) (main_arg7 : FVec F S32000 .f32) (main_arg8 : IVec S2x512 32) (main_arg9 : IVec S2x512 32) : IVec S_ 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_c : IVec S_ 1 := constantI S_ 1 1#1
  let main_v3 : IVec S_ 1 := (fun x v => Host.reduce IntOp.andi x v reducesTo_S2x512x2048_S_d0_1_2 h_S_) main_v2 main_c
  let main_v4 : FVec F S2x512x2048 .f32 := Host.absf main_arg1
  let main_cst_0 : FVec F S_ .f32 := constant S_ .f32 0x7F800000#32
  let main_v5 : FVec F S2x512x2048 .f32 := broadcastInDim S2x512x2048 ![] bcast_S_S2x512x2048 main_cst_0
  let main_v6 : IVec S2x512x2048 1 := cmpf .olt main_v4 main_v5
  let main_c_1 : IVec S_ 1 := constantI S_ 1 1#1
  let main_v7 : IVec S_ 1 := (fun x v => Host.reduce IntOp.andi x v reducesTo_S2x512x2048_S_d0_1_2 h_S_) main_v6 main_c_1
  let main_v8 : IVec S_ 1 := andi main_v3 main_v7
  let main_v9 : FVec F S2x512x2048 .f32 := Host.absf main_arg2
  let main_cst_2 : FVec F S_ .f32 := constant S_ .f32 0x7F800000#32
  let main_v10 : FVec F S2x512x2048 .f32 := broadcastInDim S2x512x2048 ![] bcast_S_S2x512x2048 main_cst_2
  let main_v11 : IVec S2x512x2048 1 := cmpf .olt main_v9 main_v10
  let main_c_3 : IVec S_ 1 := constantI S_ 1 1#1
  let main_v12 : IVec S_ 1 := (fun x v => Host.reduce IntOp.andi x v reducesTo_S2x512x2048_S_d0_1_2 h_S_) main_v11 main_c_3
  let main_v13 : IVec S_ 1 := andi main_v8 main_v12
  let main_v14 : FVec F S2x512x2048 .f32 := Host.absf main_arg3
  let main_cst_4 : FVec F S_ .f32 := constant S_ .f32 0x7F800000#32
  let main_v15 : FVec F S2x512x2048 .f32 := broadcastInDim S2x512x2048 ![] bcast_S_S2x512x2048 main_cst_4
  let main_v16 : IVec S2x512x2048 1 := cmpf .olt main_v14 main_v15
  fn_part1 (F := F) main_arg4 main_arg5 main_arg6 main_arg7 main_arg8 main_arg9 main_v13 main_v16
-- ==== Kernel.lean ====
abbrev S2x512x2048 : Shape := ⟨3, ![2, 512, 2048]⟩
abbrev S32000x2048 : Shape := ⟨2, ![32000, 2048]⟩
abbrev S32000 : Shape := ⟨1, ![32000]⟩
abbrev S2x512 : Shape := ⟨2, ![2, 512]⟩
abbrev S1024x2048 : Shape := ⟨2, ![1024, 2048]⟩
abbrev S2048x2048 : Shape := ⟨2, ![2048, 2048]⟩
abbrev S1024x1 : Shape := ⟨2, ![1024, 1]⟩
abbrev S2048x1 : Shape := ⟨2, ![2048, 1]⟩
abbrev S1x32000 : Shape := ⟨2, ![1, 32000]⟩
abbrev S256x2048 : Shape := ⟨2, ![256, 2048]⟩
abbrev S1280x2048 : Shape := ⟨2, ![1280, 2048]⟩
abbrev S1x1280 : Shape := ⟨2, ![1, 1280]⟩
abbrev S256x1 : Shape := ⟨2, ![256, 1]⟩
abbrev S256x1280 : Shape := ⟨2, ![256, 1280]⟩
abbrev S256 : Shape := ⟨1, ![256]⟩
abbrev S1024 : Shape := ⟨1, ![1024]⟩
abbrev S_ : Shape := ⟨0, ![]⟩
abbrev S2 : Shape := ⟨1, ![2]⟩

abbrev nBuf : Space → Nat
  | .hbm => 103
  | .vmem => 26
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S32000x2048, .f32⟩
  | .hbm, ⟨5, _⟩ => ⟨S32000, .f32⟩
  | .hbm, ⟨6, _⟩ => ⟨S32000x2048, .f32⟩
  | .hbm, ⟨7, _⟩ => ⟨S32000, .f32⟩
  | .hbm, ⟨8, _⟩ => ⟨S2x512, .i32⟩
  | .hbm, ⟨9, _⟩ => ⟨S2x512, .i32⟩
  | .hbm, ⟨10, _⟩ => ⟨S1024x2048, .f32⟩
  | .hbm, ⟨11, _⟩ => ⟨S1024x2048, .f32⟩
  | .hbm, ⟨12, _⟩ => ⟨S2048x2048, .f32⟩
  | .hbm, ⟨13, _⟩ => ⟨S2048x2048, .bf16⟩
  | .hbm, ⟨14, _⟩ => ⟨S1024x1, .i32⟩
  | .hbm, ⟨15, _⟩ => ⟨S1024x1, .i32⟩
  | .hbm, ⟨16, _⟩ => ⟨S2048x1, .i32⟩
  | .hbm, ⟨17, _⟩ => ⟨S1x32000, .f32⟩
  | .hbm, ⟨18, _⟩ => ⟨S2048x1, .f32⟩
  | .hbm, ⟨19, _⟩ => ⟨S1024x1, .f32⟩
  | .hbm, ⟨20, _⟩ => ⟨S1024, .f32⟩
  | .hbm, ⟨21, _⟩ => ⟨S2x512, .f32⟩
  | .hbm, ⟨22, _⟩ => ⟨S_, .f32⟩
  | .hbm, ⟨23, _⟩ => ⟨S2, .f32⟩
  | .hbm, ⟨24, _⟩ => ⟨S1024x1, .f32⟩
  | .hbm, ⟨25, _⟩ => ⟨S1024, .f32⟩
  | .hbm, ⟨26, _⟩ => ⟨S2x512, .f32⟩
  | .hbm, ⟨27, _⟩ => ⟨S_, .f32⟩
  | .hbm, ⟨28, _⟩ => ⟨S2, .f32⟩
  | .hbm, ⟨29, _⟩ => ⟨S1024x2048, .f32⟩
  | .hbm, ⟨30, _⟩ => ⟨S1024x2048, .f32⟩
  | .hbm, ⟨31, _⟩ => ⟨S2048x2048, .f32⟩
  | .hbm, ⟨32, _⟩ => ⟨S2048x2048, .bf16⟩
  | .hbm, ⟨33, _⟩ => ⟨S1024x1, .i32⟩
  | .hbm, ⟨34, _⟩ => ⟨S1024x1, .i32⟩
  | .hbm, ⟨35, _⟩ => ⟨S2048x1, .i32⟩
  | .hbm, ⟨36, _⟩ => ⟨S1x32000, .f32⟩
  | .hbm, ⟨37, _⟩ => ⟨S2048x1, .f32⟩
  | .hbm, ⟨38, _⟩ => ⟨S1024x1, .f32⟩
  | .hbm, ⟨39, _⟩ => ⟨S1024, .f32⟩
  | .hbm, ⟨40, _⟩ => ⟨S2x512, .f32⟩
  | .hbm, ⟨41, _⟩ => ⟨S_, .f32⟩
  | .hbm, ⟨42, _⟩ => ⟨S2, .f32⟩
  | .hbm, ⟨43, _⟩ => ⟨S1024x1, .f32⟩
  | .hbm, ⟨44, _⟩ => ⟨S1024, .f32⟩
  | .hbm, ⟨45, _⟩ => ⟨S2x512, .f32⟩
  | .hbm, ⟨46, _⟩ => ⟨S_, .f32⟩
  | .hbm, ⟨47, _⟩ => ⟨S2, .f32⟩
  | .hbm, ⟨48, _⟩ => ⟨S2, .f32⟩
  | .hbm, ⟨49, _⟩ => ⟨S2, .f32⟩
  | .hbm, ⟨50, _⟩ => ⟨S2, .f32⟩
  | .hbm, ⟨51, _⟩ => ⟨S_, .f32⟩
  | .hbm, ⟨52, _⟩ => ⟨S2, .f32⟩
  | .hbm, ⟨53, _⟩ => ⟨S2, .f32⟩
  | .hbm, ⟨54, _⟩ => ⟨S2, .f32⟩
  | .hbm, ⟨55, _⟩ => ⟨S_, .f32⟩
  | .hbm, ⟨56, _⟩ => ⟨S2, .f32⟩
  | .hbm, ⟨57, _⟩ => ⟨S2, .f32⟩
  | .hbm, ⟨58, _⟩ => ⟨S2, .f32⟩
  | .hbm, ⟨59, _⟩ => ⟨S2, .f32⟩
  | .hbm, ⟨60, _⟩ => ⟨S2, .i1⟩
  | .hbm, ⟨61, _⟩ => ⟨S2, .f32⟩
  | .hbm, ⟨62, _⟩ => ⟨S2, .f32⟩
  | .hbm, ⟨63, _⟩ => ⟨S2, .f32⟩
  | .hbm, ⟨64, _⟩ => ⟨S2, .f32⟩
  | .hbm, ⟨65, _⟩ => ⟨S2, .f32⟩
  | .hbm, ⟨66, _⟩ => ⟨S2, .f32⟩
  | .hbm, ⟨67, _⟩ => ⟨S2, .f32⟩
  | .hbm, ⟨68, _⟩ => ⟨S2, .f32⟩
  | .hbm, ⟨69, _⟩ => ⟨S2, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S2, .f32⟩
  | .hbm, ⟨76, _⟩ => ⟨S_, .f32⟩
  | .hbm, ⟨77, _⟩ => ⟨S2, .f32⟩
  | .hbm, ⟨78, _⟩ => ⟨S2, .f32⟩
  | .hbm, ⟨79, _⟩ => ⟨S2, .f32⟩
  | .hbm, ⟨80, _⟩ => ⟨S_, .f32⟩
  | .hbm, ⟨81, _⟩ => ⟨S2, .f32⟩
  | .hbm, ⟨82, _⟩ => ⟨S2, .f32⟩
  | .hbm, ⟨83, _⟩ => ⟨S2, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S2, .i1⟩
  | .hbm, ⟨89, _⟩ => ⟨S2, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .local _ .vmem, ⟨0, _⟩ => ⟨S256x2048, .bf16⟩
  | .local _ .vmem, ⟨1, _⟩ => ⟨S256x2048, .bf16⟩
  | .local _ .vmem, ⟨2, _⟩ => ⟨S1280x2048, .f32⟩
  | .local _ .vmem, ⟨3, _⟩ => ⟨S1280x2048, .f32⟩
  | .local _ .vmem, ⟨4, _⟩ => ⟨S1x1280, .f32⟩
  | .local _ .vmem, ⟨5, _⟩ => ⟨S1x1280, .f32⟩
  | .local _ .vmem, ⟨6, _⟩ => ⟨S256x1, .i32⟩
  | .local _ .vmem, ⟨7, _⟩ => ⟨S256x1, .i32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x2048, .bf16⟩
  | .local _ .vmem, ⟨14, _⟩ => ⟨S256x2048, .bf16⟩
  | .local _ .vmem, ⟨15, _⟩ => ⟨S1280x2048, .f32⟩
  | .local _ .vmem, ⟨16, _⟩ => ⟨S1280x2048, .f32⟩
  | .local _ .vmem, ⟨17, _⟩ => ⟨S1x1280, .f32⟩
  | .local _ .vmem, ⟨18, _⟩ => ⟨S1x1280, .f32⟩
  | .local _ .vmem, ⟨19, _⟩ => ⟨S256x1, .i32⟩
  | .local _ .vmem, ⟨20, _⟩ => ⟨S256x1, .i32⟩
  | .local _ .vmem, ⟨21, _⟩ => ⟨S256x1, .f32⟩
  | .local _ .vmem, ⟨22, _⟩ => ⟨S256x1, .f32⟩
  | .local _ .vmem, ⟨23, _⟩ => ⟨S256x1, .f32⟩
  | .local _ .vmem, ⟨24, _⟩ => ⟨S256x1, .f32⟩
  | .local _ .vmem, ⟨25, _⟩ => ⟨S256x1, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_call0_v0 : Ref sig .tc := ⟨.hbm, 54, rfl⟩
abbrev main_call0_call0_cst : Ref sig .tc := ⟨.hbm, 55, rfl⟩
abbrev main_call0_call0_v0 : Ref sig .tc := ⟨.hbm, 56, rfl⟩
abbrev main_call0_call0_v1 : Ref sig .tc := ⟨.hbm, 57, rfl⟩
abbrev main_call0_call0_v2 : Ref sig .tc := ⟨.hbm, 58, rfl⟩
abbrev main_call0_call0_v3 : Ref sig .tc := ⟨.hbm, 59, rfl⟩
abbrev main_call0_call0_v4 : Ref sig .tc := ⟨.hbm, 60, rfl⟩
abbrev main_call0_call0_v5 : Ref sig .tc := ⟨.hbm, 61, rfl⟩
abbrev main_call0_call0_v6 : Ref sig .tc := ⟨.hbm, 62, rfl⟩
abbrev main_call0_call0_v7 : Ref sig .tc := ⟨.hbm, 63, rfl⟩
abbrev main_call0_call0_v8 : Ref sig .tc := ⟨.hbm, 64, rfl⟩
abbrev main_call0_call0_v9 : Ref sig .tc := ⟨.hbm, 65, rfl⟩
abbrev main_call0_call0_v10 : Ref sig .tc := ⟨.hbm, 66, rfl⟩
abbrev main_call0_call0_v11 : Ref sig .tc := ⟨.hbm, 67, rfl⟩
abbrev main_call0_v1 : Ref sig .tc := ⟨.hbm, 68, rfl⟩
abbrev main_v39 : Ref sig .tc := ⟨.hbm, 69, rfl⟩
abbrev main_cst_4 : Ref sig .tc := ⟨.hbm, 70, rfl⟩
abbrev main_v40 : Ref sig .tc := ⟨.hbm, 71, rfl⟩
abbrev main_v41 : Ref sig .tc := ⟨.hbm, 72, rfl⟩
abbrev main_cst_5 : Ref sig .tc := ⟨.hbm, 73, rfl⟩
abbrev main_v42 : Ref sig .tc := ⟨.hbm, 74, rfl⟩
abbrev main_v43 : Ref sig .tc := ⟨.hbm, 75, rfl⟩
abbrev main_cst_6 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_7 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_8 : Ref sig .tc := ⟨.hbm, 84, rfl⟩
abbrev main_v50 : Ref sig .tc := ⟨.hbm, 85, rfl⟩
abbrev main_cst_9 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_10 : Ref sig .tc := ⟨.hbm, 90, rfl⟩
abbrev main_v54 : Ref sig .tc := ⟨.hbm, 91, rfl⟩
abbrev main_cst_11 : Ref sig .tc := ⟨.hbm, 92, rfl⟩
abbrev main_v55 : Ref sig .tc := ⟨.hbm, 93, rfl⟩
abbrev main_cst_12 : Ref sig .tc := ⟨.hbm, 94, rfl⟩
abbrev main_v56 : Ref sig .tc := ⟨.hbm, 95, rfl⟩
abbrev main_cst_13 : Ref sig .tc := ⟨.hbm, 96, rfl⟩
abbrev main_v57 : Ref sig .tc := ⟨.hbm, 97, rfl⟩
abbrev main_cst_14 : Ref sig .tc := ⟨.hbm, 98, rfl⟩
abbrev main_v58 : Ref sig .tc := ⟨.hbm, 99, rfl⟩
abbrev main_cst_15 : Ref sig .tc := ⟨.hbm, 100, rfl⟩
abbrev main_v59 : Ref sig .tc := ⟨.hbm, 101, rfl⟩
abbrev main_cst_16 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v50 : BitVec 1 := Scalar.cmpi .eq arg1 c24_i32
  let v51 : BitVec 32 := Scalar.extui v50
  let c0_i32_26 : BitVec 32 := 0#32
  let v52 : BitVec 1 := Scalar.cmpi .ne v51 c0_i32_26
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 25], ![false, false]⟩

def k1_cond2 (i : grid1.Coords) : BitVec 1 :=
  let arg1 : BitVec 32 := BitVec.ofNat 32 (i 1).val
  let c24_i32 : BitVec 32 := 24#32
  let v50 : BitVec 1 := Scalar.cmpi .eq arg1 c24_i32
  let v51 : BitVec 32 := Scalar.extui v50
  let c0_i32_26 : BitVec 32 := 0#32
  let v52 : BitVec 1 := Scalar.cmpi .ne v51 c0_i32_26
  v52

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1280x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S2x512x2048_S1024x2048 : S2x512x2048.ShapeCasts S1024x2048
  concatenates_S1024x2048_S1024x2048_S2048x2048_d0 : Shape.Concatenates [S1024x2048, S1024x2048] S2048x2048 0
  bitsLt_bf16_f32 : FTy.bits .bf16 < FTy.bits .f32
  shapeCasts_S2x512_S1024x1 : S2x512.ShapeCasts S1024x1
  concatenates_S1024x1_S1024x1_S2048x1_d0 : Shape.Concatenates [S1024x1, S1024x1] S2048x1 0
  shapeCasts_S32000_S1x32000 : S32000.ShapeCasts S1x32000
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1280x2048_S1280x2048_0_0 : ∀ a, (![0, 0] : Fin 2 → Nat) a + S1280x2048.size a ≤ S1280x2048.size a
  h_S1280x2048 : 0 < S1280x2048.numel
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S256x1280 : S1x1280.Broadcasts S256x1280
  iota_S256x1280_d1_w32 : S256x1280.Iotas .tc 32 [1]
  broadcasts_S256x1_S256x1280 : S256x1.Broadcasts S256x1280
  reduces_S256x1280_S256 : S256x1280.Reduces [1] S256
  shapeCasts_S256_S256x1 : S256.ShapeCasts S256x1
  natLt_1_32 : 1 < 32
  slices_S2048x1_S1024x1_0_0 : S2048x1.Slices ![0, 0] S1024x1
  shapeCasts_S1024x1_S1024 : S1024x1.ShapeCasts S1024
  shapeCasts_S1024_S2x512 : S1024.ShapeCasts S2x512
  reducesTo_S2x512_S2_d1 : S2x512.ReducesTo [1] S2
  h_S_ : 0 < S_.numel
  slices_S2048x1_S1024x1_1024_0 : S2048x1.Slices ![1024, 0] S1024x1
  bcast_S_S2 : S_.BroadcastsInDim S2 (![] : Fin 0 → Fin S2.rank)
  reducesTo_S2_S_d0 : S2.ReducesTo [0] S_
  dot_S256x2048_S1280x2048_S256x1280_1_1_0_0_n_n_wf : DotDims.WF S256x2048 S1280x2048 S256x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .bf16 = 32 ∨ (Rect.block (s := S2048x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x2048.size a ≤ S32000x2048.size a
  hwx0_1 : ∀ i : grid0.Coords, EltTy.bits .f32 = 32 ∨ (Rect.block (s := S32000x2048) S1280x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x32000.size a
  hwx0_2 : ∀ i : grid0.Coords, EltTy.bits .f32 = 32 ∨ (Rect.block (s := S1x32000) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S2048x1.size a
  hwx0_3 : ∀ i : grid0.Coords, EltTy.bits .i32 = 32 ∨ (Rect.block (s := S2048x1) S256x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S2048x1.size a
  hwx0_4 : ∀ i : grid0.Coords, EltTy.bits .f32 = 32 ∨ (Rect.block (s := S2048x1) S256x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S2048x2048.size a
  hwx1_0 : ∀ i : grid1.Coords, EltTy.bits .bf16 = 32 ∨ (Rect.block (s := S2048x2048) S256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x2048.size a ≤ S32000x2048.size a
  hwx1_1 : ∀ i : grid1.Coords, EltTy.bits .f32 = 32 ∨ (Rect.block (s := S32000x2048) S1280x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x32000.size a
  hwx1_2 : ∀ i : grid1.Coords, EltTy.bits .f32 = 32 ∨ (Rect.block (s := S1x32000) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S2048x1.size a
  hwx1_3 : ∀ i : grid1.Coords, EltTy.bits .i32 = 32 ∨ (Rect.block (s := S2048x1) S256x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S2048x1.size a
  hwx1_4 : ∀ i : grid1.Coords, EltTy.bits .f32 = 32 ∨ (Rect.block (s := S2048x1) S256x1.size (cc1_transform_4 i) (hinb1_4 i)).WholeWords (EltTy.packing .f32)

variable [Facts₀]

def dot_S256x2048_S1280x2048_S256x1280_1_1_0_0_n_n : DotDims S256x2048 S1280x2048 S256x1280 where
  lhsContracting := [1]
  rhsContracting := [1]
  lhsNonContracting := [0]
  rhsNonContracting := [0]
  lhsBatch := []
  rhsBatch := []
  wf := dot_S256x2048_S1280x2048_S256x1280_1_1_0_0_n_n_wf

abbrev win0_0 : Pipeline.Window sig grid0 :=
  Pipeline.Window.ofSpec (Memref.whole main_v3) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v20) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1280x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S256x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25) S256x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S2x512x2048 : Shape := ⟨3, ![2, 512, 2048]⟩
abbrev S32000x2048 : Shape := ⟨2, ![32000, 2048]⟩
abbrev S32000 : Shape := ⟨1, ![32000]⟩
abbrev S2x512 : Shape := ⟨2, ![2, 512]⟩
abbrev S2x512x32000 : Shape := ⟨3, ![2, 512, 32000]⟩
abbrev S1x1x32000 : Shape := ⟨3, ![1, 1, 32000]⟩
abbrev S_ : Shape := ⟨0, ![]⟩
abbrev S2x512x1 : Shape := ⟨3, ![2, 512, 1]⟩
abbrev S2x512x1x1 : Shape := ⟨4, ![2, 512, 1, 1]⟩
abbrev S1 : Shape := ⟨1, ![1]⟩
abbrev S1x1x1x1 : Shape := ⟨4, ![1, 1, 1, 1]⟩
abbrev S2 : Shape := ⟨1, ![2]⟩

abbrev nBuf : Space → Nat
  | .hbm => 265
  | .vmem => 0
  | .smem => 0
  | _ => 0

abbrev hbmTy0_0 (i : Nat) : BufTy := match i % 128 with
  | 0 => ⟨S2x512x2048, .f32⟩
  | 1 => ⟨S2x512x2048, .f32⟩
  | 2 => ⟨S2x512x2048, .f32⟩
  | 3 => ⟨S2x512x2048, .f32⟩
  | 4 => ⟨S32000x2048, .f32⟩
  | 5 => ⟨S32000, .f32⟩
  | 6 => ⟨S32000x2048, .f32⟩
  | 7 => ⟨S32000, .f32⟩
  | 8 => ⟨S2x512, .i32⟩
  | 9 => ⟨S2x512, .i32⟩
  | 10 => ⟨S2x512x32000, .f32⟩
  | 11 => ⟨S1x1x32000, .f32⟩
  | 12 => ⟨S2x512x32000, .f32⟩
  | 13 => ⟨S2x512x32000, .f32⟩
  | 14 => ⟨S_, .f32⟩
  | 15 => ⟨S2x512, .f32⟩
  | 16 => ⟨S_, .f32⟩
  | 17 => ⟨S2x512, .f32⟩
  | 18 => ⟨S2x512, .f32⟩
  | 19 => ⟨S2x512x1, .f32⟩
  | 20 => ⟨S2x512x32000, .f32⟩
  | 21 => ⟨S2x512x32000, .f32⟩
  | 22 => ⟨S2x512x32000, .f32⟩
  | 23 => ⟨S_, .f32⟩
  | 24 => ⟨S2x512, .f32⟩
  | 25 => ⟨S2x512x1, .f32⟩
  | 26 => ⟨S2x512x1, .f32⟩
  | 27 => ⟨S2x512x32000, .f32⟩
  | 28 => ⟨S2x512x32000, .f32⟩
  | 29 => ⟨S2x512x1, .i32⟩
  | 30 => ⟨S_, .i32⟩
  | 31 => ⟨S2x512x1, .i32⟩
  | 32 => ⟨S2x512x1, .i1⟩
  | 33 => ⟨S_, .i32⟩
  | 34 => ⟨S2x512x1, .i32⟩
  | 35 => ⟨S2x512x1, .i32⟩
  | 36 => ⟨S2x512x1, .i32⟩
  | 37 => ⟨S2x512x1x1, .i32⟩
  | 38 => ⟨S1, .i32⟩
  | 39 => ⟨S_, .i32⟩
  | 40 => ⟨S2x512x1x1, .i32⟩
  | 41 => ⟨S2x512x1x1, .i1⟩
  | 42 => ⟨S1x1x1x1, .i32⟩
  | 43 => ⟨S2x512x1x1, .i32⟩
  | 44 => ⟨S2x512x1x1, .i1⟩
  | 45 => ⟨S2x512x1x1, .i1⟩
  | 46 => ⟨S_, .i1⟩
  | 47 => ⟨S2x512x1, .i1⟩
  | 48 => ⟨S2x512x1, .f32⟩
  | 49 => ⟨S_, .f32⟩
  | 50 => ⟨S2x512x1, .f32⟩
  | 51 => ⟨S2x512x1, .f32⟩
  | 52 => ⟨S2x512, .f32⟩
  | 53 => ⟨S_, .i32⟩
  | 54 => ⟨S2x512, .i32⟩
  | 55 => ⟨S2x512, .i1⟩
  | 56 => ⟨S2x512, .f32⟩
  | 57 => ⟨S2x512, .f32⟩
  | 58 => ⟨S_, .f32⟩
  | 59 => ⟨S2, .f32⟩
  | 60 => ⟨S2x512x32000, .f32⟩
  | 61 => ⟨S1x1x32000, .f32⟩
  | 62 => ⟨S2x512x32000, .f32⟩
  | 63 => ⟨S2x512x32000, .f32⟩
  | 64 => ⟨S_, .f32⟩
  | 65 => ⟨S2x512, .f32⟩
  | 66 => ⟨S_, .f32⟩
  | 67 => ⟨S2x512, .f32⟩
  | 68 => ⟨S2x512, .f32⟩
  | 69 => ⟨S2x512x1, .f32⟩
  | 70 => ⟨S2x512x32000, .f32⟩
  | 71 => ⟨S2x512x32000, .f32⟩
  | 72 => ⟨S2x512x32000, .f32⟩
  | 73 => ⟨S_, .f32⟩
  | 74 => ⟨S2x512, .f32⟩
  | 75 => ⟨S2x512x1, .f32⟩
  | 76 => ⟨S2x512x1, .f32⟩
  | 77 => ⟨S2x512x32000, .f32⟩
  | 78 => ⟨S2x512x32000, .f32⟩
  | 79 => ⟨S2x512x1, .i32⟩
  | 80 => ⟨S_, .i32⟩
  | 81 => ⟨S2x512x1, .i32⟩
  | 82 => ⟨S2x512x1, .i1⟩
  | 83 => ⟨S_, .i32⟩
  | 84 => ⟨S2x512x1, .i32⟩
  | 85 => ⟨S2x512x1, .i32⟩
  | 86 => ⟨S2x512x1, .i32⟩
  | 87 => ⟨S2x512x1x1, .i32⟩
  | 88 => ⟨S1, .i32⟩
  | 89 => ⟨S_, .i32⟩
  | 90 => ⟨S2x512x1x1, .i32⟩
  | 91 => ⟨S2x512x1x1, .i1⟩
  | 92 => ⟨S1x1x1x1, .i32⟩
  | 93 => ⟨S2x512x1x1, .i32⟩
  | 94 => ⟨S2x512x1x1, .i1⟩
  | 95 => ⟨S2x512x1x1, .i1⟩
  | 96 => ⟨S_, .i1⟩
  | 97 => ⟨S2x512x1, .i1⟩
  | 98 => ⟨S2x512x1, .f32⟩
  | 99 => ⟨S_, .f32⟩
  | 100 => ⟨S2x512x1, .f32⟩
  | 101 => ⟨S2x512x1, .f32⟩
  | 102 => ⟨S2x512, .f32⟩
  | 103 => ⟨S_, .i32⟩
  | 104 => ⟨S2x512, .i32⟩
  | 105 => ⟨S2x512, .i1⟩
  | 106 => ⟨S2x512, .f32⟩
  | 107 => ⟨S2x512, .f32⟩
  | 108 => ⟨S_, .f32⟩
  | 109 => ⟨S2, .f32⟩
  | 110 => ⟨S2x512x32000, .f32⟩
  | 111 => ⟨S1x1x32000, .f32⟩
  | 112 => ⟨S2x512x32000, .f32⟩
  | 113 => ⟨S2x512x32000, .f32⟩
  | 114 => ⟨S_, .f32⟩
  | 115 => ⟨S2x512, .f32⟩
  | 116 => ⟨S_, .f32⟩
  | 117 => ⟨S2x512, .f32⟩
  | 118 => ⟨S2x512, .f32⟩
  | 119 => ⟨S2x512x1, .f32⟩
  | 120 => ⟨S2x512x32000, .f32⟩
  | 121 => ⟨S2x512x32000, .f32⟩
  | 122 => ⟨S2x512x32000, .f32⟩
  | 123 => ⟨S_, .f32⟩
  | 124 => ⟨S2x512, .f32⟩
  | 125 => ⟨S2x512x1, .f32⟩
  | 126 => ⟨S2x512x1, .f32⟩
  | 127 => ⟨S2x512x32000, .f32⟩
  | _ => ⟨S2x512x2048, .f32⟩

abbrev hbmTy0_1 (i : Nat) : BufTy := match i % 128 with
  | 0 => ⟨S2x512x32000, .f32⟩
  | 1 => ⟨S2x512x1, .i32⟩
  | 2 => ⟨S_, .i32⟩
  | 3 => ⟨S2x512x1, .i32⟩
  | 4 => ⟨S2x512x1, .i1⟩
  | 5 => ⟨S_, .i32⟩
  | 6 => ⟨S2x512x1, .i32⟩
  | 7 => ⟨S2x512x1, .i32⟩
  | 8 => ⟨S2x512x1, .i32⟩
  | 9 => ⟨S2x512x1x1, .i32⟩
  | 10 => ⟨S1, .i32⟩
  | 11 => ⟨S_, .i32⟩
  | 12 => ⟨S2x512x1x1, .i32⟩
  | 13 => ⟨S2x512x1x1, .i1⟩
  | 14 => ⟨S1x1x1x1, .i32⟩
  | 15 => ⟨S2x512x1x1, .i32⟩
  | 16 => ⟨S2x512x1x1, .i1⟩
  | 17 => ⟨S2x512x1x1, .i1⟩
  | 18 => ⟨S_, .i1⟩
  | 19 => ⟨S2x512x1, .i1⟩
  | 20 => ⟨S2x512x1, .f32⟩
  | 21 => ⟨S_, .f32⟩
  | 22 => ⟨S2x512x1, .f32⟩
  | 23 => ⟨S2x512x1, .f32⟩
  | 24 => ⟨S2x512, .f32⟩
  | 25 => ⟨S_, .i32⟩
  | 26 => ⟨S2x512, .i32⟩
  | 27 => ⟨S2x512, .i1⟩
  | 28 => ⟨S2x512, .f32⟩
  | 29 => ⟨S2x512, .f32⟩
  | 30 => ⟨S_, .f32⟩
  | 31 => ⟨S2, .f32⟩
  | 32 => ⟨S2x512x32000, .f32⟩
  | 33 => ⟨S1x1x32000, .f32⟩
  | 34 => ⟨S2x512x32000, .f32⟩
  | 35 => ⟨S2x512x32000, .f32⟩
  | 36 => ⟨S_, .f32⟩
  | 37 => ⟨S2x512, .f32⟩
  | 38 => ⟨S_, .f32⟩
  | 39 => ⟨S2x512, .f32⟩
  | 40 => ⟨S2x512, .f32⟩
  | 41 => ⟨S2x512x1, .f32⟩
  | 42 => ⟨S2x512x32000, .f32⟩
  | 43 => ⟨S2x512x32000, .f32⟩
  | 44 => ⟨S2x512x32000, .f32⟩
  | 45 => ⟨S_, .f32⟩
  | 46 => ⟨S2x512, .f32⟩
  | 47 => ⟨S2x512x1, .f32⟩
  | 48 => ⟨S2x512x1, .f32⟩
  | 49 => ⟨S2x512x32000, .f32⟩
  | 50 => ⟨S2x512x32000, .f32⟩
  | 51 => ⟨S2x512x1, .i32⟩
  | 52 => ⟨S_, .i32⟩
  | 53 => ⟨S2x512x1, .i32⟩
  | 54 => ⟨S2x512x1, .i1⟩
  | 55 => ⟨S_, .i32⟩
  | 56 => ⟨S2x512x1, .i32⟩
  | 57 => ⟨S2x512x1, .i32⟩
  | 58 => ⟨S2x512x1, .i32⟩
  | 59 => ⟨S2x512x1x1, .i32⟩
  | 60 => ⟨S1, .i32⟩
  | 61 => ⟨S_, .i32⟩
  | 62 => ⟨S2x512x1x1, .i32⟩
  | 63 => ⟨S2x512x1x1, .i1⟩
  | 64 => ⟨S1x1x1x1, .i32⟩
  | 65 => ⟨S2x512x1x1, .i32⟩
  | 66 => ⟨S2x512x1x1, .i1⟩
  | 67 => ⟨S2x512x1x1, .i1⟩
  | 68 => ⟨S_, .i1⟩
  | 69 => ⟨S2x512x1, .i1⟩
  | 70 => ⟨S2x512x1, .f32⟩
  | 71 => ⟨S_, .f32⟩
  | 72 => ⟨S2x512x1, .f32⟩
  | 73 => ⟨S2x512x1, .f32⟩
  | 74 => ⟨S2x512, .f32⟩
  | 75 => ⟨S_, .i32⟩
  | 76 => ⟨S2x512, .i32⟩
  | 77 => ⟨S2x512, .i1⟩
  | 78 => ⟨S2x512, .f32⟩
  | 79 => ⟨S2x512, .f32⟩
  | 80 => ⟨S_, .f32⟩
  | 81 => ⟨S2, .f32⟩
  | 82 => ⟨S2, .f32⟩
  | 83 => ⟨S2, .f32⟩
  | 84 => ⟨S2, .f32⟩
  | 85 => ⟨S_, .f32⟩
  | 86 => ⟨S2, .f32⟩
  | 87 => ⟨S2, .f32⟩
  | 88 => ⟨S2, .f32⟩
  | 89 => ⟨S_, .f32⟩
  | 90 => ⟨S2, .f32⟩
  | 91 => ⟨S2, .f32⟩
  | 92 => ⟨S2, .f32⟩
  | 93 => ⟨S2, .f32⟩
  | 94 => ⟨S2, .i1⟩
  | 95 => ⟨S2, .f32⟩
  | 96 => ⟨S2, .f32⟩
  | 97 => ⟨S2, .f32⟩
  | 98 => ⟨S2, .f32⟩
  | 99 => ⟨S2, .f32⟩
  | 100 => ⟨S2, .f32⟩
  | 101 => ⟨S2, .f32⟩
  | 102 => ⟨S2, .f32⟩
  | 103 => ⟨S2, .f32⟩
  | 104 => ⟨S_, .f32⟩
  | 105 => ⟨S_, .f32⟩
  | 106 => ⟨S_, .f32⟩
  | 107 => ⟨S_, .f32⟩
  | 108 => ⟨S_, .f32⟩
  | 109 => ⟨S2, .f32⟩
  | 110 => ⟨S_, .f32⟩
  | 111 => ⟨S2, .f32⟩
  | 112 => ⟨S2, .f32⟩
  | 113 => ⟨S2, .f32⟩
  | 114 => ⟨S_, .f32⟩
  | 115 => ⟨S2, .f32⟩
  | 116 => ⟨S2, .f32⟩
  | 117 => ⟨S2, .f32⟩
  | 118 => ⟨S_, .f32⟩
  | 119 => ⟨S_, .f32⟩
  | 120 => ⟨S_, .f32⟩
  | 121 => ⟨S_, .f32⟩
  | 122 => ⟨S2, .i1⟩
  | 123 => ⟨S2, .f32⟩
  | 124 => ⟨S_, .f32⟩
  | 125 => ⟨S_, .f32⟩
  | 126 => ⟨S_, .f32⟩
  | 127 => ⟨S_, .f32⟩
  | _ => ⟨S2x512x2048, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S2x512x2048, .f32⟩

abbrev hbmTy (i : Nat) : BufTy := match i / 128 with
  | 0 => hbmTy0_0 i
  | 1 => hbmTy0_1 i
  | 2 => hbmTy0_2 i
  | _ => ⟨S2x512x2048, .f32⟩

abbrev bufTy : (tb : Table) → Fin (tcTables nBuf tb) → BufTy
  | .hbm, ⟨i, _⟩ => hbmTy i
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v4 : Ref sig .tc := ⟨.hbm, 28, rfl⟩
abbrev main_v5 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v6 : Ref sig .tc := ⟨.hbm, 51, rfl⟩
abbrev main_v7 : Ref sig .tc := ⟨.hbm, 52, rfl⟩
abbrev main_c : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_cst : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_call2_cst : Ref sig .tc := ⟨.hbm, 64, rfl⟩
abbrev main_call2_v0 : Ref sig .tc := ⟨.hbm, 65, rfl⟩
abbrev main_call2_cst_0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_cst_1 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_v17 : Ref sig .tc := ⟨.hbm, 78, rfl⟩
abbrev main_v18 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_c_1 : Ref sig .tc := ⟨.hbm, 88, rfl⟩
abbrev main_call3_c_2 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_3 : Ref sig .tc := ⟨.hbm, 96, rfl⟩
abbrev main_call3_v12 : Ref sig .tc := ⟨.hbm, 97, rfl⟩
abbrev main_call3_v13 : Ref sig .tc := ⟨.hbm, 98, rfl⟩
abbrev main_call3_cst : Ref sig .tc := ⟨.hbm, 99, rfl⟩
abbrev main_call3_v14 : Ref sig .tc := ⟨.hbm, 100, rfl⟩
abbrev main_v19 : Ref sig .tc := ⟨.hbm, 101, rfl⟩
abbrev main_v20 : Ref sig .tc := ⟨.hbm, 102, rfl⟩
abbrev main_c_0 : Ref sig .tc := ⟨.hbm, 103, rfl⟩
abbrev main_v21 : Ref sig .tc := ⟨.hbm, 104, rfl⟩
abbrev main_v22 : Ref sig .tc := ⟨.hbm, 105, rfl⟩
abbrev main_v23 : Ref sig .tc := ⟨.hbm, 106, rfl⟩
abbrev main_v24 : Ref sig .tc := ⟨.hbm, 107, rfl⟩
abbrev main_cst_1 : Ref sig .tc := ⟨.hbm, 108, rfl⟩
abbrev main_v25 : Ref sig .tc := ⟨.hbm, 109, rfl⟩
abbrev main_v26 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_call4_cst : Ref sig .tc := ⟨.hbm, 114, rfl⟩
abbrev main_call4_v0 : Ref sig .tc := ⟨.hbm, 115, rfl⟩
abbrev main_call4_cst_0 : Ref sig .tc := ⟨.hbm, 116, rfl⟩
abbrev main_call4_v1 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_v6 : Ref sig .tc := ⟨.hbm, 122, rfl⟩
abbrev main_call4_cst_1 : Ref sig .tc := ⟨.hbm, 123, rfl⟩
abbrev main_call4_v7 : Ref sig .tc := ⟨.hbm, 124, rfl⟩
abbrev main_call4_v8 : Ref sig .tc := ⟨.hbm, 125, rfl⟩
abbrev main_call4_v9 : Ref sig .tc := ⟨.hbm, 126, rfl⟩
abbrev main_call4_v10 : Ref sig .tc := ⟨.hbm, 127, rfl⟩
abbrev main_v30 : Ref sig .tc := ⟨.hbm, 128, rfl⟩
abbrev main_v31 : Ref sig .tc := ⟨.hbm, 129, rfl⟩
abbrev main_call5_c : Ref sig .tc := ⟨.hbm, 130, rfl⟩
abbrev main_call5_v0 : Ref sig .tc := ⟨.hbm, 131, rfl⟩
abbrev main_call5_v1 : Ref sig .tc := ⟨.hbm, 132, rfl⟩
abbrev main_call5_c_0 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_call5_v5 : Ref sig .tc := ⟨.hbm, 137, rfl⟩
abbrev main_call5_c_1 : Ref sig .tc := ⟨.hbm, 138, rfl⟩
abbrev main_call5_c_2 : Ref sig .tc := ⟨.hbm, 139, rfl⟩
abbrev main_call5_v6 : Ref sig .tc := ⟨.hbm, 140, rfl⟩
abbrev main_call5_v7 : Ref sig .tc := ⟨.hbm, 141, rfl⟩
abbrev main_call5_v8 : Ref sig .tc := ⟨.hbm, 142, rfl⟩
abbrev main_call5_v9 : Ref sig .tc := ⟨.hbm, 143, rfl⟩
abbrev main_call5_v10 : Ref sig .tc := ⟨.hbm, 144, rfl⟩
abbrev main_call5_v11 : Ref sig .tc := ⟨.hbm, 145, rfl⟩
abbrev main_call5_c_3 : Ref sig .tc := ⟨.hbm, 146, rfl⟩
abbrev main_call5_v12 : Ref sig .tc := ⟨.hbm, 147, rfl⟩
abbrev main_call5_v13 : Ref sig .tc := ⟨.hbm, 148, rfl⟩
abbrev main_call5_cst : Ref sig .tc := ⟨.hbm, 149, rfl⟩
abbrev main_call5_v14 : Ref sig .tc := ⟨.hbm, 150, rfl⟩
abbrev main_v32 : Ref sig .tc := ⟨.hbm, 151, rfl⟩
abbrev main_v33 : Ref sig .tc := ⟨.hbm, 152, rfl⟩
abbrev main_c_2 : Ref sig .tc := ⟨.hbm, 153, rfl⟩
abbrev main_v34 : Ref sig .tc := ⟨.hbm, 154, rfl⟩
abbrev main_v35 : Ref sig .tc := ⟨.hbm, 155, rfl⟩
abbrev main_v36 : Ref sig .tc := ⟨.hbm, 156, rfl⟩
abbrev main_v37 : Ref sig .tc := ⟨.hbm, 157, rfl⟩
abbrev main_cst_3 : Ref sig .tc := ⟨.hbm, 158, rfl⟩
abbrev main_v38 : Ref sig .tc := ⟨.hbm, 159, rfl⟩
abbrev main_v39 : Ref sig .tc := ⟨.hbm, 160, rfl⟩
abbrev main_v40 : Ref sig .tc := ⟨.hbm, 161, rfl⟩
abbrev main_v41 : Ref sig .tc := ⟨.hbm, 162, rfl⟩
abbrev main_v42 : Ref sig .tc := ⟨.hbm, 163, rfl⟩
abbrev main_call6_cst : Ref sig .tc := ⟨.hbm, 164, rfl⟩
abbrev main_call6_v0 : Ref sig .tc := ⟨.hbm, 165, rfl⟩
abbrev main_call6_cst_0 : Ref sig .tc := ⟨.hbm, 166, rfl⟩
abbrev main_call6_v1 : Ref sig .tc := ⟨.hbm, 167, rfl⟩
abbrev main_call6_v2 : Ref sig .tc := ⟨.hbm, 168, rfl⟩
abbrev main_call6_v3 : Ref sig .tc := ⟨.hbm, 169, rfl⟩
abbrev main_call6_v4 : Ref sig .tc := ⟨.hbm, 170, rfl⟩
abbrev main_call6_v5 : Ref sig .tc := ⟨.hbm, 171, rfl⟩
abbrev main_call6_v6 : Ref sig .tc := ⟨.hbm, 172, rfl⟩
abbrev main_call6_cst_1 : Ref sig .tc := ⟨.hbm, 173, rfl⟩
abbrev main_call6_v7 : Ref sig .tc := ⟨.hbm, 174, rfl⟩
abbrev main_call6_v8 : Ref sig .tc := ⟨.hbm, 175, rfl⟩
abbrev main_call6_v9 : Ref sig .tc := ⟨.hbm, 176, rfl⟩
abbrev main_call6_v10 : Ref sig .tc := ⟨.hbm, 177, rfl⟩
abbrev main_v43 : Ref sig .tc := ⟨.hbm, 178, rfl⟩
abbrev main_v44 : Ref sig .tc := ⟨.hbm, 179, rfl⟩
abbrev main_call7_c : Ref sig .tc := ⟨.hbm, 180, rfl⟩
abbrev main_call7_v0 : Ref sig .tc := ⟨.hbm, 181, rfl⟩
abbrev main_call7_v1 : Ref sig .tc := ⟨.hbm, 182, rfl⟩
abbrev main_call7_c_0 : Ref sig .tc := ⟨.hbm, 183, rfl⟩
abbrev main_call7_v2 : Ref sig .tc := ⟨.hbm, 184, rfl⟩
abbrev main_call7_v3 : Ref sig .tc := ⟨.hbm, 185, rfl⟩
abbrev main_call7_v4 : Ref sig .tc := ⟨.hbm, 186, rfl⟩
abbrev main_call7_v5 : Ref sig .tc := ⟨.hbm, 187, rfl⟩
abbrev main_call7_c_1 : Ref sig .tc := ⟨.hbm, 188, rfl⟩
abbrev main_call7_c_2 : Ref sig .tc := ⟨.hbm, 189, rfl⟩
abbrev main_call7_v6 : Ref sig .tc := ⟨.hbm, 190, rfl⟩
abbrev main_call7_v7 : Ref sig .tc := ⟨.hbm, 191, rfl⟩
abbrev main_call7_v8 : Ref sig .tc := ⟨.hbm, 192, rfl⟩
abbrev main_call7_v9 : Ref sig .tc := ⟨.hbm, 193, rfl⟩
abbrev main_call7_v10 : Ref sig .tc := ⟨.hbm, 194, rfl⟩
abbrev main_call7_v11 : Ref sig .tc := ⟨.hbm, 195, rfl⟩
abbrev main_call7_c_3 : Ref sig .tc := ⟨.hbm, 196, rfl⟩
abbrev main_call7_v12 : Ref sig .tc := ⟨.hbm, 197, rfl⟩
abbrev main_call7_v13 : Ref sig .tc := ⟨.hbm, 198, rfl⟩
abbrev main_call7_cst : Ref sig .tc := ⟨.hbm, 199, rfl⟩
abbrev main_call7_v14 : Ref sig .tc := ⟨.hbm, 200, rfl⟩
abbrev main_v45 : Ref sig .tc := ⟨.hbm, 201, rfl⟩
abbrev main_v46 : Ref sig .tc := ⟨.hbm, 202, rfl⟩
abbrev main_c_4 : Ref sig .tc := ⟨.hbm, 203, rfl⟩
abbrev main_v47 : Ref sig .tc := ⟨.hbm, 204, rfl⟩
abbrev main_v48 : Ref sig .tc := ⟨.hbm, 205, rfl⟩
abbrev main_v49 : Ref sig .tc := ⟨.hbm, 206, rfl⟩
abbrev main_v50 : Ref sig .tc := ⟨.hbm, 207, rfl⟩
abbrev main_cst_5 : Ref sig .tc := ⟨.hbm, 208, rfl⟩
abbrev main_v51 : Ref sig .tc := ⟨.hbm, 209, rfl⟩
abbrev main_v52 : Ref sig .tc := ⟨.hbm, 210, rfl⟩
abbrev main_v53 : Ref sig .tc := ⟨.hbm, 211, rfl⟩
abbrev main_v54 : Ref sig .tc := ⟨.hbm, 212, rfl⟩
abbrev main_cst_6 : Ref sig .tc := ⟨.hbm, 213, rfl⟩
abbrev main_v55 : Ref sig .tc := ⟨.hbm, 214, rfl⟩
abbrev main_v56 : Ref sig .tc := ⟨.hbm, 215, rfl⟩
abbrev main_call8_v0 : Ref sig .tc := ⟨.hbm, 216, rfl⟩
abbrev main_call8_call0_cst : Ref sig .tc := ⟨.hbm, 217, rfl⟩
abbrev main_call8_call0_v0 : Ref sig .tc := ⟨.hbm, 218, rfl⟩
abbrev main_call8_call0_v1 : Ref sig .tc := ⟨.hbm, 219, rfl⟩
abbrev main_call8_call0_v2 : Ref sig .tc := ⟨.hbm, 220, rfl⟩
abbrev main_call8_call0_v3 : Ref sig .tc := ⟨.hbm, 221, rfl⟩
abbrev main_call8_call0_v4 : Ref sig .tc := ⟨.hbm, 222, rfl⟩
abbrev main_call8_call0_v5 : Ref sig .tc := ⟨.hbm, 223, rfl⟩
abbrev main_call8_call0_v6 : Ref sig .tc := ⟨.hbm, 224, rfl⟩
abbrev main_call8_call0_v7 : Ref sig .tc := ⟨.hbm, 225, rfl⟩
abbrev main_call8_call0_v8 : Ref sig .tc := ⟨.hbm, 226, rfl⟩
abbrev main_call8_call0_v9 : Ref sig .tc := ⟨.hbm, 227, rfl⟩
abbrev main_call8_call0_v10 : Ref sig .tc := ⟨.hbm, 228, rfl⟩
abbrev main_call8_call0_v11 : Ref sig .tc := ⟨.hbm, 229, rfl⟩
abbrev main_call8_v1 : Ref sig .tc := ⟨.hbm, 230, rfl⟩
abbrev main_v57 : Ref sig .tc := ⟨.hbm, 231, rfl⟩
abbrev main_cst_7 : Ref sig .tc := ⟨.hbm, 232, rfl⟩
abbrev main_v58 : Ref sig .tc := ⟨.hbm, 233, rfl⟩
abbrev main_v59 : Ref sig .tc := ⟨.hbm, 234, rfl⟩
abbrev main_cst_8 : Ref sig .tc := ⟨.hbm, 235, rfl⟩
abbrev main_v60 : Ref sig .tc := ⟨.hbm, 236, rfl⟩
abbrev main_v61 : Ref sig .tc := ⟨.hbm, 237, rfl⟩
abbrev main_cst_9 : Ref sig .tc := ⟨.hbm, 238, rfl⟩
abbrev main_v62 : Ref sig .tc := ⟨.hbm, 239, rfl⟩
abbrev main_v63 : Ref sig .tc := ⟨.hbm, 240, rfl⟩
abbrev main_v64 : Ref sig .tc := ⟨.hbm, 241, rfl⟩
abbrev main_cst_10 : Ref sig .tc := ⟨.hbm, 242, rfl⟩
abbrev main_v65 : Ref sig .tc := ⟨.hbm, 243, rfl⟩
abbrev main_v66 : Ref sig .tc := ⟨.hbm, 244, rfl⟩
abbrev main_v67 : Ref sig .tc := ⟨.hbm, 245, rfl⟩
abbrev main_cst_11 : Ref sig .tc := ⟨.hbm, 246, rfl⟩
abbrev main_v68 : Ref sig .tc := ⟨.hbm, 247, rfl⟩
abbrev main_cst_12 : Ref sig .tc := ⟨.hbm, 248, rfl⟩
abbrev main_v69 : Ref sig .tc := ⟨.hbm, 249, rfl⟩
abbrev main_v70 : Ref sig .tc := ⟨.hbm, 250, rfl⟩
abbrev main_v71 : Ref sig .tc := ⟨.hbm, 251, rfl⟩
abbrev main_cst_13 : Ref sig .tc := ⟨.hbm, 252, rfl⟩
abbrev main_v72 : Ref sig .tc := ⟨.hbm, 253, rfl⟩
abbrev main_cst_14 : Ref sig .tc := ⟨.hbm, 254, rfl⟩
abbrev main_v73 : Ref sig .tc := ⟨.hbm, 255, rfl⟩
abbrev main_cst_15 : Ref sig .tc := ⟨.hbm, 256, rfl⟩
abbrev main_v74 : Ref sig .tc := ⟨.hbm, 257, rfl⟩
abbrev main_cst_16 : Ref sig .tc := ⟨.hbm, 258, rfl⟩
abbrev main_v75 : Ref sig .tc := ⟨.hbm, 259, rfl⟩
abbrev main_cst_17 : Ref sig .tc := ⟨.hbm, 260, rfl⟩
abbrev main_v76 : Ref sig .tc := ⟨.hbm, 261, rfl⟩
abbrev main_cst_18 : Ref sig .tc := ⟨.hbm, 262, rfl⟩
abbrev main_v77 : Ref sig .tc := ⟨.hbm, 263, rfl⟩
abbrev main_cst_19 : Ref sig .tc := ⟨.hbm, 264, rfl⟩

abbrev nD : Nat := 1
abbrev τ : Topo := Topo.v7x

variable {F : FTy → Type} [FloatOps F]

class Facts₀ : Prop where
  bcast_S32000_S1x1x32000_2 : S32000.BroadcastsInDim S1x1x32000 (![2] : Fin 1 → Fin S1x1x32000.rank)
  bcast_S1x1x32000_S2x512x32000_0_1_2 : S1x1x32000.BroadcastsInDim S2x512x32000 (![0, 1, 2] : Fin 3 → Fin S2x512x32000.rank)
  reducesTo_S2x512x32000_S2x512_d2 : S2x512x32000.ReducesTo [2] S2x512
  h_S_ : 0 < S_.numel
  bcast_S_S2x512 : S_.BroadcastsInDim S2x512 (![] : Fin 0 → Fin S2x512.rank)
  bcast_S2x512_S2x512x1_0_1 : S2x512.BroadcastsInDim S2x512x1 (![0, 1] : Fin 2 → Fin S2x512x1.rank)
  bcast_S2x512x1_S2x512x32000_0_1_2 : S2x512x1.BroadcastsInDim S2x512x32000 (![0, 1, 2] : Fin 3 → Fin S2x512x32000.rank)
  bcast_S_S2x512x1 : S_.BroadcastsInDim S2x512x1 (![] : Fin 0 → Fin S2x512x1.rank)
  shapeCasts_S2x512x1_S2x512x1x1 : S2x512x1.ShapeCasts S2x512x1x1
  bcast_S_S2x512x1x1 : S_.BroadcastsInDim S2x512x1x1 (![] : Fin 0 → Fin S2x512x1x1.rank)
  bcast_S1_S1x1x1x1_3 : S1.BroadcastsInDim S1x1x1x1 (![3] : Fin 1 → Fin S1x1x1x1.rank)
  bcast_S1x1x1x1_S2x512x1x1_0_1_2_3 : S1x1x1x1.BroadcastsInDim S2x512x1x1 (![0, 1, 2, 3] : Fin 4 → Fin S2x512x1x1.rank)
  reducesTo_S2x512x1x1_S2x512x1_d3 : S2x512x1x1.ReducesTo [3] S2x512x1
  shapeCasts_S2x512x1_S2x512 : S2x512x1.ShapeCasts S2x512
  reducesTo_S2x512_S2_d1 : S2x512.ReducesTo [1] S2
  bcast_S_S2 : S_.BroadcastsInDim S2 (![] : Fin 0 → Fin S2.rank)
  reducesTo_S2_S_d0 : S2.ReducesTo [0] S_
  dot_S2x512x2048_S32000x2048_S2x512x32000_2_1_01_0_n_n_wf : DotDims.WF S2x512x2048 S32000x2048 S2x512x32000 [2] [1] [0, 1] [0] [] []
  gather_S2x512x32000_S2x512x1x1_S2x512x1_n_2_01_01_2_3_111_wf : GatherDims.WF S2x512x32000 S2x512x1x1 S2x512x1 [] [2] [0, 1] [2] [0, 1] 3 ![1, 1, 1]

variable [Facts₀]

def dot_S2x512x2048_S32000x2048_S2x512x32000_2_1_01_0_n_n : DotDims S2x512x2048 S32000x2048 S2x512x32000 where
  lhsContracting := [2]
  rhsContracting := [1]
  lhsNonContracting := [0, 1]
  rhsNonContracting := [0]
  lhsBatch := []
  rhsBatch := []
  wf := dot_S2x512x2048_S32000x2048_S2x512x32000_2_1_01_0_n_n_wf
def gather_S2x512x32000_S2x512x1x1_S2x512x1_n_2_01_01_2_3_111 : GatherDims S2x512x32000 S2x512x1x1 S2x512x1 where
  offsetDims := []
  collapsedSliceDims := [2]
  operandBatchingDims := [0, 1]
  startIndicesBatchingDims := [0, 1]
  startIndexMap := [2]
  indexVectorDim := 3
  sliceSizes := ![1, 1, 1]
  wf := gather_S2x512x32000_S2x512x1x1_S2x512x1_n_2_01_01_2_3_111_wf

class Facts : Prop extends Facts₀ where

variable [Facts]
-- ==== Proof.R0Runs.lean ====
import proofs.«421999_j71975061946951_3_alg».proof.Proof.Gen.KernelIdeal.Launch
import proofs.«421999_j71975061946951_3_alg».proof.Proof.Gen.KernelIdeal.Skeleton
import proofs.«421999_j71975061946951_3_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 25 = 0 :=
  (by decide +kernel : ∀ t : Fin grid0.N, cond0_0 (grid0.coords t) ↔ t.val % 25 = 0)

abbrev cond0_1 (i : grid0.Coords) : Prop := k0_cond2 i = 1#1

theorem hcond0_1 : ∀ t : Fin cfg0.N, cond0_1 (grid0.coords t) ↔ t.val % 25 = 24 :=
  (by decide +kernel : ∀ t : Fin grid0.N, cond0_1 (grid0.coords t) ↔ t.val % 25 = 24)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4_A : ∀ t : Fin cfg0.N, cond0_0 (grid0.coords t) → ¬cond0_1 (grid0.coords t) → cfg0.idle 4 (grid0.coords t) = true := by decide +kernel

theorem noFlush0_4_A : ∀ t : Fin cfg0.N, cond0_0 (grid0.coords t) → ¬cond0_1 (grid0.coords t) → (cfg0.win 4).flush t = false := by decide +kernel

theorem idleAt0_4_B : ∀ t : Fin cfg0.N, ¬cond0_0 (grid0.coords t) → ¬cond0_1 (grid0.coords t) → cfg0.idle 4 (grid0.coords t) = true := by decide +kernel

theorem noFlush0_4_B : ∀ t : Fin cfg0.N, ¬cond0_0 (grid0.coords t) → ¬cond0_1 (grid0.coords t) → (cfg0.win 4).flush t = false := by decide +kernel

theorem liveAt0_4_C : ∀ t : Fin cfg0.N, ¬cond0_0 (grid0.coords t) → cond0_1 (grid0.coords t) → cfg0.idle 4 (grid0.coords t) = false := by decide +kernel

abbrev VO0_4 : View sig .tc .vmem S256x1 .f32 := (Memref.whole cc0_stg4_0 : Memref sig .tc .vmem S256x1 .f32).view

abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .f32 := win0_4.stage (cfg0.slots t 4)
abbrev hs0_4 (t : Fin cfg0.N) : (ms0_4 t).IsWhole := hstage0_4 ((cfg0.slots t 4).cast nbuf0_4)

abbrev scM0_0 : Memref sig .tc .vmem S256x1 .f32 := Memref.whole cc0_scratch0
abbrev scM0_1 : Memref sig .tc .vmem S256x1 .f32 := Memref.whole cc0_scratch1
abbrev scM0_2 : Memref sig .tc .vmem S256x1 .f32 := Memref.whole cc0_scratch2
abbrev VS0_0 : View sig .tc .vmem S256x1 .f32 := scM0_0.view
abbrev VS0_1 : View sig .tc .vmem S256x1 .f32 := scM0_1.view
abbrev VS0_2 : View sig .tc .vmem S256x1 .f32 := scM0_2.view

def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ otherScoped0 (F := F) c) ∗ (∃ r, prngReg c r)) := by
  unfold Pipeline.ΦA otherScoped0; rw [scopedRest0_eq]; simp only [scM0_0, scM0_1, scM0_2, owns_whole]; try rfl

end Cert.KernelIdeal.Hand

end
-- ==== Proof.R0RunA.lean ====
import proofs.«421999_j71975061946951_3_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S256x2048 .bf16) (harg2 : arg2.IsWhole) (arg3 : Memref sig .tc .vmem S1280x2048 .f32) (harg3 : arg3.IsWhole) (arg4 : Memref sig .tc .vmem S1x1280 .f32) (harg4 : arg4.IsWhole) (arg5 : Memref sig .tc .vmem S256x1 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : cond0_0 i) (hc1 : ¬cond0_1 i)
    (x0 : Vec F S256x2048 .bf16) (x1 : Vec F S1280x2048 .f32) (x2 : Vec F S1x1280 .f32) (x3 : Vec F S256x1 .i32) :
    Σ' (L4 : List (View.Piece (Elt F) S256x1 .f32)) (LS0 : List (View.Piece (Elt F) S256x1 .f32)) (LS1 : List (View.Piece (Elt F) S256x1 .f32)), { LS2 : List (View.Piece (Elt F) S256x1 .f32) //
      ∀ (xi4 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__seqlogp_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__seqlogp_kernel_eq_skeleton]; unfold cc0__seqlogp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.R0RunB.lean ====
import proofs.«421999_j71975061946951_3_alg».proof.Proof.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S256x2048 .bf16) (harg2 : arg2.IsWhole) (arg3 : Memref sig .tc .vmem S1280x2048 .f32) (harg3 : arg3.IsWhole) (arg4 : Memref sig .tc .vmem S1x1280 .f32) (harg4 : arg4.IsWhole) (arg5 : Memref sig .tc .vmem S256x1 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬cond0_0 i) (hc1 : ¬cond0_1 i)
    (x0 : Vec F S256x2048 .bf16) (x1 : Vec F S1280x2048 .f32) (x2 : Vec F S1x1280 .f32) (x3 : Vec F S256x1 .i32) (xs0 : Vec F S256x1 .f32) (xs1 : Vec F S256x1 .f32) (xs2 : Vec F S256x1 .f32) :
    Σ' (L4 : List (View.Piece (Elt F) S256x1 .f32)) (LS0 : List (View.Piece (Elt F) S256x1 .f32)) (LS1 : List (View.Piece (Elt F) S256x1 .f32)), { LS2 : List (View.Piece (Elt F) S256x1 .f32) //
      ∀ (xi4 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__seqlogp_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__seqlogp_kernel_eq_skeleton]; unfold cc0__seqlogp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.R0RunC.lean ====
import proofs.«421999_j71975061946951_3_alg».proof.Proof.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S256x2048 .bf16) (harg2 : arg2.IsWhole) (arg3 : Memref sig .tc .vmem S1280x2048 .f32) (harg3 : arg3.IsWhole) (arg4 : Memref sig .tc .vmem S1x1280 .f32) (harg4 : arg4.IsWhole) (arg5 : Memref sig .tc .vmem S256x1 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬cond0_0 i) (hc1 : cond0_1 i)
    (x0 : Vec F S256x2048 .bf16) (x1 : Vec F S1280x2048 .f32) (x2 : Vec F S1x1280 .f32) (x3 : Vec F S256x1 .i32) (xs0 : Vec F S256x1 .f32) (xs1 : Vec F S256x1 .f32) (xs2 : Vec F S256x1 .f32) :
    Σ' (L4 : List (View.Piece (Elt F) S256x1 .f32)) (LS0 : List (View.Piece (Elt F) S256x1 .f32)) (LS1 : List (View.Piece (Elt F) S256x1 .f32)), { LS2 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__seqlogp_kernel i arg2 harg2 arg3 harg3 arg4 harg4 arg5 harg5 arg6 harg6 arg7 harg7 arg8 harg8 arg9 harg9) K } := by
  refine ⟨?_, ?_, ?_, ?_, fun E K => ?run⟩
  case run =>
    simp only [cc0__seqlogp_kernel_eq_skeleton]; unfold cc0__seqlogp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.Cases.lean ====
import proofs.«421999_j71975061946951_3_alg».proof.Proof.R0RunC
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What one run of the kernel body leaves in the output block and in the three carried columns, case by case (first, middle,
    last vocabulary chunk): the pieces the run stored, read back through any view of the block's shape. Both calls use these. -/

section Cases
variable (VO VS0 VS1 VS2 : View sig .tc .vmem S256x1 .f32)
variable (c : Dev nD) (i : grid0.Coords) (arg2 : Memref sig .tc .vmem S256x2048 .bf16) (harg2 : arg2.IsWhole) (arg3 : Memref sig .tc .vmem S1280x2048 .f32) (harg3 : arg3.IsWhole) (arg4 : Memref sig .tc .vmem S1x1280 .f32) (harg4 : arg4.IsWhole) (arg5 : Memref sig .tc .vmem S256x1 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)

section
variable (hc0 : cond0_0 i) (hc1 : ¬cond0_1 i) (x0 : Vec F S256x2048 .bf16) (x1 : Vec F S1280x2048 .f32) (x2 : Vec F S1x1280 .f32) (x3 : Vec F S256x1 .i32)

def outA : Vec F S256x1 .f32 :=
  VO.read (Elt F) (VO.writes (Elt F) VO.junk (kernelRun0_A c i arg2 harg2 arg3 harg3 arg4 harg4 arg5 harg5 arg6 harg6 arg7 harg7 arg8 harg8 arg9 harg9 hc0 hc1 x0 x1 x2 x3).1)

theorem scoverA_0 (y : S256x1.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S256x1.size (by sl_kernel_rfl) y

def soutA_0 : Vec F S256x1 .f32 :=
  VS0.read (Elt F) (VS0.writes (Elt F) VS0.junk (kernelRun0_A c i arg2 harg2 arg3 harg3 arg4 harg4 arg5 harg5 arg6 harg6 arg7 harg7 arg8 harg8 arg9 harg9 hc0 hc1 x0 x1 x2 x3).2.1)

theorem scoverA_1 (y : S256x1.Idx) :
    ∃ pc ∈ (kernelRun0_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.1 S256x1.size (by sl_kernel_rfl) y

def soutA_1 : Vec F S256x1 .f32 :=
  VS1.read (Elt F) (VS1.writes (Elt F) VS1.junk (kernelRun0_A c i arg2 harg2 arg3 harg3 arg4 harg4 arg5 harg5 arg6 harg6 arg7 harg7 arg8 harg8 arg9 harg9 hc0 hc1 x0 x1 x2 x3).2.2.1)

theorem scoverA_2 (y : S256x1.Idx) :
    ∃ pc ∈ (kernelRun0_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.2.1 S256x1.size (by sl_kernel_rfl) y

def soutA_2 : Vec F S256x1 .f32 :=
  VS2.read (Elt F) (VS2.writes (Elt F) VS2.junk (kernelRun0_A c i arg2 harg2 arg3 harg3 arg4 harg4 arg5 harg5 arg6 harg6 arg7 harg7 arg8 harg8 arg9 harg9 hc0 hc1 x0 x1 x2 x3).2.2.2.1)

end

section
variable (hc0 : ¬cond0_0 i) (hc1 : ¬cond0_1 i) (x0 : Vec F S256x2048 .bf16) (x1 : Vec F S1280x2048 .f32) (x2 : Vec F S1x1280 .f32) (x3 : Vec F S256x1 .i32) (xs0 xs1 xs2 : Vec F S256x1 .f32)

def outB : Vec F S256x1 .f32 :=
  VO.read (Elt F) (VO.writes (Elt F) VO.junk (kernelRun0_B c i arg2 harg2 arg3 harg3 arg4 harg4 arg5 harg5 arg6 harg6 arg7 harg7 arg8 harg8 arg9 harg9 hc0 hc1 x0 x1 x2 x3 xs0 xs1 xs2).1)

theorem scoverB_0 (y : S256x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.1 S256x1.size (by sl_kernel_rfl) y

def soutB_0 : Vec F S256x1 .f32 :=
  VS0.read (Elt F) (VS0.writes (Elt F) VS0.junk (kernelRun0_B c i arg2 harg2 arg3 harg3 arg4 harg4 arg5 harg5 arg6 harg6 arg7 harg7 arg8 harg8 arg9 harg9 hc0 hc1 x0 x1 x2 x3 xs0 xs1 xs2).2.1)

theorem scoverB_1 (y : S256x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.2.1 S256x1.size (by sl_kernel_rfl) y

def soutB_1 : Vec F S256x1 .f32 :=
  VS1.read (Elt F) (VS1.writes (Elt F) VS1.junk (kernelRun0_B c i arg2 harg2 arg3 harg3 arg4 harg4 arg5 harg5 arg6 harg6 arg7 harg7 arg8 harg8 arg9 harg9 hc0 hc1 x0 x1 x2 x3 xs0 xs1 xs2).2.2.1)

theorem scoverB_2 (y : S256x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.2.2.1 S256x1.size (by sl_kernel_rfl) y

def soutB_2 : Vec F S256x1 .f32 :=
  VS2.read (Elt F) (VS2.writes (Elt F) VS2.junk (kernelRun0_B c i arg2 harg2 arg3 harg3 arg4 harg4 arg5 harg5 arg6 harg6 arg7 harg7 arg8 harg8 arg9 harg9 hc0 hc1 x0 x1 x2 x3 xs0 xs1 xs2).2.2.2.1)

end

section
variable (hc0 : ¬cond0_0 i) (hc1 : cond0_1 i) (x0 : Vec F S256x2048 .bf16) (x1 : Vec F S1280x2048 .f32) (x2 : Vec F S1x1280 .f32) (x3 : Vec F S256x1 .i32) (xs0 xs1 xs2 : Vec F S256x1 .f32)

theorem coverC (y : S256x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).1 S256x1.size (by sl_kernel_rfl) y

def outC : Vec F S256x1 .f32 :=
  VO.read (Elt F) (VO.writes (Elt F) VO.junk (kernelRun0_C c i arg2 harg2 arg3 harg3 arg4 harg4 arg5 harg5 arg6 harg6 arg7 harg7 arg8 harg8 arg9 harg9 hc0 hc1 x0 x1 x2 x3 xs0 xs1 xs2).1)

theorem scoverC_0 (y : S256x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.1 S256x1.size (by sl_kernel_rfl) y

def soutC_0 : Vec F S256x1 .f32 :=
  VS0.read (Elt F) (VS0.writes (Elt F) VS0.junk (kernelRun0_C c i arg2 harg2 arg3 harg3 arg4 harg4 arg5 harg5 arg6 harg6 arg7 harg7 arg8 harg8 arg9 harg9 hc0 hc1 x0 x1 x2 x3 xs0 xs1 xs2).2.1)

theorem scoverC_1 (y : S256x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.2.1 S256x1.size (by sl_kernel_rfl) y

def soutC_1 : Vec F S256x1 .f32 :=
  VS1.read (Elt F) (VS1.writes (Elt F) VS1.junk (kernelRun0_C c i arg2 harg2 arg3 harg3 arg4 harg4 arg5 harg5 arg6 harg6 arg7 harg7 arg8 harg8 arg9 harg9 hc0 hc1 x0 x1 x2 x3 xs0 xs1 xs2).2.2.1)

theorem scoverC_2 (y : S256x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.2.2.1 S256x1.size (by sl_kernel_rfl) y

def soutC_2 : Vec F S256x1 .f32 :=
  VS2.read (Elt F) (VS2.writes (Elt F) VS2.junk (kernelRun0_C c i arg2 harg2 arg3 harg3 arg4 harg4 arg5 harg5 arg6 harg6 arg7 harg7 arg8 harg8 arg9 harg9 hc0 hc1 x0 x1 x2 x3 xs0 xs1 xs2).2.2.2.1)

end

end Cases

end Cert.KernelIdeal.Hand

end
-- ==== Proof.R0Body.lean ====
import proofs.«421999_j71975061946951_3_alg».proof.Proof.Cases
import proofs.«421999_j71975061946951_3_alg».proof.Proof.R0Runs
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

def at0_A (c : Dev nD) (t : Fin cfg0.N) (h0 : t.val % 25 = 0) (h1 : ¬t.val % 25 = 24) : Vec F S256x1 .f32 × Vec F S256x1 .f32 × Vec F S256x1 .f32 × Vec F S256x1 .f32 :=
  (outA VO0_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t),
   soutA_0 VS0_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t),
   soutA_1 VS0_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t),
   soutA_2 VS0_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t))

def at0_B (c : Dev nD) (t : Fin cfg0.N) (h0 : ¬t.val % 25 = 0) (h1 : ¬t.val % 25 = 24) (p : Vec F S256x1 .f32 × Vec F S256x1 .f32 × Vec F S256x1 .f32 × Vec F S256x1 .f32) : Vec F S256x1 .f32 × Vec F S256x1 .f32 × Vec F S256x1 .f32 × Vec F S256x1 .f32 :=
  (outB VO0_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) p.2.1 p.2.2.1 p.2.2.2,
   soutB_0 VS0_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) p.2.1 p.2.2.1 p.2.2.2,
   soutB_1 VS0_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) p.2.1 p.2.2.1 p.2.2.2,
   soutB_2 VS0_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) p.2.1 p.2.2.1 p.2.2.2)

def at0_C (c : Dev nD) (t : Fin cfg0.N) (h0 : ¬t.val % 25 = 0) (h1 : t.val % 25 = 24) (p : Vec F S256x1 .f32 × Vec F S256x1 .f32 × Vec F S256x1 .f32 × Vec F S256x1 .f32) : Vec F S256x1 .f32 × Vec F S256x1 .f32 × Vec F S256x1 .f32 × Vec F S256x1 .f32 :=
  (outC VO0_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) p.2.1 p.2.2.1 p.2.2.2,
   soutC_0 VS0_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) p.2.1 p.2.2.1 p.2.2.2,
   soutC_1 VS0_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) p.2.1 p.2.2.1 p.2.2.2,
   soutC_2 VS0_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) p.2.1 p.2.2.1 p.2.2.2)

def outsAt0 (c : Dev nD) : (n : ℕ) → n < cfg0.N → Vec F S256x1 .f32 × Vec F S256x1 .f32 × Vec F S256x1 .f32 × Vec F S256x1 .f32
  | 0, hn => at0_A V c ⟨0, hn⟩ (Nat.zero_mod _) (by show ¬(0 % 25 = 24); decide)
  | n + 1, hn =>
    if h0 : (n + 1) % 25 = 0 then at0_A V c ⟨n + 1, hn⟩ h0 (by show ¬((n + 1) % 25 = 24); omega)
    else if h1 : (n + 1) % 25 = 24 then at0_C V c ⟨n + 1, hn⟩ h0 h1 (outsAt0 c n (Nat.lt_of_succ_lt hn))
    else at0_B V c ⟨n + 1, hn⟩ h0 h1 (outsAt0 c n (Nat.lt_of_succ_lt hn))

theorem outsAt0_A (c : Dev nD) (t : Fin cfg0.N) (h0 : t.val % 25 = 0) (h1 : ¬t.val % 25 = 24) :
    outsAt0 V c t.val t.isLt = at0_A V c t h0 h1 := by
  obtain ⟨n, hn⟩ := t
  cases n with
  | zero => rfl
  | succ n => exact dif_pos h0

theorem outsAt0_B (c : Dev nD) (t : Fin cfg0.N) (h0 : ¬t.val % 25 = 0) (h1 : ¬t.val % 25 = 24) :
    outsAt0 V c t.val t.isLt = at0_B V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 25 = 0) (h1 : t.val % 25 = 24) :
    outsAt0 V c t.val t.isLt = at0_C V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

def colsAt (c : Dev nD) (p : Vec F S256x1 .f32 × Vec F S256x1 .f32 × Vec F S256x1 .f32 × Vec F S256x1 .f32) : sProp 𝕄 :=
  iprop(iprop(owns (c : Thread nD τ) scM0_0 fullShare p.2.1 ∗ owns (c : Thread nD τ) scM0_1 fullShare p.2.2.1 ∗ owns (c : Thread nD τ) scM0_2 fullShare p.2.2.2 ∗ otherScoped0 (F := F) c) ∗ (∃ r, prngReg c r))

def PhiS0 (c : Dev nD) : (n : ℕ) → n ≤ cfg0.N → sProp 𝕄
  | 0, _ => Pipeline.ΦA spec0 c
  | n + 1, hn => colsAt c (outsAt0 V c n hn)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) : PhiS0 V c (n + 1) hn = colsAt c (outsAt0 V c n hn) := rfl

theorem PhiS0_pos (c : Dev nD) (n : ℕ) (h : n ≤ cfg0.N) (hz : n ≠ 0) :
    PhiS0 V c n h = colsAt c (outsAt0 V c (n - 1) (by omega)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  unfold colsAt
  iintro ⟨⟨HS0, HS1, HS2, Hr⟩, Hg⟩
  isplitl [HS0 HS1 HS2 Hr]
  · isplitl [HS0]; · iexists _; iexact HS0
    isplitl [HS1]; · iexists _; iexact HS1
    isplitl [HS2]; · iexists _; iexact HS2
    iexact Hr
  iexact Hg

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 200 := lt_of_lt_of_eq t.isLt (show cfg0.N = 200 from N_0)
  by_cases h0 : t.val % 25 = 0
  · have h1 : ¬t.val % 25 = 24 := by omega
    rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
    rw [outsAt0_A V c t h0 h1]
    unfold colsAt at0_A soutA_0 soutA_1 soutA_2; (try dsimp only)
    have hΦ : (dat0 V c).Φ t.castSucc ⊢ Pipeline.ΦA spec0 c := by
      by_cases hz : t.val = 0
      · rw [PhiS0_castSucc V c t, PhiS0_zero V c _ _ hz]
      · exact Phi_out0 V c t.castSucc hz
    rw [PhiA0_eq] at hΦ
    iintro ⟨HΦ, Ho, ⟨%d0, H0⟩, ⟨%d1, H1⟩, ⟨%d2, H2⟩, ⟨%d3, H3⟩, ⟨%d4, H4⟩⟩
    ihave HΦ := hΦ $$ HΦ
    icases HΦ with ⟨⟨HS0, HS1, HS2, Hr⟩, Hg⟩
    iapply ((kernelRun0_A c (grid0.coords t) _ (hs0_0 t) _ (hs0_1 t) _ (hs0_2 t) _ (hs0_3 t) _ (hs0_4 t) _ (Memref.isWhole_whole _) _ (Memref.isWhole_whole _) _ (Memref.isWhole_whole _) ((hcond0_0 t).mpr h0) (fun h => h1 ((hcond0_1 t).mp h)) (iblk0 V c 0 t) (iblk0 V c 1 t) (iblk0 V c 2 t) (iblk0 V c 3 t)).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, ⟨%es0, HS0⟩, ⟨%es1, HS1⟩, ⟨%es2, HS2⟩⟩
    isplitl [HS0 HS1 HS2 Hr Hg]
    · isplitl [HS0 HS1 HS2 Hr]
      · isplitl [HS0]
        · unfold owns; iexists _; isplitr
          swap; · iexact HS0
          ipureintro; exact View.read_writes_of_cover _ _ _ _ _ (scoverA_0 c _ _ _ _ _ _ _ _ _ _ _ _ _ _ _ _ _ _ _ _ _ _ _)
        isplitl [HS1]
        · unfold owns; iexists _; isplitr
          swap; · iexact HS1
          ipureintro; exact View.read_writes_of_cover _ _ _ _ _ (scoverA_1 c _ _ _ _ _ _ _ _ _ _ _ _ _ _ _ _ _ _ _ _ _ _ _)
        isplitl [HS2]
        · unfold owns; iexists _; isplitr
          swap; · iexact HS2
          ipureintro; exact View.read_writes_of_cover _ _ _ _ _ (scoverA_2 c _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [PhiS0_castSucc V c t, PhiS0_pos V c _ _ hz]
    by_cases h1 : t.val % 25 = 24
    · rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold colsAt at0_C outC soutC_0 soutC_1 soutC_2; (try dsimp only)
      iintro ⟨⟨⟨HS0, HS1, HS2, Hr⟩, Hg⟩, Ho, ⟨%d0, H0⟩, ⟨%d1, H1⟩, ⟨%d2, H2⟩, ⟨%d3, H3⟩, ⟨%d4, H4⟩⟩
      iapply ((kernelRun0_C c (grid0.coords t) _ (hs0_0 t) _ (hs0_1 t) _ (hs0_2 t) _ (hs0_3 t) _ (hs0_4 t) _ (Memref.isWhole_whole _) _ (Memref.isWhole_whole _) _ (Memref.isWhole_whole _) (fun h => h0 ((hcond0_0 t).mp h)) ((hcond0_1 t).mpr h1) (iblk0 V c 0 t) (iblk0 V c 1 t) (iblk0 V c 2 t) (iblk0 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hr Hg]
      · isplitl [HS0 HS1 HS2 Hr]
        · isplitl [HS0]
          · unfold owns; iexists _; isplitr
            swap; · iexact HS0
            ipureintro; exact View.read_writes_of_cover _ _ _ _ _ (scoverC_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverC_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverC_2 c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _ _ _ _ _ _ _)
    · rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold colsAt at0_B soutB_0 soutB_1 soutB_2; (try dsimp only)
      iintro ⟨⟨⟨HS0, HS1, HS2, Hr⟩, Hg⟩, Ho, ⟨%d0, H0⟩, ⟨%d1, H1⟩, ⟨%d2, H2⟩, ⟨%d3, H3⟩, ⟨%d4, H4⟩⟩
      iapply ((kernelRun0_B c (grid0.coords t) _ (hs0_0 t) _ (hs0_1 t) _ (hs0_2 t) _ (hs0_3 t) _ (hs0_4 t) _ (Memref.isWhole_whole _) _ (Memref.isWhole_whole _) _ (Memref.isWhole_whole _) (fun h => h0 ((hcond0_0 t).mp h)) (fun h => h1 ((hcond0_1 t).mp h)) (iblk0 V c 0 t) (iblk0 V c 1 t) (iblk0 V c 2 t) (iblk0 V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hr Hg]
      · isplitl [HS0 HS1 HS2 Hr]
        · isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverB_2 c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c :=
  Phi_out0 V c _ (by rw [Fin.val_last]; have : cfg0.N = 200 := N_0; omega)

end Cert.KernelIdeal.Hand

end
-- ==== Proof.R1Runs.lean ====
import proofs.«421999_j71975061946951_3_alg».proof.Proof.Gen.KernelIdeal.Launch
import proofs.«421999_j71975061946951_3_alg».proof.Proof.Gen.KernelIdeal.Skeleton
import proofs.«421999_j71975061946951_3_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 25 = 0 :=
  (by decide +kernel : ∀ t : Fin grid1.N, cond1_0 (grid1.coords t) ↔ t.val % 25 = 0)

abbrev cond1_1 (i : grid1.Coords) : Prop := k1_cond2 i = 1#1

theorem hcond1_1 : ∀ t : Fin cfg1.N, cond1_1 (grid1.coords t) ↔ t.val % 25 = 24 :=
  (by decide +kernel : ∀ t : Fin grid1.N, cond1_1 (grid1.coords t) ↔ t.val % 25 = 24)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

theorem idleAt1_4_A : ∀ t : Fin cfg1.N, cond1_0 (grid1.coords t) → ¬cond1_1 (grid1.coords t) → cfg1.idle 4 (grid1.coords t) = true := by decide +kernel

theorem noFlush1_4_A : ∀ t : Fin cfg1.N, cond1_0 (grid1.coords t) → ¬cond1_1 (grid1.coords t) → (cfg1.win 4).flush t = false := by decide +kernel

theorem idleAt1_4_B : ∀ t : Fin cfg1.N, ¬cond1_0 (grid1.coords t) → ¬cond1_1 (grid1.coords t) → cfg1.idle 4 (grid1.coords t) = true := by decide +kernel

theorem noFlush1_4_B : ∀ t : Fin cfg1.N, ¬cond1_0 (grid1.coords t) → ¬cond1_1 (grid1.coords t) → (cfg1.win 4).flush t = false := by decide +kernel

theorem liveAt1_4_C : ∀ t : Fin cfg1.N, ¬cond1_0 (grid1.coords t) → cond1_1 (grid1.coords t) → cfg1.idle 4 (grid1.coords t) = false := by decide +kernel

abbrev VO1_4 : View sig .tc .vmem S256x1 .f32 := (Memref.whole cc1_stg4_0 : Memref sig .tc .vmem S256x1 .f32).view

abbrev ms1_0 (t : Fin cfg1.N) : Memref sig .tc .vmem S256x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1280 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x1 .f32 := win1_4.stage (cfg1.slots t 4)
abbrev hs1_4 (t : Fin cfg1.N) : (ms1_4 t).IsWhole := hstage1_4 ((cfg1.slots t 4).cast nbuf1_4)

abbrev scM1_0 : Memref sig .tc .vmem S256x1 .f32 := Memref.whole cc1_scratch0
abbrev scM1_1 : Memref sig .tc .vmem S256x1 .f32 := Memref.whole cc1_scratch1
abbrev scM1_2 : Memref sig .tc .vmem S256x1 .f32 := Memref.whole cc1_scratch2
abbrev VS1_0 : View sig .tc .vmem S256x1 .f32 := scM1_0.view
abbrev VS1_1 : View sig .tc .vmem S256x1 .f32 := scM1_1.view
abbrev VS1_2 : View sig .tc .vmem S256x1 .f32 := scM1_2.view

def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ otherScoped1 (F := F) c) ∗ (∃ r, prngReg c r)) := by
  unfold Pipeline.ΦA otherScoped1; rw [scopedRest1_eq]; simp only [scM1_0, scM1_1, scM1_2, owns_whole]
  refine BI.Entails.antisymm ?_ ?_
  · show (_ : sProp 𝕄) ⊢ _
    iintro ⟨⟨B0, B1, B2, B3, B4, B5, B6, B7, B8, B9, B10, B11, B12, S0, S1, S2⟩, R⟩
    isplitr [R]
    rotate_left
    · iexact R
    isplitl [S0]; · iexact S0
    isplitl [S1]; · iexact S1
    isplitl [S2]; · iexact S2
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    iexact B12
  · show (_ : sProp 𝕄) ⊢ _
    iintro ⟨⟨S0, S1, S2, B0, B1, B2, B3, B4, B5, B6, B7, B8, B9, B10, B11, B12⟩, R⟩
    isplitr [R]
    rotate_left
    · iexact R
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [S0]; · iexact S0
    isplitl [S1]; · iexact S1
    iexact S2

end Cert.KernelIdeal.Hand

end
-- ==== Proof.R1Body.lean ====
import proofs.«421999_j71975061946951_3_alg».proof.Proof.Cases
import proofs.«421999_j71975061946951_3_alg».proof.Proof.R1Runs
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

def at1_A (c : Dev nD) (t : Fin cfg1.N) (h0 : t.val % 25 = 0) (h1 : ¬t.val % 25 = 24) : Vec F S256x1 .f32 × Vec F S256x1 .f32 × Vec F S256x1 .f32 × Vec F S256x1 .f32 :=
  (outA VO1_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   soutA_0 VS1_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   soutA_1 VS1_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   soutA_2 VS1_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))

def at1_B (c : Dev nD) (t : Fin cfg1.N) (h0 : ¬t.val % 25 = 0) (h1 : ¬t.val % 25 = 24) (p : Vec F S256x1 .f32 × Vec F S256x1 .f32 × Vec F S256x1 .f32 × Vec F S256x1 .f32) : Vec F S256x1 .f32 × Vec F S256x1 .f32 × Vec F S256x1 .f32 × Vec F S256x1 .f32 :=
  (outB VO1_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2,
   soutB_0 VS1_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2,
   soutB_1 VS1_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2,
   soutB_2 VS1_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2)

def at1_C (c : Dev nD) (t : Fin cfg1.N) (h0 : ¬t.val % 25 = 0) (h1 : t.val % 25 = 24) (p : Vec F S256x1 .f32 × Vec F S256x1 .f32 × Vec F S256x1 .f32 × Vec F S256x1 .f32) : Vec F S256x1 .f32 × Vec F S256x1 .f32 × Vec F S256x1 .f32 × Vec F S256x1 .f32 :=
  (outC VO1_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2,
   soutC_0 VS1_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2,
   soutC_1 VS1_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2,
   soutC_2 VS1_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2)

def outsAt1 (c : Dev nD) : (n : ℕ) → n < cfg1.N → Vec F S256x1 .f32 × Vec F S256x1 .f32 × Vec F S256x1 .f32 × Vec F S256x1 .f32
  | 0, hn => at1_A V c ⟨0, hn⟩ (Nat.zero_mod _) (by show ¬(0 % 25 = 24); decide)
  | n + 1, hn =>
    if h0 : (n + 1) % 25 = 0 then at1_A V c ⟨n + 1, hn⟩ h0 (by show ¬((n + 1) % 25 = 24); omega)
    else if h1 : (n + 1) % 25 = 24 then at1_C V c ⟨n + 1, hn⟩ h0 h1 (outsAt1 c n (Nat.lt_of_succ_lt hn))
    else at1_B V c ⟨n + 1, hn⟩ h0 h1 (outsAt1 c n (Nat.lt_of_succ_lt hn))

theorem outsAt1_A (c : Dev nD) (t : Fin cfg1.N) (h0 : t.val % 25 = 0) (h1 : ¬t.val % 25 = 24) :
    outsAt1 V c t.val t.isLt = at1_A V c t h0 h1 := by
  obtain ⟨n, hn⟩ := t
  cases n with
  | zero => rfl
  | succ n => exact dif_pos h0

theorem outsAt1_B (c : Dev nD) (t : Fin cfg1.N) (h0 : ¬t.val % 25 = 0) (h1 : ¬t.val % 25 = 24) :
    outsAt1 V c t.val t.isLt = at1_B V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 25 = 0) (h1 : t.val % 25 = 24) :
    outsAt1 V c t.val t.isLt = at1_C V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

def colsAt1 (c : Dev nD) (p : Vec F S256x1 .f32 × Vec F S256x1 .f32 × Vec F S256x1 .f32 × Vec F S256x1 .f32) : sProp 𝕄 :=
  iprop(iprop(owns (c : Thread nD τ) scM1_0 fullShare p.2.1 ∗ owns (c : Thread nD τ) scM1_1 fullShare p.2.2.1 ∗ owns (c : Thread nD τ) scM1_2 fullShare p.2.2.2 ∗ otherScoped1 (F := F) c) ∗ (∃ r, prngReg c r))

def PhiS1 (c : Dev nD) : (n : ℕ) → n ≤ cfg1.N → sProp 𝕄
  | 0, _ => Pipeline.ΦA spec1 c
  | n + 1, hn => colsAt1 c (outsAt1 V c n hn)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) : PhiS1 V c (n + 1) hn = colsAt1 c (outsAt1 V c n hn) := rfl

theorem PhiS1_pos (c : Dev nD) (n : ℕ) (h : n ≤ cfg1.N) (hz : n ≠ 0) :
    PhiS1 V c n h = colsAt1 c (outsAt1 V c (n - 1) (by omega)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold colsAt1
  iintro ⟨⟨HS0, HS1, HS2, Hr⟩, Hg⟩
  isplitl [HS0 HS1 HS2 Hr]
  · isplitl [HS0]; · iexists _; iexact HS0
    isplitl [HS1]; · iexists _; iexact HS1
    isplitl [HS2]; · iexists _; iexact HS2
    iexact Hr
  iexact Hg

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 200 := lt_of_lt_of_eq t.isLt (show cfg1.N = 200 from N_1)
  by_cases h0 : t.val % 25 = 0
  · have h1 : ¬t.val % 25 = 24 := by omega
    rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
    rw [outsAt1_A V c t h0 h1]
    unfold colsAt1 at1_A soutA_0 soutA_1 soutA_2; (try dsimp only)
    have hΦ : (dat1 V c).Φ t.castSucc ⊢ Pipeline.ΦA spec1 c := by
      by_cases hz : t.val = 0
      · rw [PhiS1_castSucc V c t, PhiS1_zero V c _ _ hz]
      · exact Phi_out1 V c t.castSucc hz
    rw [PhiA1_eq] at hΦ
    iintro ⟨HΦ, Ho, ⟨%d0, H0⟩, ⟨%d1, H1⟩, ⟨%d2, H2⟩, ⟨%d3, H3⟩, ⟨%d4, H4⟩⟩
    ihave HΦ := hΦ $$ HΦ
    icases HΦ with ⟨⟨HS0, HS1, HS2, Hr⟩, Hg⟩
    iapply ((kernelRun0_A c (grid1.coords t) _ (hs1_0 t) _ (hs1_1 t) _ (hs1_2 t) _ (hs1_3 t) _ (hs1_4 t) _ (Memref.isWhole_whole _) _ (Memref.isWhole_whole _) _ (Memref.isWhole_whole _) ((hcond1_0 t).mpr h0) (fun h => h1 ((hcond1_1 t).mp h)) (iblk1 V c 0 t) (iblk1 V c 1 t) (iblk1 V c 2 t) (iblk1 V c 3 t)).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, ⟨%es0, HS0⟩, ⟨%es1, HS1⟩, ⟨%es2, HS2⟩⟩
    isplitl [HS0 HS1 HS2 Hr Hg]
    · isplitl [HS0 HS1 HS2 Hr]
      · isplitl [HS0]
        · unfold owns; iexists _; isplitr
          swap; · iexact HS0
          ipureintro; exact View.read_writes_of_cover _ _ _ _ _ (scoverA_0 c _ _ _ _ _ _ _ _ _ _ _ _ _ _ _ _ _ _ _ _ _ _ _)
        isplitl [HS1]
        · unfold owns; iexists _; isplitr
          swap; · iexact HS1
          ipureintro; exact View.read_writes_of_cover _ _ _ _ _ (scoverA_1 c _ _ _ _ _ _ _ _ _ _ _ _ _ _ _ _ _ _ _ _ _ _ _)
        isplitl [HS2]
        · unfold owns; iexists _; isplitr
          swap; · iexact HS2
          ipureintro; exact View.read_writes_of_cover _ _ _ _ _ (scoverA_2 c _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [PhiS1_castSucc V c t, PhiS1_pos V c _ _ hz]
    by_cases h1 : t.val % 25 = 24
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold colsAt1 at1_C outC soutC_0 soutC_1 soutC_2; (try dsimp only)
      iintro ⟨⟨⟨HS0, HS1, HS2, Hr⟩, Hg⟩, Ho, ⟨%d0, H0⟩, ⟨%d1, H1⟩, ⟨%d2, H2⟩, ⟨%d3, H3⟩, ⟨%d4, H4⟩⟩
      iapply ((kernelRun0_C c (grid1.coords t) _ (hs1_0 t) _ (hs1_1 t) _ (hs1_2 t) _ (hs1_3 t) _ (hs1_4 t) _ (Memref.isWhole_whole _) _ (Memref.isWhole_whole _) _ (Memref.isWhole_whole _) (fun h => h0 ((hcond1_0 t).mp h)) ((hcond1_1 t).mpr h1) (iblk1 V c 0 t) (iblk1 V c 1 t) (iblk1 V c 2 t) (iblk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hr Hg]
      · isplitl [HS0 HS1 HS2 Hr]
        · isplitl [HS0]
          · unfold owns; iexists _; isplitr
            swap; · iexact HS0
            ipureintro; exact View.read_writes_of_cover _ _ _ _ _ (scoverC_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverC_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverC_2 c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _ _ _ _ _ _ _)
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold colsAt1 at1_B soutB_0 soutB_1 soutB_2; (try dsimp only)
      iintro ⟨⟨⟨HS0, HS1, HS2, Hr⟩, Hg⟩, Ho, ⟨%d0, H0⟩, ⟨%d1, H1⟩, ⟨%d2, H2⟩, ⟨%d3, H3⟩, ⟨%d4, H4⟩⟩
      iapply ((kernelRun0_B c (grid1.coords t) _ (hs1_0 t) _ (hs1_1 t) _ (hs1_2 t) _ (hs1_3 t) _ (hs1_4 t) _ (Memref.isWhole_whole _) _ (Memref.isWhole_whole _) _ (Memref.isWhole_whole _) (fun h => h0 ((hcond1_0 t).mp h)) (fun h => h1 ((hcond1_1 t).mp h)) (iblk1 V c 0 t) (iblk1 V c 1 t) (iblk1 V c 2 t) (iblk1 V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hr Hg]
      · isplitl [HS0 HS1 HS2 Hr]
        · isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverB_2 c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c :=
  Phi_out1 V c _ (by rw [Fin.val_last]; have : cfg1.N = 200 := N_1; omega)

end Cert.KernelIdeal.Hand

end
-- ==== Proof.Launch.lean ====
import proofs.«421999_j71975061946951_3_alg».proof.Proof.Gen.KernelIdeal.Regions
import proofs.«421999_j71975061946951_3_alg».proof.Proof.R0Body
import proofs.«421999_j71975061946951_3_alg».proof.Proof.R1Body
import Idealize.ShloMosaic.Lib.Pipeline.FrameBody
import Idealize.ShloMosaic.Lib.Pipeline.RegionsLoop
import Idealize.ShloMosaic.Lib.Pipeline.FrameSuffix

set_option maxRecDepth 1028

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

theorem dat0_q (V : (c : Dev nD) → (b : Ref sig .tc) → Buf (Elt F) ((c : Thread nD τ).loc b)) (c : Dev nD) (w : Fin cfg0.W) : (dat0 V c).q w = fullShare := by dsimp only [dat0]
theorem dat0_owed (V : (c : Dev nD) → (b : Ref sig .tc) → Buf (Elt F) ((c : Thread nD τ).loc b)) (c : Dev nD) (t : Fin (cfg0.N + 1)) : (dat0 V c).owed t = 0 := by dsimp only [dat0]
theorem dat0_rec (V : (c : Dev nD) → (b : Ref sig .tc) → Buf (Elt F) ((c : Thread nD τ).loc b)) (c : Dev nD) (t : Fin (cfg0.N + 1)) : (dat0 V c).recorded t = Set.univ := by dsimp only [dat0]
theorem dat1_q (V : (c : Dev nD) → (b : Ref sig .tc) → Buf (Elt F) ((c : Thread nD τ).loc b)) (c : Dev nD) (w : Fin cfg1.W) : (dat1 V c).q w = fullShare := by dsimp only [dat1]
theorem dat1_owed (V : (c : Dev nD) → (b : Ref sig .tc) → Buf (Elt F) ((c : Thread nD τ).loc b)) (c : Dev nD) (t : Fin (cfg1.N + 1)) : (dat1 V c).owed t = 0 := by dsimp only [dat1]
theorem dat1_rec (V : (c : Dev nD) → (b : Ref sig .tc) → Buf (Elt F) ((c : Thread nD τ).loc b)) (c : Dev nD) (t : Fin (cfg1.N + 1)) : (dat1 V c).recorded t = Set.univ := by dsimp only [dat1]

variable (m : (ℓ : Loc nD τ sig) → Buf (Elt F) ℓ)

abbrev E1 (c : Dev nD) (b : Ref sig .tc) : Buf (Elt F) ((c : Thread nD τ).loc b) := Gen.V1 m c (Proc.devRef .tc b)

def outsA : Gen.Outs (F := F) := fun _ r c =>
  Function.update (fun r' : Ref sig .tc => m ((c : Thread nD τ).loc r')) main_v8
    ((dat0 (E1 m) c).arrAt 4 cfg0.N) r

abbrev E3 (c : Dev nD) (b : Ref sig .tc) : Buf (Elt F) ((c : Thread nD τ).loc b) := Gen.V3 m (outsA m) c (Proc.devRef .tc b)

def outsK : Gen.Outs (F := F) := fun J r c =>
  if J = 4 then
    Function.update (fun r' : Ref sig .tc => outsA m J r' c) main_v25 ((dat1 (E3 m) c).arrAt 4 cfg1.N) r
  else outsA m J r c

theorem outsK_2 (c : Dev nD) : outsK m 2 main_v8 c = (dat0 (fun c b => Gen.V1 m c (Proc.devRef .tc b)) c).arrAt 4 cfg0.N := by
  unfold outsK
  rw [if_neg (by decide)]
  unfold outsA
  exact Function.update_self _ _ _

theorem V3_outsK (c : Dev nD) : Gen.V3 m (outsK m) c = Gen.V3 m (outsA m) c := by
  have h : outsK m 2 main_v8 c = outsA m 2 main_v8 c := by unfold outsK; rw [if_neg (by decide)]
  dsimp only [Gen.V3, Gen.V2]
  rw [h]

theorem outsK_4 (c : Dev nD) : outsK m 4 main_v25 c = (dat1 (fun c b => Gen.V3 m (outsK m) c (Proc.devRef .tc b)) c).arrAt 4 cfg1.N := by
  have hE : (fun (c : Dev nD) (b : Ref sig .tc) => Gen.V3 m (outsK m) c (Proc.devRef .tc b)) = E3 m := by
    funext c b; exact congrFun (V3_outsK m c) _
  rw [hE]
  unfold outsK
  rw [if_pos rfl]
  exact Function.update_self _ _ _

abbrev E2 (c : Dev nD) (b : Ref sig .tc) : Buf (Elt F) ((c : Thread nD τ).loc b) := Gen.V2 m (outsK m) c (Proc.devRef .tc b)
abbrev E3K (c : Dev nD) (b : Ref sig .tc) : Buf (Elt F) ((c : Thread nD τ).loc b) := Gen.V3 m (outsK m) c (Proc.devRef .tc b)
abbrev E4 (c : Dev nD) (b : Ref sig .tc) : Buf (Elt F) ((c : Thread nD τ).loc b) := Gen.V4 m (outsK m) c (Proc.devRef .tc b)

theorem hF0 (c : Dev nD) (w : Fin cfg0.W) : (dat0 (E1 m) c).arrAt w cfg0.N = E2 m c (Pipeline.arrRef spec0 w) := by
  have hin : ∀ (w : Fin cfg0.W) (hw : (cfg0.win w).isOut = false)
      (hne : Pipeline.arrRef spec0 w ∉ ([main_v8] : List (Ref sig .tc))),
      (dat0 (E1 m) c).arrAt w cfg0.N = E2 m c (Pipeline.arrRef spec0 w) := fun w hw hne =>
    (((dat0 (E1 m) c).arrAt_in w hw _).trans (A_eq0 (E1 m) c w)).trans (Gen.V2_of m (outsK m) c _ hne).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ =>
    show (dat0 (E1 m) c).arrAt 4 cfg0.N
      = Function.update (Gen.V1 m c) (Proc.devRef .tc main_v8) (outsK m 2 main_v8 c) (Proc.devRef .tc main_v8)
    rw [Function.update_self]; exact (outsK_2 m c).symm

theorem hrest0 (c : Dev nD) : ∀ b, b ∉ Finset.univ.image (Pipeline.arrRef spec0) → E2 m c b = E1 m c b :=
  fun b hb => Gen.V2_of m (outsK m) c b (by
    intro h; rw [List.mem_singleton] at h; subst h
    exact hb (Finset.mem_image.mpr ⟨4, Finset.mem_univ _, rfl⟩))

theorem hF1 (c : Dev nD) (w : Fin cfg1.W) : (dat1 (E3 m) c).arrAt w cfg1.N = E4 m c (Pipeline.arrRef spec1 w) := by
  have hin : ∀ (w : Fin cfg1.W) (hw : (cfg1.win w).isOut = false)
      (hne : Pipeline.arrRef spec1 w ∉ ([main_v25] : List (Ref sig .tc))),
      (dat1 (E3 m) c).arrAt w cfg1.N = E4 m c (Pipeline.arrRef spec1 w) := fun w hw hne =>
    ((((dat1 (E3 m) c).arrAt_in w hw _).trans (A_eq1 (E3 m) c w)).trans (congrFun (V3_outsK m c) _).symm).trans
      (Gen.V4_of m (outsK m) c _ hne).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ =>
    show (dat1 (E3 m) c).arrAt 4 cfg1.N
      = Function.update (Gen.V3 m (outsK m) c) (Proc.devRef .tc main_v25) (outsK m 4 main_v25 c) (Proc.devRef .tc main_v25)
    rw [Function.update_self, outsK_4]
    have hE : (fun (c : Dev nD) (b : Ref sig .tc) => Gen.V3 m (outsK m) c (Proc.devRef .tc b)) = E3 m := by
      funext c b; exact congrFun (V3_outsK m c) _
    rw [hE]

theorem hrest1 (c : Dev nD) : ∀ b, b ∉ Finset.univ.image (Pipeline.arrRef spec1) → E4 m c b = E3 m c b :=
  fun b hb => (Gen.V4_of m (outsK m) c b (by
    intro h; rw [List.mem_singleton] at h; subst h
    exact hb (Finset.mem_image.mpr ⟨4, Finset.mem_univ _, rfl⟩))).trans (congrFun (V3_outsK m c) _)

def pdatsK : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev noL : GSem nD τ sig → Finset Unit := fun _ => ∅
abbrev noLv : GSem nD τ sig → Unit → ℕ := fun _ _ => 0

abbrev Rest (c : Dev nD) : sProp 𝕄 := iprop((∃ r, prngReg c r) ∗ ∃ W, owes (c : Thread nD τ) (0 : CellTallies nD τ sig Unit) W)

set_option backward.isDefEq.respectTransparency.types false in
def reg0 : Pipeline.RegionSeg (pcfgs (F := F)) Gen.adm (pdatsK m) () defs₀ Variants.none noL noLv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noL noLv 0 fun c t => dat0_owed (E1 m) c t
  pre c := iprop(StableHlo.held (c : Thread nD τ) (Pipeline.ucRefs τ sig) (Gen.V1 m c) ∗ Rest c)
  post c := iprop(StableHlo.held (c : Thread nD τ) (Pipeline.ucRefs τ sig) (Gen.V2 m (outsK m) c) ∗ Rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdatsK m) launch0.win launch0.arr_whole c
      ((pdatsK m 0 c).share_full fun w => dat0_q (E1 m) c w) (E1 m c) fun w => A_eq0 (E1 m) c w
    rw [Pipeline.unscopedBufs_held] at hsplit
    have hO : ∀ t, (pdatsK m 0 c).owed t = 0 := fun t => dat0_owed (E1 m) c t
    have hR : ∀ t, (pdatsK m 0 c).recorded t = Set.univ := fun t => dat0_rec (E1 m) c t
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [hO, hR]
      icases HO with ⟨%W, HO⟩; iexists W; isplitr; · ipureintro; exact fun _ _ => Or.inl trivial
      iexact HO
    isplitl [Hp]; · iexact Hp
    iexact Hrest
  hin c := by
    refine .trans ?_ (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdatsK m) ((pdatsK m 0 c).share_full fun w => dat0_q (E1 m) c w)
      (E1 m c) (E2 m c) ((pdatsK m 0 c).arrAt · cfg0.N) (hF0 m c) (hrest0 m c)
    rw [Pipeline.unscopedBufs_held] at hjoin
    have hO : ∀ t, (pdatsK m 0 c).owed t = 0 := fun t => dat0_owed (E1 m) c t
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hO]
    icases HO with ⟨%W, -, HO⟩; iexists W; iexact HO

set_option backward.isDefEq.respectTransparency.types false in
def reg1 : Pipeline.RegionSeg (pcfgs (F := F)) Gen.adm (pdatsK m) () defs₀ Variants.none noL noLv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ noL noLv 1 fun c t => dat1_owed (E3 m) c t
  pre c := iprop(StableHlo.held (c : Thread nD τ) (Pipeline.ucRefs τ sig) (Gen.V3 m (outsA m) c) ∗ Rest c)
  post c := iprop(StableHlo.held (c : Thread nD τ) (Pipeline.ucRefs τ sig) (Gen.V4 m (outsK m) c) ∗ Rest c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) Gen.adm (pdatsK m) launch1.win launch1.arr_whole c
      ((pdatsK m 1 c).share_full fun w => dat1_q (E3 m) c w) (E3 m c) fun w => A_eq1 (E3 m) c w
    rw [Pipeline.unscopedBufs_held] at hsplit
    have hO : ∀ t, (pdatsK m 1 c).owed t = 0 := fun t => dat1_owed (E3 m) c t
    have hR : ∀ t, (pdatsK m 1 c).recorded t = Set.univ := fun t => dat1_rec (E3 m) c t
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [hO, hR]
      icases HO with ⟨%W, HO⟩; iexists W; isplitr; · ipureintro; exact fun _ _ => Or.inl trivial
      iexact HO
    isplitl [Hp]; · iexact Hp
    iexact Hrest
  hin c := by
    refine .trans ?_ (hin1 (E3 m) c)
    unfold Pipeline.ΦA
    iintro ⟨Hp, -, Hr⟩
    isplitl [Hr]; · iexact Hr
    iexact Hp
  hout c := by
    rw [Pipeline.ownSems0_none]
    refine (hout1 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdatsK m) ((pdatsK m 1 c).share_full fun w => dat1_q (E3 m) c w)
      (E3 m c) (E4 m c) ((pdatsK m 1 c).arrAt · cfg1.N) (hF1 m c) (hrest1 m c)
    rw [Pipeline.unscopedBufs_held] at hjoin
    have hO : ∀ t, (pdatsK m 1 c).owed t = 0 := fun t => dat1_owed (E3 m) c t
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hO]
    icases HO with ⟨%W, -, HO⟩; iexists W; iexact HO

abbrev segsK (c : Dev nD) : List (Seg (pcfgs (F := F)) Gen.adm (pdatsK m) () defs₀ Variants.none noL noLv) :=
  Gen.segs m (outsK m) Variants.none noL noLv (fun _ => Rest) () (pdatsK m) (reg0 m) (reg1 m) c

theorem rest_end (c : Dev nD) (P : sProp 𝕄) :
    iprop(P ∗ Rest c) ⊢ iprop((P ∗ ∃ r, prngReg c r) ∗ ∃ W, owes (c : Thread nD τ) (0 : CellTallies nD τ sig Unit) W) := by
  iintro ⟨Hh, Hp, HO⟩
  isplitl [Hh Hp]
  · isplitl [Hh]; · iexact Hh
    iexact Hp
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
theorem run_all (ρ : Dev nD → PrngReg) :
    θ_run defs (onTc (τ := τ) (main (F := F))) ⟨m, fun _ => 0, ρ⟩ (fun r => ∀ c : Dev nD, ∀ b ∈ Pipeline.ucRefs τ sig,
      r.2.mem (((c : Thread nD τ)).1, b) = Gen.V7 m (outsK m) c b) :=
  Pipeline.θ_run_regions_kit_dev (pcfgs (F := F)) Gen.adm (pdatsK m) () cellOf_inj emb₁ defs₀ Variants.none noL noLv m ρ main
    (segsK m)
    (fun c Q => by
      rewrite [main_chain c, Seg.run_eq_chain,
        show (segsK m c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (fun c => by simp only [segsK, Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c))
    (Tₙ := fun c => iprop(StableHlo.held (c : Thread nD τ) (Pipeline.ucRefs τ sig) (Gen.V7 m (outsK m) c) ∗ ∃ r, prngReg c r))
    (hch := fun c => ⟨.rfl, .rfl, .rfl,
      Entails.of_eq (congrArg (fun W => iprop(StableHlo.held (c : Thread nD τ) (Pipeline.ucRefs τ sig) W ∗ Rest c)) (V3_outsK m c)),
      .rfl, .rfl, .rfl, rest_end c _⟩)
    (hinit := by
      refine Pipeline.initEach noL noLv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V7 m (outsK m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V7 m (outsK m) c) s')
      isplitl [Hh] <;> iassumption)
    (hQ := fun s h => h)

end Cert.KernelIdeal.Hand

end
-- ==== Proof.RefStages.lean ====
import proofs.«421999_j71975061946951_3_alg».proof.Proof.Gen.ReferenceIdeal

noncomputable section

namespace Cert.ReferenceIdeal.Hand

open Idealize.ShloMosaic Cert.ReferenceIdeal
open Cert.ReferenceIdeal.Facts₀ Cert.ReferenceIdeal.Facts

variable {F : FTy → Type} [FloatOps F]

def logits (x : Vec F S2x512x2048 .f32) (w : Vec F S32000x2048 .f32) (b : Vec F S32000 .f32) : Vec F S2x512x32000 .f32 :=
  addf (Host.dotGeneral (F := F) dot_S2x512x2048_S32000x2048_S2x512x32000_2_1_01_0_n_n none x w)
    (broadcastInDim S2x512x32000 ![0, 1, 2] bcast_S1x1x32000_S2x512x32000_0_1_2
      (broadcastInDim S1x1x32000 ![2] bcast_S32000_S1x1x32000_2 b))

def lsmMax (z : Vec F S2x512x32000 .f32) : Vec F S2x512 .f32 :=
  maximumf (broadcastInDim S2x512 ![] bcast_S_S2x512 (constant (F := F) S_ .f32 0xFF800000#32))
    (Host.reduce (FloatOps.maximumf (F := F)) z (constant (F := F) S_ .f32 0xFF800000#32) reducesTo_S2x512x32000_S2x512_d2 h_S_)

def lsmShift (z : Vec F S2x512x32000 .f32) : Vec F S2x512x32000 .f32 :=
  subf z (broadcastInDim S2x512x32000 ![0, 1, 2] bcast_S2x512x1_S2x512x32000_0_1_2
    (broadcastInDim S2x512x1 ![0, 1] bcast_S2x512_S2x512x1_0_1 (lsmMax z)))

def lsmDen (z : Vec F S2x512x32000 .f32) : Vec F S2x512 .f32 :=
  Host.reduceAdd (F := F) (Host.exp (F := F) (lsmShift z)) (constant (F := F) S_ .f32 0x00000000#32) reducesTo_S2x512x32000_S2x512_d2 h_S_

def logSoftmax (z : Vec F S2x512x32000 .f32) : Vec F S2x512x32000 .f32 :=
  subf (lsmShift z) (broadcastInDim S2x512x32000 ![0, 1, 2] bcast_S2x512x1_S2x512x32000_0_1_2
    (Host.log (F := F) (broadcastInDim S2x512x1 ![0, 1] bcast_S2x512_S2x512x1_0_1 (lsmDen z))))

def takeIdx (t3 : Vec F S2x512x1 .i32) : Vec F S2x512x1x1 .i32 :=
  fun i => shapeCast S2x512x1x1
    (select (cmpi .slt t3 (broadcastInDim S2x512x1 ![] bcast_S_S2x512x1 (constantI S_ 32 0#32)))
      (addi t3 (broadcastInDim S2x512x1 ![] bcast_S_S2x512x1 (constantI S_ 32 32000#32))) t3)
    shapeCasts_S2x512x1_S2x512x1x1 i

def takeOk (t3 : Vec F S2x512x1 .i32) : Vec F S2x512x1 .i1 :=
  Host.reduce IntOp.andi
    (andi (cmpi .sge (takeIdx t3) (broadcastInDim S2x512x1x1 ![] bcast_S_S2x512x1x1 (constantI S_ 32 0#32)))
      (cmpi .sle (takeIdx t3) (broadcastInDim S2x512x1x1 ![0, 1, 2, 3] bcast_S1x1x1x1_S2x512x1x1_0_1_2_3
        (broadcastInDim S1x1x1x1 ![3] bcast_S1_S1x1x1x1_3 (constantI S1 32 31999#32)))))
    (constantI S_ 1 1#1) reducesTo_S2x512x1x1_S2x512x1_d3 h_S_

def takeAlong (lsm : Vec F S2x512x32000 .f32) (t3 : Vec F S2x512x1 .i32) : Vec F S2x512x1 .f32 :=
  select (takeOk t3)
    (Host.gather gather_S2x512x32000_S2x512x1x1_S2x512x1_n_2_01_01_2_3_111 lsm (takeIdx t3))
    (broadcastInDim S2x512x1 ![] bcast_S_S2x512x1 (constant (F := F) S_ .f32 0x7FC00000#32))

def labelMask (t : Vec F S2x512 .i32) : Vec F S2x512 .f32 :=
  uitofp (F := F) .f32 (cmpi .ne t (broadcastInDim S2x512 ![] bcast_S_S2x512 (constantI S_ 32 4294967196#32)))

def tokLogps (x : Vec F S2x512x2048 .f32) (w : Vec F S32000x2048 .f32) (b : Vec F S32000 .f32) (t : Vec F S2x512 .i32) :
    Vec F S2x512 .f32 :=
  mulf (fun i => shapeCast S2x512
      (takeAlong (logSoftmax (logits x w b)) (broadcastInDim S2x512x1 ![0, 1] bcast_S2x512_S2x512x1_0_1 t))
      shapeCasts_S2x512x1_S2x512 i)
    (labelMask t)

def seqLogp (x : Vec F S2x512x2048 .f32) (w : Vec F S32000x2048 .f32) (b : Vec F S32000 .f32) (t : Vec F S2x512 .i32) :
    Vec F S2 .f32 :=
  Host.reduceAdd (F := F) (tokLogps x w b t) (constant (F := F) S_ .f32 0x00000000#32) reducesTo_S2x512_S2_d1 h_S_

def bc2 (k : BitVec 32) : Vec F S2 .f32 := broadcastInDim S2 ![] bcast_S_S2 (constant (F := F) S_ .f32 k)

def softplus (u : Vec F S2 .f32) : Vec F S2 .f32 :=
  select (cmpf (F := F) .une (subf u (bc2 0x00000000#32)) (subf u (bc2 0x00000000#32)))
    (addf u (bc2 0x00000000#32))
    (addf (maximumf u (bc2 0x00000000#32))
      (Host.log1p (F := F) (Host.exp (F := F) (Host.negf (F := F) (Host.absf (F := F) (subf u (bc2 0x00000000#32)))))))

def logSigmoid (u : Vec F S2 .f32) : Vec F S2 .f32 := Host.negf (F := F) (softplus (Host.negf (F := F) u))

def mean2 (u : Vec F S2 .f32) : Vec F S_ .f32 :=
  Host.divf (F := F) (Host.reduceAdd (F := F) u (constant (F := F) S_ .f32 0x00000000#32) reducesTo_S2_S_d0 h_S_)
    (constant (F := F) S_ .f32 0x40000000#32)

def rewChosen (a c : Vec F S2 .f32) : Vec F S2 .f32 := mulf (bc2 0x3DCCCCCD#32) (subf a c)

def rewRejected (b d : Vec F S2 .f32) : Vec F S2 .f32 := mulf (bc2 0x3DCCCCCD#32) (subf b d)

def refLoss (a b c d : Vec F S2 .f32) : Vec F S_ .f32 :=
  Host.divf (F := F)
    (Host.negf (F := F) (Host.reduceAdd (F := F)
      (logSigmoid (mulf (bc2 0x3DCCCCCD#32) (subf (subf a b) (subf c d))))
      (constant (F := F) S_ .f32 0x00000000#32) reducesTo_S2_S_d0 h_S_))
    (constant (F := F) S_ .f32 0x40000000#32)

def refChosenMean (a b c d : Vec F S2 .f32) : Vec F S_ .f32 := mean2 (rewChosen a c)

def refRejectedMean (a b c d : Vec F S2 .f32) : Vec F S_ .f32 := mean2 (rewRejected b d)

def refMargin (a b c d : Vec F S2 .f32) : Vec F S_ .f32 := mean2 (subf (rewChosen a c) (rewRejected b d))

def refAcc (a b c d : Vec F S2 .f32) : Vec F S_ .f32 :=
  mean2 (uitofp (F := F) .f32 (cmpf (F := F) .ogt (rewChosen a c) (rewRejected b d)))

def refNll (a b c d : Vec F S2 .f32) : Vec F S_ .f32 := constant (F := F) S_ .f32 0x00000000#32

end Cert.ReferenceIdeal.Hand

end
-- ==== Proof.KHost.lean ====
import proofs.«421999_j71975061946951_3_alg».proof.Proof.Gen.KernelIdeal.Regions
import proofs.«421999_j71975061946951_3_alg».proof.Proof.RefStages
import Idealize.ShloMosaic.Lib.ValueLayout
import Idealize.ShloMosaic.Lib.IdealHost
import Idealize.ShloMosaic.PureOps.Ideal.Laws

set_option maxRecDepth 1028

noncomputable section

namespace Cert.KernelIdeal.Hand

open Idealize.ShloMosaic Idealize.ShloMosaic.TcCoe Idealize.ShloMosaic.ValueIdx
open Idealize.SL.Sem
open Cert.KernelIdeal Cert.KernelIdeal.Facts₀

section Layout

variable {α : Type}

theorem stack3_lo (A B : S2x512x2048.Idx → α) (r : Fin 2048) (h : Fin 2048) (hr : r.val < 1024) :
    concatenate S2048x2048 0
      [⟨S1024x2048, shapeCast S1024x2048 A shapeCasts_S2x512x2048_S1024x2048⟩,
       ⟨S1024x2048, shapeCast S1024x2048 B shapeCasts_S2x512x2048_S1024x2048⟩]
      concatenates_S1024x2048_S1024x2048_S2048x2048_d0 (ix2 r h)
      = A (ix3 (⟨r.val / 512, by omega⟩ : Fin 2) (⟨r.val % 512, by omega⟩ : Fin 512) h) := by
  refine (concatenate_pair_apply_left (t := S2048x2048) (s₁ := S1024x2048) (s₂ := S1024x2048) (0 : Fin 2) _ _
    concatenates_S1024x2048_S1024x2048_S2048x2048_d0 (ix2 r h) rfl
    (ix2 (⟨r.val, hr⟩ : Fin 1024) h) ?_).trans ?_
  · intro b; match b with
    | ⟨0, _⟩ => rfl
    | ⟨1, _⟩ => rfl
  · refine shapeCast_apply _ _ _ _ ?_
    show ((⟨3, ![2, 512, 2048]⟩ : Shape).rowMajor _).val = ((⟨2, ![1024, 2048]⟩ : Shape).rowMajor _).val
    rw [Shape.rowMajor_val_three, Shape.rowMajor_val_two]
    show (r.val / 512 * 512 + r.val % 512) * 2048 + h.val = r.val * 2048 + h.val
    omega

theorem stack3_hi (A B : S2x512x2048.Idx → α) (r : Fin 2048) (h : Fin 2048) (hr : 1024 ≤ r.val) :
    concatenate S2048x2048 0
      [⟨S1024x2048, shapeCast S1024x2048 A shapeCasts_S2x512x2048_S1024x2048⟩,
       ⟨S1024x2048, shapeCast S1024x2048 B shapeCasts_S2x512x2048_S1024x2048⟩]
      concatenates_S1024x2048_S1024x2048_S2048x2048_d0 (ix2 r h)
      = B (ix3 (⟨(r.val - 1024) / 512, by omega⟩ : Fin 2) (⟨(r.val - 1024) % 512, by omega⟩ : Fin 512) h) := by
  refine (concatenate_pair_apply_right (t := S2048x2048) (s₁ := S1024x2048) (s₂ := S1024x2048) (0 : Fin 2) _ _
    concatenates_S1024x2048_S1024x2048_S2048x2048_d0 (ix2 r h) rfl rfl
    (ix2 (⟨r.val - 1024, by omega⟩ : Fin 1024) h) ?_ ?_).trans ?_
  · intro b hb; match b, hb with
    | ⟨0, _⟩, hb => exact absurd rfl hb
    | ⟨1, _⟩, _ => rfl
  · show (r.val - 1024) + 1024 = r.val
    omega
  · refine shapeCast_apply _ _ _ _ ?_
    show ((⟨3, ![2, 512, 2048]⟩ : Shape).rowMajor _).val = ((⟨2, ![1024, 2048]⟩ : Shape).rowMajor _).val
    rw [Shape.rowMajor_val_three, Shape.rowMajor_val_two]
    show ((r.val - 1024) / 512 * 512 + (r.val - 1024) % 512) * 2048 + h.val = (r.val - 1024) * 2048 + h.val
    omega

theorem stack2_lo (A B : S2x512.Idx → α) (r : Fin 2048) (z : Fin 1) (hr : r.val < 1024) :
    concatenate S2048x1 0
      [⟨S1024x1, shapeCast S1024x1 A shapeCasts_S2x512_S1024x1⟩,
       ⟨S1024x1, shapeCast S1024x1 B shapeCasts_S2x512_S1024x1⟩]
      concatenates_S1024x1_S1024x1_S2048x1_d0 (ix2 r z)
      = A (ix2 (⟨r.val / 512, by omega⟩ : Fin 2) (⟨r.val % 512, by omega⟩ : Fin 512)) := by
  have hz : z.val = 0 := by omega
  refine (concatenate_pair_apply_left (t := S2048x1) (s₁ := S1024x1) (s₂ := S1024x1) (0 : Fin 2) _ _
    concatenates_S1024x1_S1024x1_S2048x1_d0 (ix2 r z) rfl
    (ix2 (⟨r.val, hr⟩ : Fin 1024) z) ?_).trans ?_
  · intro b; match b with
    | ⟨0, _⟩ => rfl
    | ⟨1, _⟩ => rfl
  · refine shapeCast_apply _ _ _ _ ?_
    show ((⟨2, ![2, 512]⟩ : Shape).rowMajor _).val = ((⟨2, ![1024, 1]⟩ : Shape).rowMajor _).val
    rw [Shape.rowMajor_val_two, Shape.rowMajor_val_two]
    show r.val / 512 * 512 + r.val % 512 = r.val * 1 + z.val
    omega

theorem stack2_hi (A B : S2x512.Idx → α) (r : Fin 2048) (z : Fin 1) (hr : 1024 ≤ r.val) :
    concatenate S2048x1 0
      [⟨S1024x1, shapeCast S1024x1 A shapeCasts_S2x512_S1024x1⟩,
       ⟨S1024x1, shapeCast S1024x1 B shapeCasts_S2x512_S1024x1⟩]
      concatenates_S1024x1_S1024x1_S2048x1_d0 (ix2 r z)
      = B (ix2 (⟨(r.val - 1024) / 512, by omega⟩ : Fin 2) (⟨(r.val - 1024) % 512, by omega⟩ : Fin 512)) := by
  have hz : z.val = 0 := by omega
  refine (concatenate_pair_apply_right (t := S2048x1) (s₁ := S1024x1) (s₂ := S1024x1) (0 : Fin 2) _ _
    concatenates_S1024x1_S1024x1_S2048x1_d0 (ix2 r z) rfl rfl
    (ix2 (⟨r.val - 1024, by omega⟩ : Fin 1024) z) ?_ ?_).trans ?_
  · intro b hb; match b, hb with
    | ⟨0, _⟩, hb => exact absurd rfl hb
    | ⟨1, _⟩, _ => rfl
  · show (r.val - 1024) + 1024 = r.val
    omega
  · refine shapeCast_apply _ _ _ _ ?_
    show ((⟨2, ![2, 512]⟩ : Shape).rowMajor _).val = ((⟨2, ![1024, 1]⟩ : Shape).rowMajor _).val
    rw [Shape.rowMajor_val_two, Shape.rowMajor_val_two]
    show (r.val - 1024) / 512 * 512 + (r.val - 1024) % 512 = (r.val - 1024) * 1 + z.val
    omega

end Layout

section Generic

variable {F : FTy → Type} [FloatOps F]
variable (m : (ℓ : Loc nD τ sig) → Buf (Elt F) ℓ) (outs : Gen.Outs (F := F))

theorem xcat0_eq (c : Dev nD) :
    Gen.V1 m c main_v3 = truncf .bf16 (concatenate S2048x2048 0
      [⟨S1024x2048, shapeCast S1024x2048 (m ((c : Thread nD τ).loc main_arg0)) shapeCasts_S2x512x2048_S1024x2048⟩,
       ⟨S1024x2048, shapeCast S1024x2048 (m ((c : Thread nD τ).loc main_arg1)) shapeCasts_S2x512x2048_S1024x2048⟩]
      concatenates_S1024x2048_S1024x2048_S2048x2048_d0) bitsLt_bf16_f32 := by
  show StableHlo.after Gen.hostOps0 (Gen.V0 m c) (Proc.devRef .tc main_v3) = _
  open StableHlo in after_results
  rfl

theorem xcat0_apply_lo (c : Dev nD) (r : Fin 2048) (h : Fin 2048) (hr : r.val < 1024) :
    Gen.V1 m c main_v3 (ix2 r h) = FloatOps.truncf .bf16 bitsLt_bf16_f32
      (m ((c : Thread nD τ).loc main_arg0) (ix3 (⟨r.val / 512, by omega⟩ : Fin 2) (⟨r.val % 512, by omega⟩ : Fin 512) h)) := by
  rw [xcat0_eq]
  exact congrArg (FloatOps.truncf .bf16 bitsLt_bf16_f32) (stack3_lo _ _ r h hr)

theorem xcat0_apply_hi (c : Dev nD) (r : Fin 2048) (h : Fin 2048) (hr : 1024 ≤ r.val) :
    Gen.V1 m c main_v3 (ix2 r h) = FloatOps.truncf .bf16 bitsLt_bf16_f32
      (m ((c : Thread nD τ).loc main_arg1) (ix3 (⟨(r.val - 1024) / 512, by omega⟩ : Fin 2) (⟨(r.val - 1024) % 512, by omega⟩ : Fin 512) h)) := by
  rw [xcat0_eq]
  exact congrArg (FloatOps.truncf .bf16 bitsLt_bf16_f32) (stack3_hi _ _ r h hr)

theorem xcat0_apply (c : Dev nD) (r : Fin 2048) (h : Fin 2048) :
    Gen.V1 m c main_v3 (ix2 r h) = FloatOps.truncf .bf16 bitsLt_bf16_f32
      (if hr : r.val < 1024 then
        m ((c : Thread nD τ).loc main_arg0) (ix3 (⟨r.val / 512, by omega⟩ : Fin 2) (⟨r.val % 512, by omega⟩ : Fin 512) h)
      else
        m ((c : Thread nD τ).loc main_arg1) (ix3 (⟨(r.val - 1024) / 512, by omega⟩ : Fin 2) (⟨(r.val - 1024) % 512, by omega⟩ : Fin 512) h)) := by
  by_cases hr : r.val < 1024
  · rw [dif_pos hr]; exact xcat0_apply_lo m c r h hr
  · rw [dif_neg hr]; exact xcat0_apply_hi m c r h (Nat.le_of_not_lt hr)

theorem tcat0_eq (c : Dev nD) :
    Gen.V1 m c main_v6 = concatenate S2048x1 0
      [⟨S1024x1, shapeCast S1024x1 (m ((c : Thread nD τ).loc main_arg8)) shapeCasts_S2x512_S1024x1⟩,
       ⟨S1024x1, shapeCast S1024x1 (m ((c : Thread nD τ).loc main_arg9)) shapeCasts_S2x512_S1024x1⟩]
      concatenates_S1024x1_S1024x1_S2048x1_d0 := by
  show StableHlo.after Gen.hostOps0 (Gen.V0 m c) (Proc.devRef .tc main_v6) = _
  open StableHlo in after_results
  rfl

theorem tcat0_apply_lo (c : Dev nD) (r : Fin 2048) (z : Fin 1) (hr : r.val < 1024) :
    Gen.V1 m c main_v6 (ix2 r z)
      = m ((c : Thread nD τ).loc main_arg8) (ix2 (⟨r.val / 512, by omega⟩ : Fin 2) (⟨r.val % 512, by omega⟩ : Fin 512)) := by
  rw [tcat0_eq]
  exact stack2_lo _ _ r z hr

theorem tcat0_apply_hi (c : Dev nD) (r : Fin 2048) (z : Fin 1) (hr : 1024 ≤ r.val) :
    Gen.V1 m c main_v6 (ix2 r z)
      = m ((c : Thread nD τ).loc main_arg9) (ix2 (⟨(r.val - 1024) / 512, by omega⟩ : Fin 2) (⟨(r.val - 1024) % 512, by omega⟩ : Fin 512)) := by
  rw [tcat0_eq]
  exact stack2_hi _ _ r z hr

theorem tcat0_apply (c : Dev nD) (r : Fin 2048) (z : Fin 1) :
    Gen.V1 m c main_v6 (ix2 r z)
      = if hr : r.val < 1024 then
          m ((c : Thread nD τ).loc main_arg8) (ix2 (⟨r.val / 512, by omega⟩ : Fin 2) (⟨r.val % 512, by omega⟩ : Fin 512))
        else
          m ((c : Thread nD τ).loc main_arg9) (ix2 (⟨(r.val - 1024) / 512, by omega⟩ : Fin 2) (⟨(r.val - 1024) % 512, by omega⟩ : Fin 512)) := by
  by_cases hr : r.val < 1024
  · rw [dif_pos hr]; exact tcat0_apply_lo m c r z hr
  · rw [dif_neg hr]; exact tcat0_apply_hi m c r z (Nat.le_of_not_lt hr)

theorem bias0_eq (c : Dev nD) :
    Gen.V1 m c main_v7 = shapeCast S1x32000 (m ((c : Thread nD τ).loc main_arg5)) shapeCasts_S32000_S1x32000 := by
  show StableHlo.after Gen.hostOps0 (Gen.V0 m c) (Proc.devRef .tc main_v7) = _
  open StableHlo in after_results
  rfl

theorem bias0_apply (c : Dev nD) (u : Fin 1) (v : Fin 32000) :
    Gen.V1 m c main_v7 (ix2 u v) = m ((c : Thread nD τ).loc main_arg5) (ix1 v) := by
  rw [bias0_eq]
  exact shapeCast_a_1a_apply _ _ u v

theorem w0_eq (c : Dev nD) : Gen.V1 m c main_arg4 = m ((c : Thread nD τ).loc main_arg4) :=
  Gen.V1_of m c main_arg4 (by decide)

theorem xcat1_eq (c : Dev nD) :
    Gen.V3 m outs c main_v20 = truncf .bf16 (concatenate S2048x2048 0
      [⟨S1024x2048, shapeCast S1024x2048 (m ((c : Thread nD τ).loc main_arg2)) shapeCasts_S2x512x2048_S1024x2048⟩,
       ⟨S1024x2048, shapeCast S1024x2048 (m ((c : Thread nD τ).loc main_arg3)) shapeCasts_S2x512x2048_S1024x2048⟩]
      concatenates_S1024x2048_S1024x2048_S2048x2048_d0) bitsLt_bf16_f32 := by
  show StableHlo.after Gen.hostOps1 (Gen.V2 m outs c) (Proc.devRef .tc main_v20) = _
  open StableHlo in after_results
  rw [Gen.V2_of m outs c main_arg2 (by decide), Gen.V2_of m outs c main_arg3 (by decide)]
  rfl

theorem xcat1_apply_lo (c : Dev nD) (r : Fin 2048) (h : Fin 2048) (hr : r.val < 1024) :
    Gen.V3 m outs c main_v20 (ix2 r h) = FloatOps.truncf .bf16 bitsLt_bf16_f32
      (m ((c : Thread nD τ).loc main_arg2) (ix3 (⟨r.val / 512, by omega⟩ : Fin 2) (⟨r.val % 512, by omega⟩ : Fin 512) h)) := by
  rw [xcat1_eq]
  exact congrArg (FloatOps.truncf .bf16 bitsLt_bf16_f32) (stack3_lo _ _ r h hr)

theorem xcat1_apply_hi (c : Dev nD) (r : Fin 2048) (h : Fin 2048) (hr : 1024 ≤ r.val) :
    Gen.V3 m outs c main_v20 (ix2 r h) = FloatOps.truncf .bf16 bitsLt_bf16_f32
      (m ((c : Thread nD τ).loc main_arg3) (ix3 (⟨(r.val - 1024) / 512, by omega⟩ : Fin 2) (⟨(r.val - 1024) % 512, by omega⟩ : Fin 512) h)) := by
  rw [xcat1_eq]
  exact congrArg (FloatOps.truncf .bf16 bitsLt_bf16_f32) (stack3_hi _ _ r h hr)

theorem xcat1_apply (c : Dev nD) (r : Fin 2048) (h : Fin 2048) :
    Gen.V3 m outs c main_v20 (ix2 r h) = FloatOps.truncf .bf16 bitsLt_bf16_f32
      (if hr : r.val < 1024 then
        m ((c : Thread nD τ).loc main_arg2) (ix3 (⟨r.val / 512, by omega⟩ : Fin 2) (⟨r.val % 512, by omega⟩ : Fin 512) h)
      else
        m ((c : Thread nD τ).loc main_arg3) (ix3 (⟨(r.val - 1024) / 512, by omega⟩ : Fin 2) (⟨(r.val - 1024) % 512, by omega⟩ : Fin 512) h)) := by
  by_cases hr : r.val < 1024
  · rw [dif_pos hr]; exact xcat1_apply_lo m outs c r h hr
  · rw [dif_neg hr]; exact xcat1_apply_hi m outs c r h (Nat.le_of_not_lt hr)

theorem tcat1_eq (c : Dev nD) :
    Gen.V3 m outs c main_v23 = concatenate S2048x1 0
      [⟨S1024x1, shapeCast S1024x1 (m ((c : Thread nD τ).loc main_arg8)) shapeCasts_S2x512_S1024x1⟩,
       ⟨S1024x1, shapeCast S1024x1 (m ((c : Thread nD τ).loc main_arg9)) shapeCasts_S2x512_S1024x1⟩]
      concatenates_S1024x1_S1024x1_S2048x1_d0 := by
  show StableHlo.after Gen.hostOps1 (Gen.V2 m outs c) (Proc.devRef .tc main_v23) = _
  open StableHlo in after_results
  rw [Gen.V2_of m outs c main_arg8 (by decide), Gen.V2_of m outs c main_arg9 (by decide)]
  rfl

theorem tcat1_apply_lo (c : Dev nD) (r : Fin 2048) (z : Fin 1) (hr : r.val < 1024) :
    Gen.V3 m outs c main_v23 (ix2 r z)
      = m ((c : Thread nD τ).loc main_arg8) (ix2 (⟨r.val / 512, by omega⟩ : Fin 2) (⟨r.val % 512, by omega⟩ : Fin 512)) := by
  rw [tcat1_eq]
  exact stack2_lo _ _ r z hr

theorem tcat1_apply_hi (c : Dev nD) (r : Fin 2048) (z : Fin 1) (hr : 1024 ≤ r.val) :
    Gen.V3 m outs c main_v23 (ix2 r z)
      = m ((c : Thread nD τ).loc main_arg9) (ix2 (⟨(r.val - 1024) / 512, by omega⟩ : Fin 2) (⟨(r.val - 1024) % 512, by omega⟩ : Fin 512)) := by
  rw [tcat1_eq]
  exact stack2_hi _ _ r z hr

theorem tcat1_apply (c : Dev nD) (r : Fin 2048) (z : Fin 1) :
    Gen.V3 m outs c main_v23 (ix2 r z)
      = if hr : r.val < 1024 then
          m ((c : Thread nD τ).loc main_arg8) (ix2 (⟨r.val / 512, by omega⟩ : Fin 2) (⟨r.val % 512, by omega⟩ : Fin 512))
        else
          m ((c : Thread nD τ).loc main_arg9) (ix2 (⟨(r.val - 1024) / 512, by omega⟩ : Fin 2) (⟨(r.val - 1024) % 512, by omega⟩ : Fin 512)) := by
  by_cases hr : r.val < 1024
  · rw [dif_pos hr]; exact tcat1_apply_lo m outs c r z hr
  · rw [dif_neg hr]; exact tcat1_apply_hi m outs c r z (Nat.le_of_not_lt hr)

theorem bias1_eq (c : Dev nD) :
    Gen.V3 m outs c main_v24 = shapeCast S1x32000 (m ((c : Thread nD τ).loc main_arg7)) shapeCasts_S32000_S1x32000 := by
  show StableHlo.after Gen.hostOps1 (Gen.V2 m outs c) (Proc.devRef .tc main_v24) = _
  open StableHlo in after_results
  rw [Gen.V2_of m outs c main_arg7 (by decide)]
  rfl

theorem bias1_apply (c : Dev nD) (u : Fin 1) (v : Fin 32000) :
    Gen.V3 m outs c main_v24 (ix2 u v) = m ((c : Thread nD τ).loc main_arg7) (ix1 v) := by
  rw [bias1_eq]
  exact shapeCast_a_1a_apply _ _ u v

theorem w1_eq (c : Dev nD) : Gen.V3 m outs c main_arg6 = m ((c : Thread nD τ).loc main_arg6) :=
  (Gen.V3_of m outs c main_arg6 (by decide)).trans <| (Gen.V2_of m outs c main_arg6 (by decide)).trans <|
    Gen.V1_of m c main_arg6 (by decide)

theorem v12_V5 (c : Dev nD) : Gen.V5 m outs c main_v12 = Gen.V3 m outs c main_v12 :=
  (Gen.V5_of m outs c main_v12 (by decide)).trans (Gen.V4_of m outs c main_v12 (by decide))

theorem v16_V5 (c : Dev nD) : Gen.V5 m outs c main_v16 = Gen.V3 m outs c main_v16 :=
  (Gen.V5_of m outs c main_v16 (by decide)).trans (Gen.V4_of m outs c main_v16 (by decide))

def seqSum (x : Vec F S2048x1 .f32) : Vec F S2 .f32 :=
  Host.reduceAdd (F := F) (shapeCast S2x512 (shapeCast S1024 (extractStridedSlice S1024x1 ![0, 0] x slices_S2048x1_S1024x1_0_0)
    shapeCasts_S1024x1_S1024) shapeCasts_S1024_S2x512) (constant (F := F) S_ .f32 0x00000000#32) reducesTo_S2x512_S2_d1 h_S_

def seqSum' (x : Vec F S2048x1 .f32) : Vec F S2 .f32 :=
  Host.reduceAdd (F := F) (shapeCast S2x512 (shapeCast S1024 (extractStridedSlice S1024x1 ![1024, 0] x slices_S2048x1_S1024x1_1024_0)
    shapeCasts_S1024x1_S1024) shapeCasts_S1024_S2x512) (constant (F := F) S_ .f32 0x00000000#32) reducesTo_S2x512_S2_d1 h_S_

theorem v12_eq (c : Dev nD) : Gen.V3 m outs c main_v12 = seqSum (outs 2 main_v8 c) := by
  show StableHlo.after Gen.hostOps1 (Gen.V2 m outs c) (Proc.devRef .tc main_v12) = _
  open StableHlo in after_results
  rfl

theorem v16_eq (c : Dev nD) : Gen.V3 m outs c main_v16 = seqSum' (outs 2 main_v8 c) := by
  show StableHlo.after Gen.hostOps1 (Gen.V2 m outs c) (Proc.devRef .tc main_v16) = _
  open StableHlo in after_results
  rfl

theorem v29_eq (c : Dev nD) : Gen.V5 m outs c main_v29 = seqSum (outs 4 main_v25 c) := by
  show StableHlo.after Gen.hostOps2 (Gen.V4 m outs c) (Proc.devRef .tc main_v29) = _
  open StableHlo in after_results
  rfl

theorem v33_eq (c : Dev nD) : Gen.V5 m outs c main_v33 = seqSum' (outs 4 main_v25 c) := by
  show StableHlo.after Gen.hostOps2 (Gen.V4 m outs c) (Proc.devRef .tc main_v33) = _
  open StableHlo in after_results
  rfl

theorem tail_loss (c : Dev nD) :
    Gen.V7 m outs c main_v42 = Cert.ReferenceIdeal.Hand.refLoss (F := F)
      (Gen.V5 m outs c main_v12) (Gen.V5 m outs c main_v16) (Gen.V5 m outs c main_v29) (Gen.V5 m outs c main_v33) := by
  show StableHlo.after Gen.hostOps2_2 (Gen.V6 m outs c) (Proc.devRef .tc main_v42) = _
  open StableHlo in after_results_simp
  rfl

theorem tail_chosenMean (c : Dev nD) :
    Gen.V7 m outs c main_v57 = Cert.ReferenceIdeal.Hand.refChosenMean (F := F)
      (Gen.V5 m outs c main_v12) (Gen.V5 m outs c main_v16) (Gen.V5 m outs c main_v29) (Gen.V5 m outs c main_v33) := by
  show StableHlo.after Gen.hostOps2_2 (Gen.V6 m outs c) (Proc.devRef .tc main_v57) = _
  open StableHlo in after_results_simp
  rfl

theorem tail_rejectedMean (c : Dev nD) :
    Gen.V7 m outs c main_v59 = Cert.ReferenceIdeal.Hand.refRejectedMean (F := F)
      (Gen.V5 m outs c main_v12) (Gen.V5 m outs c main_v16) (Gen.V5 m outs c main_v29) (Gen.V5 m outs c main_v33) := by
  show StableHlo.after Gen.hostOps2_2 (Gen.V6 m outs c) (Proc.devRef .tc main_v59) = _
  open StableHlo in after_results_simp
  rfl

theorem tail_margin (c : Dev nD) :
    Gen.V7 m outs c main_v51 = Cert.ReferenceIdeal.Hand.refMargin (F := F)
      (Gen.V5 m outs c main_v12) (Gen.V5 m outs c main_v16) (Gen.V5 m outs c main_v29) (Gen.V5 m outs c main_v33) := by
  show StableHlo.after Gen.hostOps2_2 (Gen.V6 m outs c) (Proc.devRef .tc main_v51) = _
  open StableHlo in after_results_simp
  rfl

theorem tail_acc (c : Dev nD) :
    Gen.V7 m outs c main_v55 = Cert.ReferenceIdeal.Hand.refAcc (F := F)
      (Gen.V5 m outs c main_v12) (Gen.V5 m outs c main_v16) (Gen.V5 m outs c main_v29) (Gen.V5 m outs c main_v33) := by
  show StableHlo.after Gen.hostOps2_2 (Gen.V6 m outs c) (Proc.devRef .tc main_v55) = _
  open StableHlo in after_results_simp
  rfl

theorem tail_nll (c : Dev nD) :
    Gen.V7 m outs c main_cst_16 = Cert.ReferenceIdeal.Hand.refNll (F := F)
      (Gen.V5 m outs c main_v12) (Gen.V5 m outs c main_v16) (Gen.V5 m outs c main_v29) (Gen.V5 m outs c main_v33) := by
  show StableHlo.after Gen.hostOps2_2 (Gen.V6 m outs c) (Proc.devRef .tc main_cst_16) = _
  open StableHlo in after_results_simp
  rfl

end Generic

section AtIdeal

theorem seqSum_apply (x : Vec Ideal S2048x1 .f32) (n : Fin 2) :
    seqSum x (ix1 n) = ∑ s : Fin 512, x (ix2 (⟨512 * n.val + s.val, by omega⟩ : Fin 2048) (0 : Fin 1)) := by
  unfold seqSum
  rw [hostReduceAdd_apply, Ideal.hostReduceAdd_single reducesTo_S2x512_S2_d1 (by decide : S2x512.Reduces [1] S2)]
  show Ideal.ofBits .f32 0x00000000#32 + ∑ s : Fin 512, _ = _
  rw [Ideal.ofBits_zero_f32, zero_add]
  refine Finset.sum_congr rfl fun s _ => ?_
  have hl : (by decide : S2x512.Reduces [1] S2).lift (ix1 n) s = ix2 n s := by
    funext a
    match a with
    | ⟨0, _⟩ => rfl
    | ⟨1, _⟩ => rfl
  rw [hl]
  refine (shapeCast_apply _ _ (ix2 n s) (ix1 (⟨512 * n.val + s.val, by omega⟩ : Fin 1024)) ?_).trans ?_
  · show ((⟨1, ![1024]⟩ : Shape).rowMajor _).val = ((⟨2, ![2, 512]⟩ : Shape).rowMajor _).val
    rw [Shape.rowMajor_val_one, Shape.rowMajor_val_two]
    show 512 * n.val + s.val = n.val * 512 + s.val
    omega
  refine (shapeCast_apply _ _ (ix1 (⟨512 * n.val + s.val, by omega⟩ : Fin 1024))
    (ix2 (⟨512 * n.val + s.val, by omega⟩ : Fin 1024) (0 : Fin 1)) ?_).trans ?_
  · show ((⟨2, ![1024, 1]⟩ : Shape).rowMajor _).val = ((⟨1, ![1024]⟩ : Shape).rowMajor _).val
    rw [Shape.rowMajor_val_one, Shape.rowMajor_val_two]
    show (512 * n.val + s.val) * 1 + 0 = 512 * n.val + s.val
    omega
  exact slice2_axis0_apply 0 x _ _ _ _ (Nat.zero_add _).symm

theorem seqSum'_apply (x : Vec Ideal S2048x1 .f32) (n : Fin 2) :
    seqSum' x (ix1 n) = ∑ s : Fin 512, x (ix2 (⟨1024 + 512 * n.val + s.val, by omega⟩ : Fin 2048) (0 : Fin 1)) := by
  unfold seqSum'
  rw [hostReduceAdd_apply, Ideal.hostReduceAdd_single reducesTo_S2x512_S2_d1 (by decide : S2x512.Reduces [1] S2)]
  show Ideal.ofBits .f32 0x00000000#32 + ∑ s : Fin 512, _ = _
  rw [Ideal.ofBits_zero_f32, zero_add]
  refine Finset.sum_congr rfl fun s _ => ?_
  have hl : (by decide : S2x512.Reduces [1] S2).lift (ix1 n) s = ix2 n s := by
    funext a
    match a with
    | ⟨0, _⟩ => rfl
    | ⟨1, _⟩ => rfl
  rw [hl]
  refine (shapeCast_apply _ _ (ix2 n s) (ix1 (⟨512 * n.val + s.val, by omega⟩ : Fin 1024)) ?_).trans ?_
  · show ((⟨1, ![1024]⟩ : Shape).rowMajor _).val = ((⟨2, ![2, 512]⟩ : Shape).rowMajor _).val
    rw [Shape.rowMajor_val_one, Shape.rowMajor_val_two]
    show 512 * n.val + s.val = n.val * 512 + s.val
    omega
  refine (shapeCast_apply _ _ (ix1 (⟨512 * n.val + s.val, by omega⟩ : Fin 1024))
    (ix2 (⟨512 * n.val + s.val, by omega⟩ : Fin 1024) (0 : Fin 1)) ?_).trans ?_
  · show ((⟨2, ![1024, 1]⟩ : Shape).rowMajor _).val = ((⟨1, ![1024]⟩ : Shape).rowMajor _).val
    rw [Shape.rowMajor_val_one, Shape.rowMajor_val_two]
    show (512 * n.val + s.val) * 1 + 0 = 512 * n.val + s.val
    omega
  exact slice2_axis0_apply 1024 x _ _ _ _ (by show 1024 + 512 * n.val + s.val = 1024 + (512 * n.val + s.val); omega)

variable (m : (ℓ : Loc nD τ sig) → Buf (Elt Ideal) ℓ) (outs : Gen.Outs (F := Ideal))

theorem sum_v12 (c : Dev nD) (n : Fin 2) :
    (Gen.V3 m outs c main_v12 : S2.Idx → EReal) (ix1 n)
      = Finset.sum (M := EReal) Finset.univ fun s : Fin 512 => outs 2 main_v8 c (ix2 (⟨512 * n.val + s.val, by omega⟩ : Fin 2048) (0 : Fin 1)) := by
  rw [v12_eq]; exact seqSum_apply _ n

theorem sum_v16 (c : Dev nD) (n : Fin 2) :
    (Gen.V3 m outs c main_v16 : S2.Idx → EReal) (ix1 n)
      = Finset.sum (M := EReal) Finset.univ fun s : Fin 512 => outs 2 main_v8 c (ix2 (⟨1024 + 512 * n.val + s.val, by omega⟩ : Fin 2048) (0 : Fin 1)) := by
  rw [v16_eq]; exact seqSum'_apply _ n

theorem sum_v29 (c : Dev nD) (n : Fin 2) :
    (Gen.V5 m outs c main_v29 : S2.Idx → EReal) (ix1 n)
      = Finset.sum (M := EReal) Finset.univ fun s : Fin 512 => outs 4 main_v25 c (ix2 (⟨512 * n.val + s.val, by omega⟩ : Fin 2048) (0 : Fin 1)) := by
  rw [v29_eq]; exact seqSum_apply _ n

theorem sum_v33 (c : Dev nD) (n : Fin 2) :
    (Gen.V5 m outs c main_v33 : S2.Idx → EReal) (ix1 n)
      = Finset.sum (M := EReal) Finset.univ fun s : Fin 512 => outs 4 main_v25 c (ix2 (⟨1024 + 512 * n.val + s.val, by omega⟩ : Fin 2048) (0 : Fin 1)) := by
  rw [v33_eq]; exact seqSum'_apply _ n

end AtIdeal

end Cert.KernelIdeal.Hand

end
-- ==== Proof.Rec.lean ====
import proofs.«421999_j71975061946951_3_alg».proof.Proof.Gen.KernelIdeal.Skeleton
import Idealize.ShloMosaic.Lib.ValueIdx

noncomputable section

namespace Cert.KernelIdeal.Rec

open Idealize.ShloMosaic Idealize.ShloMosaic.ValueIdx Cert.KernelIdeal Cert.KernelIdeal.Gen

variable {F : FTy → Type} [FloatOps F]

abbrev Cols (F : FTy → Type) : Type := Vec F S256x1 .f32 × Vec F S256x1 .f32 × Vec F S256x1 .f32

def cols0 : Cols F := (k0_pay4 (F := F), k0_pay5 (F := F), k0_pay6 (F := F))

def colsStep (i : grid0.Coords) (x0 : Vec F S256x2048 .bf16) (x1 : Vec F S1280x2048 .f32) (x2 : Vec F S1x1280 .f32)
    (x3 : Vec F S256x1 .i32) (s : Cols F) : Cols F :=
  (k0_pay2 (k0_pay10 x0 x1 x2 s.1),
   k0_pay1 (k0_pay7 x0 x1 x2) (k0_pay10 x0 x1 x2 s.1) s.1 s.2.1,
   k0_pay9 i x0 x1 x2 x3 s.2.2)

def outCol (x3 : Vec F S256x1 .i32) (s : Cols F) : Vec F S256x1 .f32 :=
  k0_pay3 (k0_pay8 x3) s.1 s.2.1 s.2.2

def xblk (X : Vec F S2048x2048 .bf16) (mb : Fin 8) : Vec F S256x2048 .bf16 :=
  fun j => X (ix2 (⟨256 * mb.val + (j 0).val, by have := (j 0).isLt; have := mb.isLt; simp only [Matrix.cons_val_zero] at *; omega⟩ : Fin 2048) (⟨(j 1).val, (j 1).isLt⟩ : Fin 2048))

def wblk (W : Vec F S32000x2048 .f32) (k : Fin 25) : Vec F S1280x2048 .f32 :=
  fun j => W (ix2 (⟨1280 * k.val + (j 0).val, by have := (j 0).isLt; have := k.isLt; simp only [Matrix.cons_val_zero] at *; omega⟩ : Fin 32000) (⟨(j 1).val, (j 1).isLt⟩ : Fin 2048))

def bblk (B : Vec F S1x32000 .f32) (k : Fin 25) : Vec F S1x1280 .f32 :=
  fun j => B (ix2 (⟨0, by decide⟩ : Fin 1) (⟨1280 * k.val + (j 1).val, by have := (j 1).isLt; have := k.isLt; simp only [Matrix.cons_val_one, Matrix.cons_val_zero] at *; omega⟩ : Fin 32000))

def tblk (T : Vec F S2048x1 .i32) (mb : Fin 8) : Vec F S256x1 .i32 :=
  fun j => T (ix2 (⟨256 * mb.val + (j 0).val, by have := (j 0).isLt; have := mb.isLt; simp only [Matrix.cons_val_zero] at *; omega⟩ : Fin 2048) (⟨0, by decide⟩ : Fin 1))

def pt (mb : Fin 8) (k : Fin 25) : grid0.Coords :=
  fun a => match a with
    | ⟨0, _⟩ => (⟨mb.val, mb.isLt⟩ : Fin 8)
    | ⟨1, _⟩ => (⟨k.val, k.isLt⟩ : Fin 25)

def colsAfter (X : Vec F S2048x2048 .bf16) (W : Vec F S32000x2048 .f32) (B : Vec F S1x32000 .f32) (T : Vec F S2048x1 .i32)
    (mb : Fin 8) : (n : ℕ) → n ≤ 25 → Cols F
  | 0, _ => cols0
  | n + 1, hn => colsStep (pt mb ⟨n, hn⟩) (xblk X mb) (wblk W ⟨n, hn⟩) (bblk B ⟨n, hn⟩) (tblk T mb)
      (colsAfter X W B T mb n (Nat.le_of_succ_le hn))

def outArr (X : Vec F S2048x2048 .bf16) (W : Vec F S32000x2048 .f32) (B : Vec F S1x32000 .f32) (T : Vec F S2048x1 .i32) :
    Vec F S2048x1 .f32 :=
  fun j =>
    outCol (tblk T ⟨(j 0).val / 256, by have := (j 0).isLt; simp only [Matrix.cons_val_zero] at *; omega⟩)
      (colsAfter X W B T ⟨(j 0).val / 256, by have := (j 0).isLt; simp only [Matrix.cons_val_zero] at *; omega⟩ 25 le_rfl)
      (ix2 (⟨(j 0).val % 256, Nat.mod_lt _ (by decide)⟩ : Fin 256) (⟨0, by decide⟩ : Fin 1))

end Cert.KernelIdeal.Rec

end
-- ==== Proof.Pieces.lean ====
import proofs.«421999_j71975061946951_3_alg».proof.Proof.Rec
import proofs.«421999_j71975061946951_3_alg».proof.Proof.Cases
import Idealize.ShloMosaic.Lib.Tactic
import Idealize.ShloMosaic.Lib.Ring
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

private theorem unitZero : (![0, 0] : Fin 2 → Nat) = fun _ => 0 := funext fun a => by fin_cases a <;> rfl

section Pieces
variable (VO VS0 VS1 VS2 : View sig .tc .vmem S256x1 .f32)
variable (c : Dev nD) (i : grid0.Coords) (arg2 : Memref sig .tc .vmem S256x2048 .bf16) (harg2 : arg2.IsWhole) (arg3 : Memref sig .tc .vmem S1280x2048 .f32) (harg3 : arg3.IsWhole) (arg4 : Memref sig .tc .vmem S1x1280 .f32) (harg4 : arg4.IsWhole) (arg5 : Memref sig .tc .vmem S256x1 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)

/-- Each column's stores tile it, so reading a column back is reading the stored payloads: one step of the recurrence. -/
theorem soutsA_eq (hc0 : cond0_0 i) (hc1 : ¬cond0_1 i)
    (x0 : Vec F S256x2048 .bf16) (x1 : Vec F S1280x2048 .f32) (x2 : Vec F S1x1280 .f32) (x3 : Vec F S256x1 .i32) :
    (soutA_0 VS0 c i arg2 harg2 arg3 harg3 arg4 harg4 arg5 harg5 arg6 harg6 arg7 harg7 arg8 harg8 arg9 harg9 hc0 hc1 x0 x1 x2 x3, soutA_1 VS1 c i arg2 harg2 arg3 harg3 arg4 harg4 arg5 harg5 arg6 harg6 arg7 harg7 arg8 harg8 arg9 harg9 hc0 hc1 x0 x1 x2 x3, soutA_2 VS2 c i arg2 harg2 arg3 harg3 arg4 harg4 arg5 harg5 arg6 harg6 arg7 harg7 arg8 harg8 arg9 harg9 hc0 hc1 x0 x1 x2 x3)
      = Rec.colsStep i x0 x1 x2 x3 Rec.cols0 := by
  unfold soutA_0 soutA_1 soutA_2
  rw [View.read_writes_eq_canon _ _ _ (scoverA_0 c i arg2 harg2 arg3 harg3 arg4 harg4 arg5 harg5 arg6 harg6 arg7 harg7 arg8 harg8 arg9 harg9 hc0 hc1 x0 x1 x2 x3), View.read_writes_eq_canon _ _ _ (scoverA_1 c i arg2 harg2 arg3 harg3 arg4 harg4 arg5 harg5 arg6 harg6 arg7 harg7 arg8 harg8 arg9 harg9 hc0 hc1 x0 x1 x2 x3),
    View.read_writes_eq_canon _ _ _ (scoverA_2 c i arg2 harg2 arg3 harg3 arg4 harg4 arg5 harg5 arg6 harg6 arg7 harg7 arg8 harg8 arg9 harg9 hc0 hc1 x0 x1 x2 x3)]
  unfold kernelRun0_A
  refine Prod.ext ?_ (Prod.ext ?_ ?_) <;>
  · dsimp only
    sl_unfold_words
    rw [View.canon_cons_unit_zero (S := S256x1) unitZero]
    simp only [View.readAt_eq_ld, harg2.read_unread, harg3.read_unread, harg4.read_unread, harg5.read_unread, harg7.read_unread, harg8.read_unread, harg9.read_unread,
      View.ld_unit_zero (S := S256x2048) unitZero, View.ld_unit_zero (S := S1280x2048) unitZero, View.ld_unit_zero (S := S1x1280) unitZero, View.ld_unit_zero (S := S256x1) unitZero,
      View.readCov_unit_zero (S := S256x1) _ unitZero]
    rfl

theorem soutsB_eq (hc0 : ¬cond0_0 i) (hc1 : ¬cond0_1 i)
    (x0 : Vec F S256x2048 .bf16) (x1 : Vec F S1280x2048 .f32) (x2 : Vec F S1x1280 .f32) (x3 : Vec F S256x1 .i32) (xs0 xs1 xs2 : Vec F S256x1 .f32) :
    (soutB_0 VS0 c i arg2 harg2 arg3 harg3 arg4 harg4 arg5 harg5 arg6 harg6 arg7 harg7 arg8 harg8 arg9 harg9 hc0 hc1 x0 x1 x2 x3 xs0 xs1 xs2, soutB_1 VS1 c i arg2 harg2 arg3 harg3 arg4 harg4 arg5 harg5 arg6 harg6 arg7 harg7 arg8 harg8 arg9 harg9 hc0 hc1 x0 x1 x2 x3 xs0 xs1 xs2, soutB_2 VS2 c i arg2 harg2 arg3 harg3 arg4 harg4 arg5 harg5 arg6 harg6 arg7 harg7 arg8 harg8 arg9 harg9 hc0 hc1 x0 x1 x2 x3 xs0 xs1 xs2)
      = Rec.colsStep i x0 x1 x2 x3 (xs0, xs1, xs2) := by
  unfold soutB_0 soutB_1 soutB_2
  rw [View.read_writes_eq_canon _ _ _ (scoverB_0 c i arg2 harg2 arg3 harg3 arg4 harg4 arg5 harg5 arg6 harg6 arg7 harg7 arg8 harg8 arg9 harg9 hc0 hc1 x0 x1 x2 x3 xs0 xs1 xs2), View.read_writes_eq_canon _ _ _ (scoverB_1 c i arg2 harg2 arg3 harg3 arg4 harg4 arg5 harg5 arg6 harg6 arg7 harg7 arg8 harg8 arg9 harg9 hc0 hc1 x0 x1 x2 x3 xs0 xs1 xs2),
    View.read_writes_eq_canon _ _ _ (scoverB_2 c i arg2 harg2 arg3 harg3 arg4 harg4 arg5 harg5 arg6 harg6 arg7 harg7 arg8 harg8 arg9 harg9 hc0 hc1 x0 x1 x2 x3 xs0 xs1 xs2)]
  unfold kernelRun0_B
  refine Prod.ext ?_ (Prod.ext ?_ ?_) <;>
  · dsimp only
    sl_unfold_words
    rw [View.canon_unit_zero unitZero]
    simp only [View.readAt_eq_ld, harg2.read_unread, harg3.read_unread, harg4.read_unread, harg5.read_unread, harg7.read_unread, harg8.read_unread, harg9.read_unread,
      View.ld_unit_zero (S := S256x2048) unitZero, View.ld_unit_zero (S := S1280x2048) unitZero, View.ld_unit_zero (S := S1x1280) unitZero, View.ld_unit_zero (S := S256x1) unitZero,
      View.readCov_unit_zero (S := S256x1) _ unitZero]
    rfl

theorem soutsC_eq (hc0 : ¬cond0_0 i) (hc1 : cond0_1 i)
    (x0 : Vec F S256x2048 .bf16) (x1 : Vec F S1280x2048 .f32) (x2 : Vec F S1x1280 .f32) (x3 : Vec F S256x1 .i32) (xs0 xs1 xs2 : Vec F S256x1 .f32) :
    (soutC_0 VS0 c i arg2 harg2 arg3 harg3 arg4 harg4 arg5 harg5 arg6 harg6 arg7 harg7 arg8 harg8 arg9 harg9 hc0 hc1 x0 x1 x2 x3 xs0 xs1 xs2, soutC_1 VS1 c i arg2 harg2 arg3 harg3 arg4 harg4 arg5 harg5 arg6 harg6 arg7 harg7 arg8 harg8 arg9 harg9 hc0 hc1 x0 x1 x2 x3 xs0 xs1 xs2, soutC_2 VS2 c i arg2 harg2 arg3 harg3 arg4 harg4 arg5 harg5 arg6 harg6 arg7 harg7 arg8 harg8 arg9 harg9 hc0 hc1 x0 x1 x2 x3 xs0 xs1 xs2)
      = Rec.colsStep i x0 x1 x2 x3 (xs0, xs1, xs2) := by
  unfold soutC_0 soutC_1 soutC_2
  rw [View.read_writes_eq_canon _ _ _ (scoverC_0 c i arg2 harg2 arg3 harg3 arg4 harg4 arg5 harg5 arg6 harg6 arg7 harg7 arg8 harg8 arg9 harg9 hc0 hc1 x0 x1 x2 x3 xs0 xs1 xs2), View.read_writes_eq_canon _ _ _ (scoverC_1 c i arg2 harg2 arg3 harg3 arg4 harg4 arg5 harg5 arg6 harg6 arg7 harg7 arg8 harg8 arg9 harg9 hc0 hc1 x0 x1 x2 x3 xs0 xs1 xs2),
    View.read_writes_eq_canon _ _ _ (scoverC_2 c i arg2 harg2 arg3 harg3 arg4 harg4 arg5 harg5 arg6 harg6 arg7 harg7 arg8 harg8 arg9 harg9 hc0 hc1 x0 x1 x2 x3 xs0 xs1 xs2)]
  unfold kernelRun0_C
  refine Prod.ext ?_ (Prod.ext ?_ ?_) <;>
  · dsimp only
    sl_unfold_words
    rw [View.canon_unit_zero unitZero]
    simp only [View.readAt_eq_ld, harg2.read_unread, harg3.read_unread, harg4.read_unread, harg5.read_unread, harg7.read_unread, harg8.read_unread, harg9.read_unread,
      View.ld_unit_zero (S := S256x2048) unitZero, View.ld_unit_zero (S := S1280x2048) unitZero, View.ld_unit_zero (S := S1x1280) unitZero, View.ld_unit_zero (S := S256x1) unitZero,
      View.readCov_unit_zero (S := S256x1) _ unitZero]
    rfl

theorem outC_eq (hc0 : ¬cond0_0 i) (hc1 : cond0_1 i)
    (x0 : Vec F S256x2048 .bf16) (x1 : Vec F S1280x2048 .f32) (x2 : Vec F S1x1280 .f32) (x3 : Vec F S256x1 .i32) (xs0 xs1 xs2 : Vec F S256x1 .f32) :
    outC VO c i arg2 harg2 arg3 harg3 arg4 harg4 arg5 harg5 arg6 harg6 arg7 harg7 arg8 harg8 arg9 harg9 hc0 hc1 x0 x1 x2 x3 xs0 xs1 xs2 = Rec.outCol x3 (Rec.colsStep i x0 x1 x2 x3 (xs0, xs1, xs2)) := by
  unfold outC
  rw [View.read_writes_eq_canon _ _ _ (coverC c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero unitZero]
  simp only [View.readAt_eq_ld, harg2.read_unread, harg3.read_unread, harg4.read_unread, harg5.read_unread, harg7.read_unread, harg8.read_unread, harg9.read_unread,
    View.ld_unit_zero (S := S256x2048) unitZero, View.ld_unit_zero (S := S1280x2048) unitZero, View.ld_unit_zero (S := S1x1280) unitZero, View.ld_unit_zero (S := S256x1) unitZero,
    View.readCov_unit_zero (S := S256x1) _ unitZero]
  rfl

end Pieces

end Cert.KernelIdeal.Hand

end
-- ==== Proof.R0Value.lean ====
import proofs.«421999_j71975061946951_3_alg».proof.Proof.Rec
import proofs.«421999_j71975061946951_3_alg».proof.Proof.Pieces
import proofs.«421999_j71975061946951_3_alg».proof.Proof.R0Body
import proofs.«421999_j71975061946951_3_alg».proof.Proof.Gen.KernelIdeal.Launch
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

abbrev xarr0 (c : Dev nD) : Vec F S2048x2048 .bf16 := V c main_v3
abbrev warr0 (c : Dev nD) : Vec F S32000x2048 .f32 := V c main_arg4
abbrev barr0 (c : Dev nD) : Vec F S1x32000 .f32 := V c main_v7
abbrev tarr0 (c : Dev nD) : Vec F S2048x1 .i32 := V c main_v6

abbrev xb0 (c : Dev nD) (t : Fin cfg0.N) : Vec F S256x2048 .bf16 := iblk0 V c 0 t
abbrev wb0 (c : Dev nD) (t : Fin cfg0.N) : Vec F S1280x2048 .f32 := iblk0 V c 1 t
abbrev bb0 (c : Dev nD) (t : Fin cfg0.N) : Vec F S1x1280 .f32 := iblk0 V c 2 t
abbrev tb0 (c : Dev nD) (t : Fin cfg0.N) : Vec F S256x1 .i32 := iblk0 V c 3 t

theorem idx_facts0 : ∀ t : Fin cfg0.N,
    win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = 0 ∧ win0_2.index t (1 : Fin 2) = t.val % 25
    ∧ win0_3.index t (0 : Fin 2) = t.val / 25 ∧ win0_3.index t (1 : Fin 2) = 0
    ∧ win0_4.index t (0 : Fin 2) = t.val / 25 ∧ win0_4.index t (1 : Fin 2) = 0
    ∧ ((grid0.coords t) (0 : Fin 2)).val = t.val / 25 ∧ ((grid0.coords t) (1 : Fin 2)).val = t.val % 25 :=
  (by decide +kernel : ∀ t : Fin grid0.N, _)

theorem xb0_eq (c : Dev nD) (t : Fin cfg0.N) (mb : Fin 8) (hmb : mb.val = t.val / 25) :
    xb0 V c t = Rec.xblk (xarr0 V c) mb := by
  obtain ⟨e00, e01, -⟩ := idx_facts0 t
  funext j
  unfold xb0 iblk0 Rec.xblk xarr0
  rw [View.read_apply]
  show V c main_v3 _ = V c main_v3 _
  congr 1
  funext a
  apply Fin.ext
  match a with
  | ⟨0, _⟩ => show win0_0.index t (0 : Fin 2) * 256 + 1 * (j 0).val = 256 * mb.val + (j 0).val; rw [e00, hmb]; omega
  | ⟨1, _⟩ => show win0_0.index t (1 : Fin 2) * 2048 + 1 * (j 1).val = (j 1).val; rw [e01]; omega

theorem wb0_eq (c : Dev nD) (t : Fin cfg0.N) (k : Fin 25) (hk : k.val = t.val % 25) :
    wb0 V c t = Rec.wblk (warr0 V c) k := by
  obtain ⟨-, -, e10, e11, -⟩ := idx_facts0 t
  funext j
  unfold wb0 iblk0 Rec.wblk warr0
  rw [View.read_apply]
  show V c main_arg4 _ = V c main_arg4 _
  congr 1
  funext a
  apply Fin.ext
  match a with
  | ⟨0, _⟩ => show win0_1.index t (0 : Fin 2) * 1280 + 1 * (j 0).val = 1280 * k.val + (j 0).val; rw [e10, hk]; omega
  | ⟨1, _⟩ => show win0_1.index t (1 : Fin 2) * 2048 + 1 * (j 1).val = (j 1).val; rw [e11]; omega

theorem bb0_eq (c : Dev nD) (t : Fin cfg0.N) (k : Fin 25) (hk : k.val = t.val % 25) :
    bb0 V c t = Rec.bblk (barr0 V c) k := by
  obtain ⟨-, -, -, -, e20, e21, -⟩ := idx_facts0 t
  funext j
  unfold bb0 iblk0 Rec.bblk barr0
  rw [View.read_apply]
  show V c main_v7 _ = V c main_v7 _
  congr 1
  funext a
  apply Fin.ext
  match a with
  | ⟨0, _⟩ => show win0_2.index t (0 : Fin 2) * 1 + 1 * (j 0).val = 0; rw [e20]; have := (j 0).isLt; simp only [Matrix.cons_val_zero] at this; omega
  | ⟨1, _⟩ => show win0_2.index t (1 : Fin 2) * 1280 + 1 * (j 1).val = 1280 * k.val + (j 1).val; rw [e21, hk]; omega

theorem tb0_eq (c : Dev nD) (t : Fin cfg0.N) (mb : Fin 8) (hmb : mb.val = t.val / 25) :
    tb0 V c t = Rec.tblk (tarr0 V c) mb := by
  obtain ⟨-, -, -, -, -, -, e30, e31, -⟩ := idx_facts0 t
  funext j
  unfold tb0 iblk0 Rec.tblk tarr0
  rw [View.read_apply]
  show V c main_v6 _ = V c main_v6 _
  congr 1
  funext a
  apply Fin.ext
  match a with
  | ⟨0, _⟩ => show win0_3.index t (0 : Fin 2) * 256 + 1 * (j 0).val = 256 * mb.val + (j 0).val; rw [e30, hmb]; omega
  | ⟨1, _⟩ => show win0_3.index t (1 : Fin 2) * 1 + 1 * (j 1).val = 0; rw [e31]; have := (j 1).isLt; simp only [Matrix.cons_val_one, Matrix.cons_val_zero] at this; omega

theorem pt0_eq (t : Fin cfg0.N) (mb : Fin 8) (k : Fin 25) (hmb : mb.val = t.val / 25) (hk : k.val = t.val % 25) :
    grid0.coords t = Rec.pt mb k := by
  obtain ⟨-, -, -, -, -, -, -, -, -, -, g0, g1⟩ := idx_facts0 t
  funext a
  apply Fin.ext
  match a with
  | ⟨0, _⟩ => show ((grid0.coords t) (0 : Fin 2)).val = mb.val; rw [g0, hmb]
  | ⟨1, _⟩ => show ((grid0.coords t) (1 : Fin 2)).val = k.val; rw [g1, hk]

theorem colsAfter0_congr (X : Vec F S2048x2048 .bf16) (W : Vec F S32000x2048 .f32) (B : Vec F S1x32000 .f32) (T : Vec F S2048x1 .i32)
    (mb mb' : Fin 8) (k k' : ℕ) (h : k ≤ 25) (h' : k' ≤ 25) (emb : mb = mb') (ek : k = k') :
    Rec.colsAfter X W B T mb k h = Rec.colsAfter X W B T mb' k' h' := by
  subst emb; subst ek; rfl

theorem colsAfter0_zero_of (X : Vec F S2048x2048 .bf16) (W : Vec F S32000x2048 .f32) (B : Vec F S1x32000 .f32) (T : Vec F S2048x1 .i32)
    (mb : Fin 8) (k : ℕ) (h : k ≤ 25) (ek : k = 0) : Rec.colsAfter X W B T mb k h = Rec.cols0 := by
  subst ek; rfl

theorem colsAfter0_succ (X : Vec F S2048x2048 .bf16) (W : Vec F S32000x2048 .f32) (B : Vec F S1x32000 .f32) (T : Vec F S2048x1 .i32)
    (mb : Fin 8) (k : ℕ) (h : k + 1 ≤ 25) :
    Rec.colsAfter X W B T mb (k + 1) h
      = Rec.colsStep (Rec.pt mb ⟨k, h⟩) (Rec.xblk X mb) (Rec.wblk W ⟨k, h⟩) (Rec.bblk B ⟨k, h⟩) (Rec.tblk T mb)
          (Rec.colsAfter X W B T mb k (Nat.le_of_succ_le h)) := rfl

theorem ltN0 {n : ℕ} (hn : n < cfg0.N) : n < 200 := lt_of_lt_of_eq hn N_0

theorem step0_at (c : Dev nD) (n : ℕ) (hn : n < cfg0.N) (h200 : n < 200) (s : Rec.Cols F) :
    Rec.colsStep (grid0.coords ⟨n, hn⟩) (xb0 V c ⟨n, hn⟩) (wb0 V c ⟨n, hn⟩) (bb0 V c ⟨n, hn⟩) (tb0 V c ⟨n, hn⟩) s
      = Rec.colsStep (Rec.pt ⟨n / 25, by omega⟩ ⟨n % 25, Nat.mod_lt _ (by decide)⟩) (Rec.xblk (xarr0 V c) ⟨n / 25, by omega⟩)
          (Rec.wblk (warr0 V c) ⟨n % 25, Nat.mod_lt _ (by decide)⟩) (Rec.bblk (barr0 V c) ⟨n % 25, Nat.mod_lt _ (by decide)⟩)
          (Rec.tblk (tarr0 V c) ⟨n / 25, by omega⟩) s := by
  rw [xb0_eq V c ⟨n, hn⟩ ⟨n / 25, by omega⟩ rfl, wb0_eq V c ⟨n, hn⟩ ⟨n % 25, Nat.mod_lt _ (by decide)⟩ rfl,
    bb0_eq V c ⟨n, hn⟩ ⟨n % 25, Nat.mod_lt _ (by decide)⟩ rfl, tb0_eq V c ⟨n, hn⟩ ⟨n / 25, by omega⟩ rfl,
    pt0_eq ⟨n, hn⟩ ⟨n / 25, by omega⟩ ⟨n % 25, Nat.mod_lt _ (by decide)⟩ rfl rfl]

theorem carried0_eq (c : Dev nD) : ∀ (n : ℕ) (hn : n < cfg0.N),
    (outsAt0 V c n hn).2 = Rec.colsAfter (xarr0 V c) (warr0 V c) (barr0 V c) (tarr0 V c)
      ⟨n / 25, by have := ltN0 hn; omega⟩ (n % 25 + 1) (by omega) := by
  intro n
  induction n using Nat.strong_induction_on with
  | _ n ih =>
    intro hn
    have h200 := ltN0 hn
    rw [colsAfter0_succ, ← step0_at V c n hn h200]
    by_cases h0 : n % 25 = 0
    · have h1 : ¬n % 25 = 24 := by omega
      rw [outsAt0_A V c ⟨n, hn⟩ h0 h1]
      unfold at0_A
      dsimp only
      refine (soutsA_eq VS0_0 VS0_1 VS0_2 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) ((hcond0_0 ⟨n, hn⟩).mpr h0) (fun h => h1 ((hcond0_1 ⟨n, hn⟩).mp h)) (xb0 V c ⟨n, hn⟩) (wb0 V c ⟨n, hn⟩) (bb0 V c ⟨n, hn⟩) (tb0 V c ⟨n, hn⟩)).trans ?_
      rw [colsAfter0_zero_of _ _ _ _ _ (n % 25) _ h0]
    · have hp : n - 1 < cfg0.N := by omega
      have ihp := ih (n - 1) (by omega) hp
      have eprev : Rec.colsAfter (xarr0 V c) (warr0 V c) (barr0 V c) (tarr0 V c) ⟨(n - 1) / 25, by omega⟩ ((n - 1) % 25 + 1) (by omega)
          = Rec.colsAfter (xarr0 V c) (warr0 V c) (barr0 V c) (tarr0 V c) ⟨n / 25, by omega⟩ (n % 25) (by omega) :=
        colsAfter0_congr _ _ _ _ _ _ _ _ _ _ (Fin.ext (by show (n - 1) / 25 = n / 25; omega)) (by omega)
      by_cases h1 : n % 25 = 24
      · rw [outsAt0_C V c ⟨n, hn⟩ h0 h1]
        unfold at0_C
        dsimp only
        refine (soutsC_eq VS0_0 VS0_1 VS0_2 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) (fun h => h0 ((hcond0_0 ⟨n, hn⟩).mp h)) ((hcond0_1 ⟨n, hn⟩).mpr h1) (xb0 V c ⟨n, hn⟩) (wb0 V c ⟨n, hn⟩) (bb0 V c ⟨n, hn⟩) (tb0 V c ⟨n, hn⟩)
          (outsAt0 V c (n - 1) hp).2.1 (outsAt0 V c (n - 1) hp).2.2.1 (outsAt0 V c (n - 1) hp).2.2.2).trans ?_
        rw [show ((outsAt0 V c (n - 1) hp).2.1, (outsAt0 V c (n - 1) hp).2.2.1, (outsAt0 V c (n - 1) hp).2.2.2) = (outsAt0 V c (n - 1) hp).2 from rfl,
          ihp, eprev]
      · rw [outsAt0_B V c ⟨n, hn⟩ h0 h1]
        unfold at0_B
        dsimp only
        refine (soutsB_eq VS0_0 VS0_1 VS0_2 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) (fun h => h0 ((hcond0_0 ⟨n, hn⟩).mp h)) (fun h => h1 ((hcond0_1 ⟨n, hn⟩).mp h)) (xb0 V c ⟨n, hn⟩) (wb0 V c ⟨n, hn⟩) (bb0 V c ⟨n, hn⟩) (tb0 V c ⟨n, hn⟩)
          (outsAt0 V c (n - 1) hp).2.1 (outsAt0 V c (n - 1) hp).2.2.1 (outsAt0 V c (n - 1) hp).2.2.2).trans ?_
        rw [show ((outsAt0 V c (n - 1) hp).2.1, (outsAt0 V c (n - 1) hp).2.2.1, (outsAt0 V c (n - 1) hp).2.2.2) = (outsAt0 V c (n - 1) hp).2 from rfl,
          ihp, eprev]

abbrev result0 (c : Dev nD) : Vec F S2048x1 .f32 := Rec.outArr (xarr0 V c) (warr0 V c) (barr0 V c) (tarr0 V c)

theorem outArr0_at (X : Vec F S2048x2048 .bf16) (W : Vec F S32000x2048 .f32) (B : Vec F S1x32000 .f32) (T : Vec F S2048x1 .i32)
    (mb : Fin 8) (j : S256x1.Idx) (i : S2048x1.Idx) (hi : (i 0).val = 256 * mb.val + (j 0).val) :
    Rec.outArr X W B T i = Rec.outCol (Rec.tblk T mb) (Rec.colsAfter X W B T mb 25 le_rfl) j := by
  have hj0 : (j 0).val < 256 := (j 0).isLt
  have hj1 : (j 1).val < 1 := (j 1).isLt
  have hi0 : (i 0).val < 2048 := (i 0).isLt
  have e1 : ∀ h, (⟨(i 0).val / 256, h⟩ : Fin 8) = mb := fun h => Fin.ext (by show (i 0).val / 256 = mb.val; omega)
  have e3 : ∀ h h', (ix2 (⟨(i 0).val % 256, h⟩ : Fin 256) (⟨0, h'⟩ : Fin 1) : S256x1.Idx) = j := fun h h' => by
    funext a
    apply Fin.ext
    match a with
    | ⟨0, _⟩ => show (i 0).val % 256 = (j 0).val; omega
    | ⟨1, _⟩ => show 0 = (j 1).val; omega
  unfold Rec.outArr
  dsimp only
  rw [e1, e3]

theorem out0_eq (c : Dev nD) (t : Fin cfg0.N) (h0 : ¬t.val % 25 = 0) (h24 : t.val % 25 = 24) :
    (outsAt0 V c t.val t.isLt).1 = Rec.outCol (tb0 V c t) (outsAt0 V c t.val t.isLt).2 := by
  rw [outsAt0_C V c t h0 h24]
  unfold at0_C
  dsimp only
  rw [outC_eq VO0_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h24) (xb0 V c t) (wb0 V c t) (bb0 V c t) (tb0 V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
    soutsC_eq VS0_0 VS0_1 VS0_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h24) (xb0 V c t) (wb0 V c t) (bb0 V c t) (tb0 V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2]

theorem flushed0_eq (c : Dev nD) (t : Fin cfg0.N) (hf : (cfg0.win 4).flush t = true) :
    (dat0 V c).flushed 4 t = ((cfg0.win 4).blk t).view.read (Elt F) (result0 V c) := by
  have h24 : t.val % 25 = 24 := (flush0_4 t).mp hf
  have h0 : ¬t.val % 25 = 0 := by omega
  have h200 := ltN0 t.isLt
  obtain ⟨-, -, -, -, -, -, -, -, e40, e41, -⟩ := idx_facts0 t
  show (cfg0.win 4).cut (grid0.coords t) ((dat0 V c).after 4 t) = _
  rw [after0_4, out0_eq V c t h0 h24, carried0_eq V c t.val t.isLt, tb0_eq V c t ⟨t.val / 25, by omega⟩ rfl]
  funext j
  rw [View.read_apply]
  show Rec.outCol (Rec.tblk (tarr0 V c) ⟨t.val / 25, _⟩) (Rec.colsAfter (xarr0 V c) (warr0 V c) (barr0 V c) (tarr0 V c) ⟨t.val / 25, _⟩ (t.val % 25 + 1) _) j
    = Rec.outArr (xarr0 V c) (warr0 V c) (barr0 V c) (tarr0 V c) (((cfg0.win 4).blk t).view.emb j)
  rw [outArr0_at (xarr0 V c) (warr0 V c) (barr0 V c) (tarr0 V c) ⟨t.val / 25, by omega⟩ j (((cfg0.win 4).blk t).view.emb j)
      (by show win0_4.index t (0 : Fin 2) * 256 + 1 * (j 0).val = 256 * (t.val / 25) + (j 0).val; rw [e40]; omega),
    colsAfter0_congr _ _ _ _ _ _ (t.val % 25 + 1) 25 _ le_rfl rfl (by omega)]

theorem mem_blk0_4 (t : Fin cfg0.N) (i : S2048x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v8).slice (win0_4.rect t)).set ↔ _
  rw [View.set_slice_whole, Rect.mem_set_unit]
  exact Iff.rfl

theorem arr0_eq (c : Dev nD) : (dat0 V c).arrAt 4 cfg0.N = result0 V c :=
  (dat0 V c).arrAt_eq_of_cover 4 (result0 V c) (flushed0_eq V c) fun i => by
    have hi0 : (i 0).val < 2048 := (i 0).isLt
    have hi1 : (i 1).val < 1 := (i 1).isLt
    have hN : cfg0.N = 200 := N_0
    have ht : 25 * ((i 0).val / 256) + 24 < cfg0.N := by omega
    obtain ⟨-, -, -, -, -, -, -, -, e40, e41, -⟩ := idx_facts0 ⟨25 * ((i 0).val / 256) + 24, ht⟩
    refine ⟨⟨25 * ((i 0).val / 256) + 24, ht⟩, (flush0_4 _).mpr (by show (25 * ((i 0).val / 256) + 24) % 25 = 24; omega), ?_⟩
    rw [mem_blk0_4]
    intro a
    match a with
    | ⟨0, _⟩ =>
      show win0_4.index ⟨25 * ((i 0).val / 256) + 24, ht⟩ (0 : Fin 2) * 256 ≤ (i 0).val ∧ (i 0).val < win0_4.index ⟨25 * ((i 0).val / 256) + 24, ht⟩ (0 : Fin 2) * 256 + 256
      rw [e40]; dsimp only; omega
    | ⟨1, _⟩ =>
      show win0_4.index ⟨25 * ((i 0).val / 256) + 24, ht⟩ (1 : Fin 2) * 1 ≤ (i 1).val ∧ (i 1).val < win0_4.index ⟨25 * ((i 0).val / 256) + 24, ht⟩ (1 : Fin 2) * 1 + 1
      rw [e41]; omega

theorem arr0_eq' (c : Dev nD) : ((dat0 V c).arrAt 4 cfg0.N : Vec F S2048x1 .f32)
    = Rec.outArr (V c main_v3 : Vec F S2048x2048 .bf16) (V c main_arg4 : Vec F S32000x2048 .f32) (V c main_v7 : Vec F S1x32000 .f32) (V c main_v6 : Vec F S2048x1 .i32) :=
  arr0_eq V c

end Cert.KernelIdeal.Hand

end
-- ==== Proof.R1Value.lean ====
import proofs.«421999_j71975061946951_3_alg».proof.Proof.Rec
import proofs.«421999_j71975061946951_3_alg».proof.Proof.Pieces
import proofs.«421999_j71975061946951_3_alg».proof.Proof.R1Body
import proofs.«421999_j71975061946951_3_alg».proof.Proof.Gen.KernelIdeal.Launch
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

abbrev xarr1 (c : Dev nD) : Vec F S2048x2048 .bf16 := V c main_v20
abbrev warr1 (c : Dev nD) : Vec F S32000x2048 .f32 := V c main_arg6
abbrev barr1 (c : Dev nD) : Vec F S1x32000 .f32 := V c main_v24
abbrev tarr1 (c : Dev nD) : Vec F S2048x1 .i32 := V c main_v23

abbrev xb1 (c : Dev nD) (t : Fin cfg1.N) : Vec F S256x2048 .bf16 := iblk1 V c 0 t
abbrev wb1 (c : Dev nD) (t : Fin cfg1.N) : Vec F S1280x2048 .f32 := iblk1 V c 1 t
abbrev bb1 (c : Dev nD) (t : Fin cfg1.N) : Vec F S1x1280 .f32 := iblk1 V c 2 t
abbrev tb1 (c : Dev nD) (t : Fin cfg1.N) : Vec F S256x1 .i32 := iblk1 V c 3 t

theorem idx_facts1 : ∀ t : Fin cfg1.N,
    win1_0.index t (0 : Fin 2) = t.val / 25 ∧ win1_0.index t (1 : Fin 2) = 0
    ∧ win1_1.index t (0 : Fin 2) = t.val % 25 ∧ win1_1.index t (1 : Fin 2) = 0
    ∧ win1_2.index t (0 : Fin 2) = 0 ∧ win1_2.index t (1 : Fin 2) = t.val % 25
    ∧ win1_3.index t (0 : Fin 2) = t.val / 25 ∧ win1_3.index t (1 : Fin 2) = 0
    ∧ win1_4.index t (0 : Fin 2) = t.val / 25 ∧ win1_4.index t (1 : Fin 2) = 0
    ∧ ((grid1.coords t) (0 : Fin 2)).val = t.val / 25 ∧ ((grid1.coords t) (1 : Fin 2)).val = t.val % 25 :=
  (by decide +kernel : ∀ t : Fin grid1.N, _)

theorem xb1_eq (c : Dev nD) (t : Fin cfg1.N) (mb : Fin 8) (hmb : mb.val = t.val / 25) :
    xb1 V c t = Rec.xblk (xarr1 V c) mb := by
  obtain ⟨e00, e01, -⟩ := idx_facts1 t
  funext j
  unfold xb1 iblk1 Rec.xblk xarr1
  rw [View.read_apply]
  show V c main_v20 _ = V c main_v20 _
  congr 1
  funext a
  apply Fin.ext
  match a with
  | ⟨0, _⟩ => show win1_0.index t (0 : Fin 2) * 256 + 1 * (j 0).val = 256 * mb.val + (j 0).val; rw [e00, hmb]; omega
  | ⟨1, _⟩ => show win1_0.index t (1 : Fin 2) * 2048 + 1 * (j 1).val = (j 1).val; rw [e01]; omega

theorem wb1_eq (c : Dev nD) (t : Fin cfg1.N) (k : Fin 25) (hk : k.val = t.val % 25) :
    wb1 V c t = Rec.wblk (warr1 V c) k := by
  obtain ⟨-, -, e10, e11, -⟩ := idx_facts1 t
  funext j
  unfold wb1 iblk1 Rec.wblk warr1
  rw [View.read_apply]
  show V c main_arg6 _ = V c main_arg6 _
  congr 1
  funext a
  apply Fin.ext
  match a with
  | ⟨0, _⟩ => show win1_1.index t (0 : Fin 2) * 1280 + 1 * (j 0).val = 1280 * k.val + (j 0).val; rw [e10, hk]; omega
  | ⟨1, _⟩ => show win1_1.index t (1 : Fin 2) * 2048 + 1 * (j 1).val = (j 1).val; rw [e11]; omega

theorem bb1_eq (c : Dev nD) (t : Fin cfg1.N) (k : Fin 25) (hk : k.val = t.val % 25) :
    bb1 V c t = Rec.bblk (barr1 V c) k := by
  obtain ⟨-, -, -, -, e20, e21, -⟩ := idx_facts1 t
  funext j
  unfold bb1 iblk1 Rec.bblk barr1
  rw [View.read_apply]
  show V c main_v24 _ = V c main_v24 _
  congr 1
  funext a
  apply Fin.ext
  match a with
  | ⟨0, _⟩ => show win1_2.index t (0 : Fin 2) * 1 + 1 * (j 0).val = 0; rw [e20]; have := (j 0).isLt; simp only [Matrix.cons_val_zero] at this; omega
  | ⟨1, _⟩ => show win1_2.index t (1 : Fin 2) * 1280 + 1 * (j 1).val = 1280 * k.val + (j 1).val; rw [e21, hk]; omega

theorem tb1_eq (c : Dev nD) (t : Fin cfg1.N) (mb : Fin 8) (hmb : mb.val = t.val / 25) :
    tb1 V c t = Rec.tblk (tarr1 V c) mb := by
  obtain ⟨-, -, -, -, -, -, e30, e31, -⟩ := idx_facts1 t
  funext j
  unfold tb1 iblk1 Rec.tblk tarr1
  rw [View.read_apply]
  show V c main_v23 _ = V c main_v23 _
  congr 1
  funext a
  apply Fin.ext
  match a with
  | ⟨0, _⟩ => show win1_3.index t (0 : Fin 2) * 256 + 1 * (j 0).val = 256 * mb.val + (j 0).val; rw [e30, hmb]; omega
  | ⟨1, _⟩ => show win1_3.index t (1 : Fin 2) * 1 + 1 * (j 1).val = 0; rw [e31]; have := (j 1).isLt; simp only [Matrix.cons_val_one, Matrix.cons_val_zero] at this; omega

theorem pt1_eq (t : Fin cfg1.N) (mb : Fin 8) (k : Fin 25) (hmb : mb.val = t.val / 25) (hk : k.val = t.val % 25) :
    grid1.coords t = Rec.pt mb k := by
  obtain ⟨-, -, -, -, -, -, -, -, -, -, g0, g1⟩ := idx_facts1 t
  funext a
  apply Fin.ext
  match a with
  | ⟨0, _⟩ => show ((grid1.coords t) (0 : Fin 2)).val = mb.val; rw [g0, hmb]
  | ⟨1, _⟩ => show ((grid1.coords t) (1 : Fin 2)).val = k.val; rw [g1, hk]

theorem colsAfter1_congr (X : Vec F S2048x2048 .bf16) (W : Vec F S32000x2048 .f32) (B : Vec F S1x32000 .f32) (T : Vec F S2048x1 .i32)
    (mb mb' : Fin 8) (k k' : ℕ) (h : k ≤ 25) (h' : k' ≤ 25) (emb : mb = mb') (ek : k = k') :
    Rec.colsAfter X W B T mb k h = Rec.colsAfter X W B T mb' k' h' := by
  subst emb; subst ek; rfl

theorem colsAfter1_zero_of (X : Vec F S2048x2048 .bf16) (W : Vec F S32000x2048 .f32) (B : Vec F S1x32000 .f32) (T : Vec F S2048x1 .i32)
    (mb : Fin 8) (k : ℕ) (h : k ≤ 25) (ek : k = 0) : Rec.colsAfter X W B T mb k h = Rec.cols0 := by
  subst ek; rfl

theorem colsAfter1_succ (X : Vec F S2048x2048 .bf16) (W : Vec F S32000x2048 .f32) (B : Vec F S1x32000 .f32) (T : Vec F S2048x1 .i32)
    (mb : Fin 8) (k : ℕ) (h : k + 1 ≤ 25) :
    Rec.colsAfter X W B T mb (k + 1) h
      = Rec.colsStep (Rec.pt mb ⟨k, h⟩) (Rec.xblk X mb) (Rec.wblk W ⟨k, h⟩) (Rec.bblk B ⟨k, h⟩) (Rec.tblk T mb)
          (Rec.colsAfter X W B T mb k (Nat.le_of_succ_le h)) := rfl

theorem ltN1 {n : ℕ} (hn : n < cfg1.N) : n < 200 := lt_of_lt_of_eq hn N_1

theorem step1_at (c : Dev nD) (n : ℕ) (hn : n < cfg1.N) (h200 : n < 200) (s : Rec.Cols F) :
    Rec.colsStep (grid1.coords ⟨n, hn⟩) (xb1 V c ⟨n, hn⟩) (wb1 V c ⟨n, hn⟩) (bb1 V c ⟨n, hn⟩) (tb1 V c ⟨n, hn⟩) s
      = Rec.colsStep (Rec.pt ⟨n / 25, by omega⟩ ⟨n % 25, Nat.mod_lt _ (by decide)⟩) (Rec.xblk (xarr1 V c) ⟨n / 25, by omega⟩)
          (Rec.wblk (warr1 V c) ⟨n % 25, Nat.mod_lt _ (by decide)⟩) (Rec.bblk (barr1 V c) ⟨n % 25, Nat.mod_lt _ (by decide)⟩)
          (Rec.tblk (tarr1 V c) ⟨n / 25, by omega⟩) s := by
  rw [xb1_eq V c ⟨n, hn⟩ ⟨n / 25, by omega⟩ rfl, wb1_eq V c ⟨n, hn⟩ ⟨n % 25, Nat.mod_lt _ (by decide)⟩ rfl,
    bb1_eq V c ⟨n, hn⟩ ⟨n % 25, Nat.mod_lt _ (by decide)⟩ rfl, tb1_eq V c ⟨n, hn⟩ ⟨n / 25, by omega⟩ rfl,
    pt1_eq ⟨n, hn⟩ ⟨n / 25, by omega⟩ ⟨n % 25, Nat.mod_lt _ (by decide)⟩ rfl rfl]

theorem carried1_eq (c : Dev nD) : ∀ (n : ℕ) (hn : n < cfg1.N),
    (outsAt1 V c n hn).2 = Rec.colsAfter (xarr1 V c) (warr1 V c) (barr1 V c) (tarr1 V c)
      ⟨n / 25, by have := ltN1 hn; omega⟩ (n % 25 + 1) (by omega) := by
  intro n
  induction n using Nat.strong_induction_on with
  | _ n ih =>
    intro hn
    have h200 := ltN1 hn
    rw [colsAfter1_succ, ← step1_at V c n hn h200]
    by_cases h0 : n % 25 = 0
    · have h1 : ¬n % 25 = 24 := by omega
      rw [outsAt1_A V c ⟨n, hn⟩ h0 h1]
      unfold at1_A
      dsimp only
      refine (soutsA_eq VS1_0 VS1_1 VS1_2 c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) scM1_0 (Memref.isWhole_whole _) scM1_1 (Memref.isWhole_whole _) scM1_2 (Memref.isWhole_whole _) ((hcond1_0 ⟨n, hn⟩).mpr h0) (fun h => h1 ((hcond1_1 ⟨n, hn⟩).mp h)) (xb1 V c ⟨n, hn⟩) (wb1 V c ⟨n, hn⟩) (bb1 V c ⟨n, hn⟩) (tb1 V c ⟨n, hn⟩)).trans ?_
      rw [colsAfter1_zero_of _ _ _ _ _ (n % 25) _ h0]
    · have hp : n - 1 < cfg1.N := by omega
      have ihp := ih (n - 1) (by omega) hp
      have eprev : Rec.colsAfter (xarr1 V c) (warr1 V c) (barr1 V c) (tarr1 V c) ⟨(n - 1) / 25, by omega⟩ ((n - 1) % 25 + 1) (by omega)
          = Rec.colsAfter (xarr1 V c) (warr1 V c) (barr1 V c) (tarr1 V c) ⟨n / 25, by omega⟩ (n % 25) (by omega) :=
        colsAfter1_congr _ _ _ _ _ _ _ _ _ _ (Fin.ext (by show (n - 1) / 25 = n / 25; omega)) (by omega)
      by_cases h1 : n % 25 = 24
      · rw [outsAt1_C V c ⟨n, hn⟩ h0 h1]
        unfold at1_C
        dsimp only
        refine (soutsC_eq VS1_0 VS1_1 VS1_2 c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) scM1_0 (Memref.isWhole_whole _) scM1_1 (Memref.isWhole_whole _) scM1_2 (Memref.isWhole_whole _) (fun h => h0 ((hcond1_0 ⟨n, hn⟩).mp h)) ((hcond1_1 ⟨n, hn⟩).mpr h1) (xb1 V c ⟨n, hn⟩) (wb1 V c ⟨n, hn⟩) (bb1 V c ⟨n, hn⟩) (tb1 V c ⟨n, hn⟩)
          (outsAt1 V c (n - 1) hp).2.1 (outsAt1 V c (n - 1) hp).2.2.1 (outsAt1 V c (n - 1) hp).2.2.2).trans ?_
        rw [show ((outsAt1 V c (n - 1) hp).2.1, (outsAt1 V c (n - 1) hp).2.2.1, (outsAt1 V c (n - 1) hp).2.2.2) = (outsAt1 V c (n - 1) hp).2 from rfl,
          ihp, eprev]
      · rw [outsAt1_B V c ⟨n, hn⟩ h0 h1]
        unfold at1_B
        dsimp only
        refine (soutsB_eq VS1_0 VS1_1 VS1_2 c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) scM1_0 (Memref.isWhole_whole _) scM1_1 (Memref.isWhole_whole _) scM1_2 (Memref.isWhole_whole _) (fun h => h0 ((hcond1_0 ⟨n, hn⟩).mp h)) (fun h => h1 ((hcond1_1 ⟨n, hn⟩).mp h)) (xb1 V c ⟨n, hn⟩) (wb1 V c ⟨n, hn⟩) (bb1 V c ⟨n, hn⟩) (tb1 V c ⟨n, hn⟩)
          (outsAt1 V c (n - 1) hp).2.1 (outsAt1 V c (n - 1) hp).2.2.1 (outsAt1 V c (n - 1) hp).2.2.2).trans ?_
        rw [show ((outsAt1 V c (n - 1) hp).2.1, (outsAt1 V c (n - 1) hp).2.2.1, (outsAt1 V c (n - 1) hp).2.2.2) = (outsAt1 V c (n - 1) hp).2 from rfl,
          ihp, eprev]

abbrev result1 (c : Dev nD) : Vec F S2048x1 .f32 := Rec.outArr (xarr1 V c) (warr1 V c) (barr1 V c) (tarr1 V c)

theorem outArr1_at (X : Vec F S2048x2048 .bf16) (W : Vec F S32000x2048 .f32) (B : Vec F S1x32000 .f32) (T : Vec F S2048x1 .i32)
    (mb : Fin 8) (j : S256x1.Idx) (i : S2048x1.Idx) (hi : (i 0).val = 256 * mb.val + (j 0).val) :
    Rec.outArr X W B T i = Rec.outCol (Rec.tblk T mb) (Rec.colsAfter X W B T mb 25 le_rfl) j := by
  have hj0 : (j 0).val < 256 := (j 0).isLt
  have hj1 : (j 1).val < 1 := (j 1).isLt
  have hi0 : (i 0).val < 2048 := (i 0).isLt
  have e1 : ∀ h, (⟨(i 0).val / 256, h⟩ : Fin 8) = mb := fun h => Fin.ext (by show (i 0).val / 256 = mb.val; omega)
  have e3 : ∀ h h', (ix2 (⟨(i 0).val % 256, h⟩ : Fin 256) (⟨0, h'⟩ : Fin 1) : S256x1.Idx) = j := fun h h' => by
    funext a
    apply Fin.ext
    match a with
    | ⟨0, _⟩ => show (i 0).val % 256 = (j 0).val; omega
    | ⟨1, _⟩ => show 0 = (j 1).val; omega
  unfold Rec.outArr
  dsimp only
  rw [e1, e3]

theorem out1_eq (c : Dev nD) (t : Fin cfg1.N) (h0 : ¬t.val % 25 = 0) (h24 : t.val % 25 = 24) :
    (outsAt1 V c t.val t.isLt).1 = Rec.outCol (tb1 V c t) (outsAt1 V c t.val t.isLt).2 := by
  rw [outsAt1_C V c t h0 h24]
  unfold at1_C
  dsimp only
  rw [outC_eq VO1_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h24) (xb1 V c t) (wb1 V c t) (bb1 V c t) (tb1 V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    soutsC_eq VS1_0 VS1_1 VS1_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h24) (xb1 V c t) (wb1 V c t) (bb1 V c t) (tb1 V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]

theorem flushed1_eq (c : Dev nD) (t : Fin cfg1.N) (hf : (cfg1.win 4).flush t = true) :
    (dat1 V c).flushed 4 t = ((cfg1.win 4).blk t).view.read (Elt F) (result1 V c) := by
  have h24 : t.val % 25 = 24 := (flush1_4 t).mp hf
  have h0 : ¬t.val % 25 = 0 := by omega
  have h200 := ltN1 t.isLt
  obtain ⟨-, -, -, -, -, -, -, -, e40, e41, -⟩ := idx_facts1 t
  show (cfg1.win 4).cut (grid1.coords t) ((dat1 V c).after 4 t) = _
  rw [after1_4, out1_eq V c t h0 h24, carried1_eq V c t.val t.isLt, tb1_eq V c t ⟨t.val / 25, by omega⟩ rfl]
  funext j
  rw [View.read_apply]
  show Rec.outCol (Rec.tblk (tarr1 V c) ⟨t.val / 25, _⟩) (Rec.colsAfter (xarr1 V c) (warr1 V c) (barr1 V c) (tarr1 V c) ⟨t.val / 25, _⟩ (t.val % 25 + 1) _) j
    = Rec.outArr (xarr1 V c) (warr1 V c) (barr1 V c) (tarr1 V c) (((cfg1.win 4).blk t).view.emb j)
  rw [outArr1_at (xarr1 V c) (warr1 V c) (barr1 V c) (tarr1 V c) ⟨t.val / 25, by omega⟩ j (((cfg1.win 4).blk t).view.emb j)
      (by show win1_4.index t (0 : Fin 2) * 256 + 1 * (j 0).val = 256 * (t.val / 25) + (j 0).val; rw [e40]; omega),
    colsAfter1_congr _ _ _ _ _ _ (t.val % 25 + 1) 25 _ le_rfl rfl (by omega)]

theorem mem_blk1_4 (t : Fin cfg1.N) (i : S2048x1.Idx) :
    i ∈ ((cfg1.win 4).blk t).view.set ↔ ∀ a : Fin 2, win1_4.index t a * S256x1.size a ≤ (i a).val ∧ (i a).val < win1_4.index t a * S256x1.size a + S256x1.size a := by
  show i ∈ ((View.whole main_v25).slice (win1_4.rect t)).set ↔ _
  rw [View.set_slice_whole, Rect.mem_set_unit]
  exact Iff.rfl

theorem arr1_eq (c : Dev nD) : (dat1 V c).arrAt 4 cfg1.N = result1 V c :=
  (dat1 V c).arrAt_eq_of_cover 4 (result1 V c) (flushed1_eq V c) fun i => by
    have hi0 : (i 0).val < 2048 := (i 0).isLt
    have hi1 : (i 1).val < 1 := (i 1).isLt
    have hN : cfg1.N = 200 := N_1
    have ht : 25 * ((i 0).val / 256) + 24 < cfg1.N := by omega
    obtain ⟨-, -, -, -, -, -, -, -, e40, e41, -⟩ := idx_facts1 ⟨25 * ((i 0).val / 256) + 24, ht⟩
    refine ⟨⟨25 * ((i 0).val / 256) + 24, ht⟩, (flush1_4 _).mpr (by show (25 * ((i 0).val / 256) + 24) % 25 = 24; omega), ?_⟩
    rw [mem_blk1_4]
    intro a
    match a with
    | ⟨0, _⟩ =>
      show win1_4.index ⟨25 * ((i 0).val / 256) + 24, ht⟩ (0 : Fin 2) * 256 ≤ (i 0).val ∧ (i 0).val < win1_4.index ⟨25 * ((i 0).val / 256) + 24, ht⟩ (0 : Fin 2) * 256 + 256
      rw [e40]; dsimp only; omega
    | ⟨1, _⟩ =>
      show win1_4.index ⟨25 * ((i 0).val / 256) + 24, ht⟩ (1 : Fin 2) * 1 ≤ (i 1).val ∧ (i 1).val < win1_4.index ⟨25 * ((i 0).val / 256) + 24, ht⟩ (1 : Fin 2) * 1 + 1
      rw [e41]; omega

theorem arr1_eq' (c : Dev nD) : ((dat1 V c).arrAt 4 cfg1.N : Vec F S2048x1 .f32)
    = Rec.outArr (V c main_v20 : Vec F S2048x2048 .bf16) (V c main_arg6 : Vec F S32000x2048 .f32) (V c main_v24 : Vec F S1x32000 .f32) (V c main_v23 : Vec F S2048x1 .i32) :=
  arr1_eq V c

end Cert.KernelIdeal.Hand

end
-- ==== Proof.Spec.lean ====
import Idealize.ShloMosaic.PureOps.Ideal

noncomputable section

namespace Cert.Spec

open Idealize.ShloMosaic

def logit (x : Fin 2048 → EReal) (W : Fin 32000 → Fin 2048 → EReal) (b : Fin 32000 → EReal) (v : Fin 32000) : EReal :=
  (∑ h : Fin 2048, x h * W v h) + b v

def rowMax (z : Fin 32000 → EReal) : EReal := Finset.univ.sup z

def rowLse (z : Fin 32000 → EReal) : EReal := Ideal.log (∑ v : Fin 32000, Ideal.exp (z v - rowMax z))

def LabelOk (t : BitVec 32) : Prop := t.toNat < 32000 ∨ t = 4294967196#32

def tokLogp (z : Fin 32000 → EReal) (t : BitVec 32) : EReal :=
  if h : t.toNat < 32000 then (z ⟨t.toNat, h⟩ - rowMax z) - rowLse z else 0

end Cert.Spec

end
-- ==== Proof.LibOnlineSoftmax.lean ====
import Idealize.ShloMosaic.PureOps.Ideal
import Mathlib.Algebra.BigOperators.Fin
import Mathlib.Data.Finset.Fold

noncomputable section

namespace OnlineSoftmax

open Idealize.ShloMosaic

abbrev rowMax {n : ℕ} (s : Fin n → EReal) : EReal := (Finset.univ : Finset (Fin n)).fold max ⊥ s

def step {n : ℕ} (s : Fin n → EReal) (v : Fin n → EReal) (st : EReal × EReal × EReal) : EReal × EReal × EReal :=
  (max st.1 (rowMax s),
   Ideal.exp (st.1 - max st.1 (rowMax s)) * st.2.1 + ∑ k : Fin n, Ideal.exp (s k - max st.1 (rowMax s)),
   Ideal.exp (st.1 - max st.1 (rowMax s)) * st.2.2 + ∑ k : Fin n, Ideal.exp (s k - max st.1 (rowMax s)) * v k)

def run {T n : ℕ} (s : Fin T → Fin n → EReal) (v : Fin T → Fin n → EReal) : ℕ → EReal × EReal × EReal
  | 0 => (⊥, 0, 0)
  | j + 1 => if h : j < T then step (s ⟨j, h⟩) (v ⟨j, h⟩) (run s v j) else run s v j

theorem run_zero {T n : ℕ} (s : Fin T → Fin n → EReal) (v : Fin T → Fin n → EReal) : run s v 0 = (⊥, 0, 0) := rfl

theorem run_succ {T n : ℕ} (s : Fin T → Fin n → EReal) (v : Fin T → Fin n → EReal) (j : ℕ) (h : j < T) :
    run s v (j + 1) = step (s ⟨j, h⟩) (v ⟨j, h⟩) (run s v j) := by
  simp only [run, dif_pos h]

theorem coe_sum {ι : Type} (t : Finset ι) (f : ι → ℝ) :
    ((∑ i ∈ t, f i : ℝ) : EReal) = ∑ i ∈ t, (f i : EReal) := by
  classical
  refine Finset.induction_on t ?_ ?_
  · simp
  · intro a t ha ih
    rw [Finset.sum_insert ha, Finset.sum_insert ha, EReal.coe_add, ih]

def w (x m : EReal) : ℝ := (Ideal.exp (x - m)).toReal

theorem w_bot (m : EReal) : w ⊥ m = 0 := by
  unfold w; rw [EReal.bot_sub, Ideal.exp_bot, EReal.toReal_zero]

theorem w_coe (r q : ℝ) : w (r : EReal) (q : EReal) = Real.exp (r - q) := by
  unfold w; rw [← EReal.coe_sub, Ideal.exp_coe, EReal.toReal_coe]

theorem w_nonneg (x m : EReal) : 0 ≤ w x m := by
  unfold w
  generalize x - m = y
  induction y using EReal.rec with
  | bot => simp
  | coe r => rw [Ideal.exp_coe, EReal.toReal_coe]; exact (Real.exp_pos r).le
  | top => simp

theorem exp_sub {x m : EReal} (hm : m ≠ ⊤) (hxm : x ≤ m) : Ideal.exp (x - m) = ((w x m : ℝ) : EReal) := by
  induction x using EReal.rec with
  | bot => rw [w_bot, EReal.bot_sub, Ideal.exp_bot, EReal.coe_zero]
  | coe r =>
    induction m using EReal.rec with
    | bot => exact absurd hxm (by simp)
    | coe q => rw [w_coe, ← EReal.coe_sub, Ideal.exp_coe]
    | top => exact absurd rfl hm
  | top => exact absurd (top_le_iff.mp hxm) hm

theorem w_mul {x m m' : EReal} (hm' : m' ≠ ⊤) (hxm : x ≤ m) (hmm' : m ≤ m') : w m m' * w x m = w x m' := by
  induction x using EReal.rec with
  | bot => rw [w_bot, w_bot, mul_zero]
  | coe r =>
    induction m using EReal.rec with
    | bot => exact absurd hxm (by simp)
    | coe q =>
      induction m' using EReal.rec with
      | bot => exact absurd hmm' (by simp)
      | coe p => rw [w_coe, w_coe, w_coe, ← Real.exp_add]; congr 1; ring
      | top => exact absurd rfl hm'
    | top => exact absurd (top_le_iff.mp hmm') hm'
  | top => exact absurd (top_le_iff.mp (hxm.trans hmm')) hm'

theorem coe_toReal_of_exists {x : EReal} (h : ∃ r : ℝ, x = (r : EReal)) : x = ((x.toReal : ℝ) : EReal) := by
  obtain ⟨r, hr⟩ := h
  rw [hr, EReal.toReal_coe]

theorem le_rowMax {n : ℕ} (s : Fin n → EReal) (k : Fin n) : s k ≤ rowMax s :=
  (Finset.le_fold_max _).mpr (Or.inr ⟨k, Finset.mem_univ k, le_rfl⟩)

theorem rowMax_ne_top {n : ℕ} (s : Fin n → EReal) (hs : ∀ k, s k ≠ ⊤) : rowMax s ≠ ⊤ :=
  ((Finset.fold_max_lt _).mpr ⟨bot_lt_top, fun k _ => lt_top_iff_ne_top.mpr (hs k)⟩).ne

theorem step_coe {n : ℕ} (s v : Fin n → EReal) (hs : ∀ k, s k ≠ ⊤) (hv : ∀ k, ∃ r : ℝ, v k = (r : EReal))
    (m : EReal) (hm : m ≠ ⊤) (l a : ℝ) :
    step s v (m, (l : EReal), (a : EReal))
      = (max m (rowMax s),
         ((w m (max m (rowMax s)) * l + ∑ k, w (s k) (max m (rowMax s)) : ℝ) : EReal),
         ((w m (max m (rowMax s)) * a + ∑ k, w (s k) (max m (rowMax s)) * (v k).toReal : ℝ) : EReal)) := by
  have hM : max m (rowMax s) ≠ ⊤ := by
    rcases max_choice m (rowMax s) with h | h <;> rw [h]
    · exact hm
    · exact rowMax_ne_top s hs
  have hk : ∀ k, s k ≤ max m (rowMax s) := fun k => (le_rowMax s k).trans (le_max_right _ _)
  have e1 : ∑ k : Fin n, Ideal.exp (s k - max m (rowMax s)) = ((∑ k, w (s k) (max m (rowMax s)) : ℝ) : EReal) := by
    rw [coe_sum]
    exact Finset.sum_congr rfl fun k _ => exp_sub hM (hk k)
  have e2 : ∑ k : Fin n, Ideal.exp (s k - max m (rowMax s)) * v k
      = ((∑ k, w (s k) (max m (rowMax s)) * (v k).toReal : ℝ) : EReal) := by
    rw [coe_sum]
    refine Finset.sum_congr rfl fun k _ => ?_
    rw [exp_sub hM (hk k), EReal.coe_mul, ← coe_toReal_of_exists (hv k)]
  unfold step
  simp only []
  rw [e1, e2, exp_sub hM (le_max_left _ _), EReal.coe_add, EReal.coe_add, EReal.coe_mul, EReal.coe_mul]

def upto (T j : ℕ) : Finset (Fin T) := Finset.univ.filter fun i => i.val < j

theorem upto_zero (T : ℕ) : upto T 0 = ∅ := by
  ext i
  simp [upto]

theorem upto_self (T : ℕ) : upto T T = Finset.univ := by
  ext i
  simp [upto]

theorem upto_succ {T : ℕ} (j : ℕ) (h : j < T) : upto T (j + 1) = insert (⟨j, h⟩ : Fin T) (upto T j) := by
  ext i
  simp only [upto, Finset.mem_filter, Finset.mem_univ, true_and, Finset.mem_insert, Fin.ext_iff]
  omega

theorem not_mem_upto {T : ℕ} (j : ℕ) (h : j < T) : (⟨j, h⟩ : Fin T) ∉ upto T j := by
  simp [upto]

def pmax {T n : ℕ} (s : Fin T → Fin n → EReal) (j : ℕ) : EReal := (upto T j).fold max ⊥ fun i => rowMax (s i)

theorem pmax_zero {T n : ℕ} (s : Fin T → Fin n → EReal) : pmax s 0 = ⊥ := by
  rw [pmax, upto_zero, Finset.fold_empty]

theorem pmax_succ {T n : ℕ} (s : Fin T → Fin n → EReal) (j : ℕ) (h : j < T) :
    pmax s (j + 1) = max (pmax s j) (rowMax (s ⟨j, h⟩)) := by
  rw [pmax, upto_succ j h, Finset.fold_insert (not_mem_upto j h), max_comm]
  rfl

theorem le_pmax {T n : ℕ} (s : Fin T → Fin n → EReal) (j : ℕ) {i : Fin T} (hi : i ∈ upto T j) (k : Fin n) :
    s i k ≤ pmax s j :=
  (Finset.le_fold_max _).mpr (Or.inr ⟨i, hi, le_rowMax (s i) k⟩)

theorem pmax_ne_top {T n : ℕ} (s : Fin T → Fin n → EReal) (hs : ∀ j k, s j k ≠ ⊤) (j : ℕ) : pmax s j ≠ ⊤ :=
  ((Finset.fold_max_lt _).mpr ⟨bot_lt_top, fun i _ => lt_top_iff_ne_top.mpr (rowMax_ne_top (s i) (hs i))⟩).ne

def den {T n : ℕ} (s : Fin T → Fin n → EReal) (j : ℕ) : ℝ := ∑ i ∈ upto T j, ∑ k, w (s i k) (pmax s j)

def num {T n : ℕ} (s v : Fin T → Fin n → EReal) (j : ℕ) : ℝ :=
  ∑ i ∈ upto T j, ∑ k, w (s i k) (pmax s j) * (v i k).toReal

theorem den_succ {T n : ℕ} (s : Fin T → Fin n → EReal) (hs : ∀ j k, s j k ≠ ⊤) (j : ℕ) (h : j < T) :
    w (pmax s j) (pmax s (j + 1)) * den s j + ∑ k, w (s ⟨j, h⟩ k) (pmax s (j + 1)) = den s (j + 1) := by
  have hle : pmax s j ≤ pmax s (j + 1) := by rw [pmax_succ s j h]; exact le_max_left _ _
  have htop := pmax_ne_top s hs (j + 1)
  rw [den, den, upto_succ j h, Finset.sum_insert (not_mem_upto j h), Finset.mul_sum, add_comm]
  congr 1
  refine Finset.sum_congr rfl fun i hi => ?_
  rw [Finset.mul_sum]
  exact Finset.sum_congr rfl fun k _ => w_mul htop (le_pmax s j hi k) hle

theorem num_succ {T n : ℕ} (s v : Fin T → Fin n → EReal) (hs : ∀ j k, s j k ≠ ⊤) (j : ℕ) (h : j < T) :
    w (pmax s j) (pmax s (j + 1)) * num s v j + ∑ k, w (s ⟨j, h⟩ k) (pmax s (j + 1)) * (v ⟨j, h⟩ k).toReal
      = num s v (j + 1) := by
  have hle : pmax s j ≤ pmax s (j + 1) := by rw [pmax_succ s j h]; exact le_max_left _ _
  have htop := pmax_ne_top s hs (j + 1)
  rw [num, num, upto_succ j h, Finset.sum_insert (not_mem_upto j h), Finset.mul_sum, add_comm]
  congr 1
  refine Finset.sum_congr rfl fun i hi => ?_
  rw [Finset.mul_sum]
  refine Finset.sum_congr rfl fun k _ => ?_
  rw [← mul_assoc, w_mul htop (le_pmax s j hi k) hle]

theorem run_eq {T n : ℕ} (s v : Fin T → Fin n → EReal) (hs : ∀ j k, s j k ≠ ⊤)
    (hv : ∀ j k, ∃ r : ℝ, v j k = (r : EReal)) :
    ∀ j, j ≤ T → run s v j = (pmax s j, ((den s j : ℝ) : EReal), ((num s v j : ℝ) : EReal)) := by
  intro j
  induction j with
  | zero =>
    intro _
    rw [run_zero, pmax_zero, den, num, upto_zero, Finset.sum_empty, Finset.sum_empty, EReal.coe_zero]
  | succ j ih =>
    intro hj
    have h : j < T := hj
    rw [run_succ s v j h, ih h.le, step_coe (s ⟨j, h⟩) (v ⟨j, h⟩) (hs ⟨j, h⟩) (hv ⟨j, h⟩) _ (pmax_ne_top s hs j),
      ← pmax_succ s j h, den_succ s hs j h, num_succ s v hs j h]

theorem den_pos {T n : ℕ} (s : Fin T → Fin n → EReal) (hs : ∀ j k, s j k ≠ ⊤) (hne : ∃ j k, s j k ≠ ⊥) :
    0 < den s T := by
  obtain ⟨j, k, hjk⟩ := hne
  have hj : j ∈ upto T T := by rw [upto_self]; exact Finset.mem_univ j
  have hle := le_pmax s T hj k
  have htop := pmax_ne_top s hs T
  have hpos : 0 < w (s j k) (pmax s T) := by
    generalize pmax s T = m at hle htop
    have hs' := hs j k
    generalize s j k = x at hjk hle hs'
    induction x using EReal.rec with
    | bot => exact absurd rfl hjk
    | coe r =>
      induction m using EReal.rec with
      | bot => exact absurd hle (by simp)
      | coe q => rw [w_coe]; exact Real.exp_pos _
      | top => exact absurd rfl htop
    | top => exact absurd rfl hs'
  have h1 : w (s j k) (pmax s T) ≤ ∑ k', w (s j k') (pmax s T) :=
    Finset.single_le_sum (f := fun k' => w (s j k') (pmax s T)) (fun k' _ => w_nonneg _ _) (Finset.mem_univ k)
  have h2 : ∑ k', w (s j k') (pmax s T) ≤ den s T :=
    Finset.single_le_sum (f := fun i => ∑ k', w (s i k') (pmax s T))
      (fun i _ => Finset.sum_nonneg fun k' _ => w_nonneg _ _) hj
  exact lt_of_lt_of_le hpos (h1.trans h2)

theorem result_coe {T n : ℕ} (s v : Fin T → Fin n → EReal) (hs : ∀ j k, s j k ≠ ⊤)
    (hv : ∀ j k, ∃ r : ℝ, v j k = (r : EReal)) (hne : ∃ j k, s j k ≠ ⊥) :
    (run s v T).2.2 * Ideal.div 1 (run s v T).2.1 = ((num s v T * (1 / den s T) : ℝ) : EReal) := by
  rw [run_eq s v hs hv T le_rfl]
  simp only []
  rw [Ideal.div_coe (den_pos s hs hne).ne', one_mul, ← EReal.coe_mul]

theorem run_result {T n : ℕ} (s : Fin T → Fin n → EReal) (v : Fin T → Fin n → EReal)
    (hs : ∀ j k, s j k ≠ ⊤) (hv : ∀ j k, ∃ r : ℝ, v j k = (r : EReal)) (hne : ∃ j k, s j k ≠ ⊥) :
    (run s v T).2.2 * Ideal.div 1 (run s v T).2.1
      = ∑ j : Fin T, ∑ k : Fin n,
          Ideal.div (Ideal.exp (s j k - max ⊥ ((Finset.univ : Finset (Fin T)).fold max ⊥ fun j' => rowMax (s j'))))
            (0 + ∑ j' : Fin T, ∑ k' : Fin n, Ideal.exp (s j' k' - max ⊥ ((Finset.univ : Finset (Fin T)).fold max ⊥ fun j' => rowMax (s j'))))
          * v j k := by
  have hM : max ⊥ ((Finset.univ : Finset (Fin T)).fold max ⊥ fun j' => rowMax (s j')) = pmax s T := by
    rw [max_eq_right bot_le, pmax, upto_self]
  have htop := pmax_ne_top s hs T
  have hmem : ∀ i : Fin T, i ∈ upto T T := fun i => by rw [upto_self]; exact Finset.mem_univ i
  have hden : (0 : EReal) + ∑ j' : Fin T, ∑ k' : Fin n, Ideal.exp (s j' k' - pmax s T) = ((den s T : ℝ) : EReal) := by
    rw [zero_add, den, upto_self, coe_sum]
    refine Finset.sum_congr rfl fun i _ => ?_
    rw [coe_sum]
    exact Finset.sum_congr rfl fun k _ => exp_sub htop (le_pmax s T (hmem i) k)
  rw [result_coe s v hs hv hne, hM, hden, num, upto_self, Finset.sum_mul, coe_sum]
  refine Finset.sum_congr rfl fun i _ => ?_
  rw [Finset.sum_mul, coe_sum]
  refine Finset.sum_congr rfl fun k _ => ?_
  rw [Ideal.div_coe (den_pos s hs hne).ne', exp_sub htop (le_pmax s T (hmem i) k)]
  conv_rhs => rw [coe_toReal_of_exists (hv i k)]
  rw [← EReal.coe_mul, ← EReal.coe_mul]
  congr 1
  ring

theorem run_result_real {T n : ℕ} (s : Fin T → Fin n → EReal) (v : Fin T → Fin n → EReal)
    (hs : ∀ j k, s j k ≠ ⊤) (hv : ∀ j k, ∃ r : ℝ, v j k = (r : EReal)) (hne : ∃ j k, s j k ≠ ⊥) :
    ∃ r : ℝ, (run s v T).2.2 * Ideal.div 1 (run s v T).2.1 = (r : EReal) :=
  ⟨_, result_coe s v hs hv hne⟩

def flat {T n : ℕ} (j : Fin T) (k : Fin n) : Fin (T * n) := finProdFinEquiv (j, k)

theorem flat_val {T n : ℕ} (j : Fin T) (k : Fin n) : (flat j k).val = k.val + n * j.val := rfl

theorem flat_surj {T n : ℕ} (i : Fin (T * n)) : flat (finProdFinEquiv.symm i).1 (finProdFinEquiv.symm i).2 = i :=
  finProdFinEquiv.apply_symm_apply i

theorem sum_flat {T n : ℕ} (f : Fin (T * n) → EReal) : ∑ i : Fin (T * n), f i = ∑ j : Fin T, ∑ k : Fin n, f (flat j k) := by
  rw [← Fintype.sum_prod_type' (fun j k => f (flat j k))]
  exact (Fintype.sum_equiv finProdFinEquiv (fun p => f (flat p.1 p.2)) f fun _ => rfl).symm

theorem fold_max_flat {T n : ℕ} (f : Fin (T * n) → EReal) :
    (Finset.univ : Finset (Fin (T * n))).fold max ⊥ f = (Finset.univ : Finset (Fin T)).fold max ⊥ fun j => rowMax fun k => f (flat j k) := by
  apply le_antisymm
  · refine (Finset.fold_max_le _).mpr ⟨bot_le, fun i _ => ?_⟩
    refine (Finset.le_fold_max _).mpr (Or.inr ⟨(finProdFinEquiv.symm i).1, Finset.mem_univ _, ?_⟩)
    refine (Finset.le_fold_max _).mpr (Or.inr ⟨(finProdFinEquiv.symm i).2, Finset.mem_univ _, ?_⟩)
    rw [flat_surj]
  · refine (Finset.fold_max_le _).mpr ⟨bot_le, fun j _ => ?_⟩
    refine (Finset.fold_max_le _).mpr ⟨bot_le, fun k _ => ?_⟩
    exact (Finset.le_fold_max _).mpr (Or.inr ⟨flat j k, Finset.mem_univ _, le_rfl⟩)

end OnlineSoftmax

end
-- ==== Proof.Algebra.lean ====
import proofs.«421999_j71975061946951_3_alg».proof.Proof.Spec
import proofs.«421999_j71975061946951_3_alg».proof.Proof.LibOnlineSoftmax
import Mathlib.Algebra.BigOperators.Fin
import Mathlib.Data.Finset.Lattice.Fold

noncomputable section

namespace Cert.Spec

open Idealize.ShloMosaic

def zc (z : Fin 32000 → EReal) (k : Fin 25) (j : Fin 1280) : EReal := z ⟨1280 * k.val + j.val, by omega⟩

def chunkStep (z : Fin 32000 → EReal) (t : BitVec 32) (k : Fin 25) (s : EReal × EReal × EReal) :
    EReal × EReal × EReal :=
  (max s.1 (Finset.univ.sup (zc z k)),
   Ideal.exp (s.1 - max s.1 (Finset.univ.sup (zc z k))) * s.2.1
     + ∑ j : Fin 1280, Ideal.exp (zc z k j - max s.1 (Finset.univ.sup (zc z k))),
   s.2.2 + ∑ j : Fin 1280,
     (if BitVec.ofNat 32 j.val + BitVec.ofNat 32 k.val * 1280#32 = t then zc z k j else 0))

def chunks (z : Fin 32000 → EReal) (t : BitVec 32) : (n : ℕ) → n ≤ 25 → EReal × EReal × EReal
  | 0, _ => (⊥, 0, 0)
  | n + 1, hn => chunkStep z t ⟨n, hn⟩ (chunks z t n (Nat.le_of_succ_le hn))

theorem chunks_zero (z : Fin 32000 → EReal) (t : BitVec 32) (h : 0 ≤ 25) : chunks z t 0 h = (⊥, 0, 0) := rfl

theorem chunks_succ (z : Fin 32000 → EReal) (t : BitVec 32) (n : ℕ) (hn : n + 1 ≤ 25) :
    chunks z t (n + 1) hn = chunkStep z t ⟨n, hn⟩ (chunks z t n (Nat.le_of_succ_le hn)) := rfl

theorem sup_eq_fold {n : ℕ} (f : Fin n → EReal) : Finset.univ.sup f = OnlineSoftmax.rowMax f := by
  apply le_antisymm
  · exact Finset.sup_le fun i _ => OnlineSoftmax.le_rowMax f i
  · exact (Finset.fold_max_le _).mpr ⟨bot_le, fun i _ => Finset.le_sup (Finset.mem_univ i)⟩

def v0 : Fin 25 → Fin 1280 → EReal := fun _ _ => 0

theorem v0_real : ∀ i j, ∃ r : ℝ, v0 i j = (r : EReal) := fun _ _ => ⟨0, EReal.coe_zero.symm⟩

theorem zc_ne_top (z : Fin 32000 → EReal) (hz : ∀ v, ∃ a : ℝ, z v = (a : EReal)) : ∀ i j, zc z i j ≠ ⊤ := by
  intro i j
  obtain ⟨a, ha⟩ := hz ⟨1280 * i.val + j.val, by omega⟩
  rw [zc, ha]
  exact EReal.coe_ne_top a

theorem zc_ne_bot (z : Fin 32000 → EReal) (hz : ∀ v, ∃ a : ℝ, z v = (a : EReal)) : ∀ i j, zc z i j ≠ ⊥ := by
  intro i j
  obtain ⟨a, ha⟩ := hz ⟨1280 * i.val + j.val, by omega⟩
  rw [zc, ha]
  exact EReal.coe_ne_bot a

theorem chunks_fst (z : Fin 32000 → EReal) (t : BitVec 32) : ∀ (n : ℕ) (hn : n ≤ 25),
    (chunks z t n hn).1 = (OnlineSoftmax.run (zc z) v0 n).1
      ∧ (chunks z t n hn).2.1 = (OnlineSoftmax.run (zc z) v0 n).2.1 := by
  intro n
  induction n with
  | zero => intro _; exact ⟨rfl, rfl⟩
  | succ n ih =>
    intro hn
    obtain ⟨h1, h2⟩ := ih (Nat.le_of_succ_le hn)
    rw [chunks_succ, OnlineSoftmax.run_succ (zc z) v0 n hn]
    refine ⟨?_, ?_⟩
    · simp only [chunkStep, OnlineSoftmax.step, h1, sup_eq_fold]
    · simp only [chunkStep, OnlineSoftmax.step, h1, h2, sup_eq_fold]

theorem label_word_iff (j : Fin 1280) (k : Fin 25) (t : BitVec 32) :
    BitVec.ofNat 32 j.val + BitVec.ofNat 32 k.val * 1280#32 = t ↔ 1280 * k.val + j.val = t.toNat := by
  have hj := j.isLt
  have hk := k.isLt
  rw [← BitVec.toNat_inj]
  simp only [BitVec.toNat_add, BitVec.toNat_mul, BitVec.toNat_ofNat]
  omega

theorem chunks_lab (z : Fin 32000 → EReal) (t : BitVec 32) : ∀ (n : ℕ) (hn : n ≤ 25),
    (chunks z t n hn).2.2 = ∑ i ∈ OnlineSoftmax.upto 25 n, ∑ j : Fin 1280,
      (if 1280 * i.val + j.val = t.toNat then zc z i j else 0) := by
  intro n
  induction n with
  | zero => intro _; rw [OnlineSoftmax.upto_zero, Finset.sum_empty]; rfl
  | succ n ih =>
    intro hn
    rw [chunks_succ, OnlineSoftmax.upto_succ n hn, Finset.sum_insert (OnlineSoftmax.not_mem_upto n hn),
      ← ih (Nat.le_of_succ_le hn)]
    simp only [chunkStep]
    rw [add_comm]
    congr 1
    exact Finset.sum_congr rfl fun j _ => if_congr (label_word_iff j ⟨n, hn⟩ t) rfl rfl

theorem sum_chunks (f : Fin 32000 → EReal) :
    ∑ v : Fin 32000, f v = ∑ i : Fin 25, ∑ j : Fin 1280, f ⟨1280 * i.val + j.val, by omega⟩ := by
  have h := OnlineSoftmax.sum_flat (T := 25) (n := 1280) (fun v : Fin (25 * 1280) => f v)
  refine h.trans ?_
  refine Finset.sum_congr rfl fun i _ => Finset.sum_congr rfl fun j _ => ?_
  exact congrArg f (Fin.ext (by show j.val + 1280 * i.val = 1280 * i.val + j.val; omega))

theorem rowMax_eq (z : Fin 32000 → EReal) : rowMax z = OnlineSoftmax.pmax (zc z) 25 := by
  have hmem : ∀ i : Fin 25, i ∈ OnlineSoftmax.upto 25 25 := fun i => by
    rw [OnlineSoftmax.upto_self]; exact Finset.mem_univ i
  apply le_antisymm
  · refine Finset.sup_le fun v _ => ?_
    have hv := v.isLt
    have h := OnlineSoftmax.le_pmax (zc z) 25 (hmem ⟨v.val / 1280, by omega⟩) ⟨v.val % 1280, Nat.mod_lt _ (by omega)⟩
    have e : zc z ⟨v.val / 1280, by omega⟩ ⟨v.val % 1280, Nat.mod_lt _ (by omega)⟩ = z v :=
      congrArg z (Fin.ext (Nat.div_add_mod v.val 1280))
    rwa [e] at h
  · refine (Finset.fold_max_le _).mpr ⟨bot_le, fun i _ => (Finset.fold_max_le _).mpr ⟨bot_le, fun j _ => ?_⟩⟩
    exact Finset.le_sup (f := z) (Finset.mem_univ _)

theorem pmax_real (z : Fin 32000 → EReal) (hz : ∀ v, ∃ a : ℝ, z v = (a : EReal)) :
    ∃ q : ℝ, OnlineSoftmax.pmax (zc z) 25 = (q : EReal) := by
  have htop := OnlineSoftmax.pmax_ne_top (zc z) (zc_ne_top z hz) 25
  have hmem : (⟨0, by omega⟩ : Fin 25) ∈ OnlineSoftmax.upto 25 25 := by
    rw [OnlineSoftmax.upto_self]; exact Finset.mem_univ _
  have hle := OnlineSoftmax.le_pmax (zc z) 25 hmem ⟨0, by omega⟩
  have hbot : OnlineSoftmax.pmax (zc z) 25 ≠ ⊥ := by
    intro e
    rw [e] at hle
    exact zc_ne_bot z hz _ _ (le_bot_iff.mp hle)
  exact ⟨_, (EReal.coe_toReal htop hbot).symm⟩

theorem den_pos (z : Fin 32000 → EReal) (hz : ∀ v, ∃ a : ℝ, z v = (a : EReal)) :
    0 < OnlineSoftmax.den (zc z) 25 :=
  OnlineSoftmax.den_pos (zc z) (zc_ne_top z hz) ⟨⟨0, by omega⟩, ⟨0, by omega⟩, zc_ne_bot z hz _ _⟩

theorem rowSum_eq (z : Fin 32000 → EReal) (hz : ∀ v, ∃ a : ℝ, z v = (a : EReal)) :
    ∑ v : Fin 32000, Ideal.exp (z v - rowMax z) = ((OnlineSoftmax.den (zc z) 25 : ℝ) : EReal) := by
  have htop := OnlineSoftmax.pmax_ne_top (zc z) (zc_ne_top z hz) 25
  have hmem : ∀ i : Fin 25, i ∈ OnlineSoftmax.upto 25 25 := fun i => by
    rw [OnlineSoftmax.upto_self]; exact Finset.mem_univ i
  rw [rowMax_eq, sum_chunks, OnlineSoftmax.den, OnlineSoftmax.upto_self, OnlineSoftmax.coe_sum]
  refine Finset.sum_congr rfl fun i _ => ?_
  rw [OnlineSoftmax.coe_sum]
  exact Finset.sum_congr rfl fun j _ => OnlineSoftmax.exp_sub htop (OnlineSoftmax.le_pmax (zc z) 25 (hmem i) j)

theorem rowLse_eq (z : Fin 32000 → EReal) (hz : ∀ v, ∃ a : ℝ, z v = (a : EReal)) :
    rowLse z = ((Real.log (OnlineSoftmax.den (zc z) 25) : ℝ) : EReal) := by
  rw [rowLse, rowSum_eq z hz, Ideal.log_coe, if_neg (not_le.mpr (den_pos z hz))]

theorem lab_total (z : Fin 32000 → EReal) (t : BitVec 32) :
    ∑ i : Fin 25, ∑ j : Fin 1280, (if 1280 * i.val + j.val = t.toNat then zc z i j else 0)
      = if h : t.toNat < 32000 then z ⟨t.toNat, h⟩ else 0 := by
  have h := sum_chunks (fun v : Fin 32000 => if v.val = t.toNat then z v else 0)
  refine h.symm.trans ?_
  by_cases ht : t.toNat < 32000
  · rw [dif_pos ht, Finset.sum_eq_single (⟨t.toNat, ht⟩ : Fin 32000)]
    · exact if_pos rfl
    · intro v _ hv
      exact if_neg fun e => hv (Fin.ext e)
    · intro hn
      exact absurd (Finset.mem_univ _) hn
  · rw [dif_neg ht]
    refine Finset.sum_eq_zero fun v _ => if_neg fun e => ht ?_
    rw [← e]
    exact v.isLt

theorem streamed_eq (z : Fin 32000 → EReal) (hz : ∀ v, ∃ a : ℝ, z v = (a : EReal)) (t : BitVec 32) (ht : LabelOk t) :
    ((chunks z t 25 le_rfl).2.2 - ((chunks z t 25 le_rfl).1 + Ideal.log (chunks z t 25 le_rfl).2.1))
      * (if t = 4294967196#32 then 0 else 1) = tokLogp z t := by
  obtain ⟨hA1, hA2⟩ := chunks_fst z t 25 le_rfl
  have hrun := OnlineSoftmax.run_eq (zc z) v0 (zc_ne_top z hz) v0_real 25 le_rfl
  have hm : (chunks z t 25 le_rfl).1 = OnlineSoftmax.pmax (zc z) 25 := by rw [hA1, hrun]
  have hl : (chunks z t 25 le_rfl).2.1 = ((OnlineSoftmax.den (zc z) 25 : ℝ) : EReal) := by rw [hA2, hrun]
  rcases ht with h | h
  · have hne : t ≠ 4294967196#32 := by
      intro e
      rw [e] at h
      exact absurd h (by decide)
    obtain ⟨q, hq⟩ := pmax_real z hz
    obtain ⟨a, ha⟩ := hz ⟨t.toNat, h⟩
    rw [hm, hl, chunks_lab z t 25 le_rfl, OnlineSoftmax.upto_self, lab_total, if_neg hne, mul_one, dif_pos h,
      tokLogp, dif_pos h, rowMax_eq z, rowLse_eq z hz, hq, Ideal.log_coe, if_neg (not_le.mpr (den_pos z hz)), ha,
      ← EReal.coe_add, ← EReal.coe_sub, ← EReal.coe_sub, ← EReal.coe_sub]
    congr 1
    ring
  · rw [if_pos h, mul_zero, tokLogp, dif_neg (by rw [h]; decide)]

def refLsm (z : Fin 32000 → EReal) (v : Fin 32000) : EReal :=
  (z v - max ⊥ (rowMax z)) - Ideal.log (0 + ∑ v' : Fin 32000, Ideal.exp (z v' - max ⊥ (rowMax z)))

theorem refLsm_eq (z : Fin 32000 → EReal) (hz : ∀ v, ∃ a : ℝ, z v = (a : EReal)) (v : Fin 32000) :
    refLsm z v = (z v - rowMax z) - rowLse z := by
  rw [refLsm, rowLse, max_eq_right bot_le, zero_add]

theorem refLsm_real (z : Fin 32000 → EReal) (hz : ∀ v, ∃ a : ℝ, z v = (a : EReal)) (v : Fin 32000) :
    ∃ r : ℝ, refLsm z v = (r : EReal) := by
  obtain ⟨q, hq⟩ := pmax_real z hz
  obtain ⟨a, ha⟩ := hz v
  refine ⟨a - q - Real.log (OnlineSoftmax.den (zc z) 25), ?_⟩
  rw [refLsm_eq z hz, rowMax_eq z, rowLse_eq z hz, hq, ha, ← EReal.coe_sub, ← EReal.coe_sub]

def refIdx (t : BitVec 32) : BitVec 32 := if t.slt 0#32 then t + 32000#32 else t

theorem refIdx_of_lt (t : BitVec 32) (h : t.toNat < 32000) : refIdx t = t := by
  have : t.slt 0#32 = false := by
    simp only [BitVec.slt, BitVec.toInt_eq_toNat_cond]
    simp
    omega
  rw [refIdx, this]
  simp

theorem refIdx_ignore : refIdx 4294967196#32 = 31900#32 := by decide

theorem refIdx_inb (t : BitVec 32) (ht : LabelOk t) :
    (0#32).sle (refIdx t) = true ∧ (refIdx t).sle 31999#32 = true ∧ (refIdx t).toNat < 32000 := by
  rcases ht with h | h
  · rw [refIdx_of_lt t h]
    refine ⟨?_, ?_, h⟩
    · simp only [BitVec.sle, BitVec.toInt_eq_toNat_cond]
      simp
      omega
    · simp only [BitVec.sle, BitVec.toInt_eq_toNat_cond]
      simp
      omega
  · subst h
    rw [refIdx_ignore]
    decide

theorem ref_eq_of (z : Fin 32000 → EReal) (hz : ∀ v, ∃ a : ℝ, z v = (a : EReal)) (t : BitVec 32) (ht : LabelOk t)
    (tok : EReal) (h1 : ∀ h : t.toNat < 32000, tok = refLsm z ⟨t.toNat, h⟩)
    (h2 : t = 4294967196#32 → ∃ r : ℝ, tok = (r : EReal)) :
    tok * (if t = 4294967196#32 then 0 else 1) = tokLogp z t := by
  rcases ht with h | h
  · have hne : t ≠ 4294967196#32 := by
      intro e
      rw [e] at h
      exact absurd h (by decide)
    rw [if_neg hne, mul_one, h1 h, refLsm_eq z hz, tokLogp, dif_pos h]
  · rw [if_pos h, mul_zero, tokLogp, dif_neg (by rw [h]; decide)]

theorem ref_eq (z : Fin 32000 → EReal) (hz : ∀ v, ∃ a : ℝ, z v = (a : EReal)) (t : BitVec 32) (ht : LabelOk t) :
    (if (0#32).sle (refIdx t) = true ∧ (refIdx t).sle 31999#32 = true
      then refLsm z ⟨min (refIdx t).toNat 31999, by omega⟩ else ⊥)
      * (if t = 4294967196#32 then 0 else 1) = tokLogp z t := by
  obtain ⟨i1, i2, _⟩ := refIdx_inb t ht
  refine ref_eq_of z hz t ht _ (fun h => ?_) (fun _ => ?_)
  · rw [if_pos ⟨i1, i2⟩]
    refine congrArg (refLsm z) (Fin.ext ?_)
    show min (refIdx t).toNat 31999 = t.toNat
    rw [refIdx_of_lt t h]
    omega
  · rw [if_pos ⟨i1, i2⟩]
    exact refLsm_real z hz _

end Cert.Spec

end
-- ==== Proof.RefValue.lean ====
import proofs.«421999_j71975061946951_3_alg».proof.Proof.RefStages
import proofs.«421999_j71975061946951_3_alg».proof.Proof.Spec
import proofs.«421999_j71975061946951_3_alg».proof.Proof.Algebra
import Idealize.ShloMosaic.Lib.ValueIdx
import Idealize.ShloMosaic.PureOps.Ideal.Laws
import Idealize.ShloMosaic.Lib.Pipeline.Value

noncomputable section

namespace Cert.ReferenceIdeal.Hand

open Idealize.ShloMosaic Idealize.ShloMosaic.ValueIdx Cert.ReferenceIdeal Cert.ReferenceIdeal.Facts₀

theorem dot_lhsIdx (n : Fin 2) (s : Fin 512) (v : Fin 32000) (h : Fin 2048) :
    dot_S2x512x2048_S32000x2048_S2x512x32000_2_1_01_0_n_n.lhsIdx (ix3 n s v)
      ((contrEquiv1 dot_S2x512x2048_S32000x2048_S2x512x32000_2_1_01_0_n_n 2048 rfl rfl).symm h) = ix3 n s h := by
  funext a; refine Fin.ext ?_
  match a with
  | ⟨0, _⟩ => rfl
  | ⟨1, _⟩ => rfl
  | ⟨2, _⟩ => rfl

theorem dot_rhsIdx (n : Fin 2) (s : Fin 512) (v : Fin 32000) (h : Fin 2048) :
    dot_S2x512x2048_S32000x2048_S2x512x32000_2_1_01_0_n_n.rhsIdx (ix3 n s v)
      ((contrEquiv1 dot_S2x512x2048_S32000x2048_S2x512x32000_2_1_01_0_n_n 2048 rfl rfl).symm h) = ix2 v h := by
  funext a; refine Fin.ext ?_
  match a with
  | ⟨0, _⟩ => rfl
  | ⟨1, _⟩ => rfl

theorem logits_apply (x : Vec Ideal S2x512x2048 .f32) (w : Vec Ideal S32000x2048 .f32) (b : Vec Ideal S32000 .f32)
    (n : Fin 2) (s : Fin 512) (v : Fin 32000) :
    logits (F := Ideal) x w b (ix3 n s v)
      = Cert.Spec.logit (fun h => x (ix3 n s h)) (fun v h => w (ix2 v h)) (fun v => b (ix1 v)) v := by
  unfold logits Cert.Spec.logit
  rw [addf_apply]
  congr 1
  · simp only [Host.dotGeneral]
    rw [Ideal.dotGeneral_apply,
      ← Equiv.sum_comp (contrEquiv1 dot_S2x512x2048_S32000x2048_S2x512x32000_2_1_01_0_n_n 2048 rfl rfl).symm]
    exact Finset.sum_congr rfl fun h _ => by rw [dot_lhsIdx, dot_rhsIdx]
  · rw [broadcastInDim_apply (k := ix3 (0 : Fin 1) (0 : Fin 1) v)
        (hk := fun a => by match a with | ⟨0, _⟩ => rfl | ⟨1, _⟩ => rfl | ⟨2, _⟩ => rfl),
      broadcastInDim_apply (k := ix1 v) (hk := fun a => by match a with | ⟨0, _⟩ => rfl)]

theorem ofBits_neg_inf : Ideal.ofBits .f32 0xFF800000#32 = ⊥ := rfl

abbrev row (z : Vec Ideal S2x512x32000 .f32) (n : Fin 2) (s : Fin 512) : Fin 32000 → EReal := fun v => z (ix3 n s v)

theorem lift_vocab (h : S2x512x32000.Reduces [2] S2x512) (n : Fin 2) (s : Fin 512) (k : Fin (S2x512x32000.size 2)) :
    h.lift (ix2 n s) k = ix3 n s (⟨k.val, k.isLt⟩ : Fin 32000) := by
  funext c; apply Fin.ext
  match c with
  | ⟨0, _⟩ => rfl
  | ⟨1, _⟩ => rfl
  | ⟨2, _⟩ => rfl

theorem reduceMax_apply (z : Vec Ideal S2x512x32000 .f32) (n : Fin 2) (s : Fin 512) :
    Host.reduce (FloatOps.maximumf (F := Ideal)) z (constant (F := Ideal) S_ .f32 0xFF800000#32)
      reducesTo_S2x512x32000_S2x512_d2 h_S_ (ix2 n s) = Cert.Spec.rowMax (row z n s) := by
  have h : S2x512x32000.Reduces [2] S2x512 := by decide
  refine (Host.reduce_eq_fold_single (FloatOps.maximumf (F := Ideal) (φ := .f32)) z _ reducesTo_S2x512x32000_S2x512_d2 h h_S_ _).trans ?_
  have hf : (z ∘ h.lift (ix2 n s)) = row z n s := funext fun k => congrArg z (lift_vocab h n s k)
  unfold Cert.Spec.rowMax
  rw [Finset.sup_def]
  exact congrArg (fun f => Finset.fold max (⊥ : EReal) f (Finset.univ : Finset (Fin 32000))) hf

theorem lsmMax_apply (z : Vec Ideal S2x512x32000 .f32) (n : Fin 2) (s : Fin 512) :
    lsmMax (F := Ideal) z (ix2 n s) = max ⊥ (Cert.Spec.rowMax (row z n s)) := by
  unfold lsmMax
  rw [maximumf_apply, reduceMax_apply,
    broadcastInDim_apply (k := ix0) (hk := fun a => a.elim0), constant_apply, ofBits_neg_inf]

theorem hostExp_apply {sh : Shape} (x : FVec Ideal sh .f32) (i : sh.Idx) : Host.exp (F := Ideal) x i = Ideal.exp (x i) := rfl
theorem hostLog_apply {sh : Shape} (x : FVec Ideal sh .f32) (i : sh.Idx) : Host.log (F := Ideal) x i = Ideal.log (x i) := rfl

theorem lsmShift_apply (z : Vec Ideal S2x512x32000 .f32) (n : Fin 2) (s : Fin 512) (v : Fin 32000) :
    lsmShift (F := Ideal) z (ix3 n s v) = z (ix3 n s v) - max ⊥ (Cert.Spec.rowMax (row z n s)) := by
  unfold lsmShift
  rw [subf_apply,
    broadcastInDim_apply (k := ix3 n s (0 : Fin 1))
      (hk := fun a => by match a with | ⟨0, _⟩ => rfl | ⟨1, _⟩ => rfl | ⟨2, _⟩ => rfl),
    broadcastInDim_apply (k := ix2 n s) (hk := fun a => by match a with | ⟨0, _⟩ => rfl | ⟨1, _⟩ => rfl),
    lsmMax_apply]

theorem lsmDen_apply (z : Vec Ideal S2x512x32000 .f32) (n : Fin 2) (s : Fin 512) :
    lsmDen (F := Ideal) z (ix2 n s)
      = 0 + ∑ v : Fin 32000, Ideal.exp (z (ix3 n s v) - max ⊥ (Cert.Spec.rowMax (row z n s))) := by
  have h : S2x512x32000.Reduces [2] S2x512 := by decide
  unfold lsmDen
  refine (Ideal.hostReduceAdd_single reducesTo_S2x512x32000_S2x512_d2 h _ _ _).trans ?_
  rw [constant_apply, Ideal.ofBits_zero_f32]
  refine congrArg (fun y : EReal => 0 + y) (Finset.sum_congr rfl fun k _ => ?_)
  rw [lift_vocab, hostExp_apply, lsmShift_apply]
  rfl

theorem logSoftmax_apply (z : Vec Ideal S2x512x32000 .f32) (n : Fin 2) (s : Fin 512) (v : Fin 32000) :
    logSoftmax (F := Ideal) z (ix3 n s v) = Cert.Spec.refLsm (row z n s) v := by
  unfold logSoftmax Cert.Spec.refLsm
  rw [subf_apply, lsmShift_apply,
    broadcastInDim_apply (k := ix3 n s (0 : Fin 1))
      (hk := fun a => by match a with | ⟨0, _⟩ => rfl | ⟨1, _⟩ => rfl | ⟨2, _⟩ => rfl),
    hostLog_apply,
    broadcastInDim_apply (k := ix2 n s) (hk := fun a => by match a with | ⟨0, _⟩ => rfl | ⟨1, _⟩ => rfl),
    lsmDen_apply]

theorem gather_siIdx (n : Fin 2) (s : Fin 512) (c : Fin gather_S2x512x32000_S2x512x1x1_S2x512x1_n_2_01_01_2_3_111.startIndexMap.length) :
    gather_S2x512x32000_S2x512x1x1_S2x512x1_n_2_01_01_2_3_111.siIdx (ix3 n s (0 : Fin 1)) c
      = ix4 n s (0 : Fin 1) (0 : Fin 1) := by
  funext b; refine Fin.ext ?_
  match b with
  | ⟨0, _⟩ => rfl
  | ⟨1, _⟩ => rfl
  | ⟨2, _⟩ => rfl
  | ⟨3, _⟩ => exact Nat.lt_one_iff.mp c.isLt

theorem gather_apply {α : Type} (z : S2x512x32000.Idx → α) (idx : IVec S2x512x1x1 32) (n : Fin 2) (s : Fin 512) :
    Host.gather gather_S2x512x32000_S2x512x1x1_S2x512x1_n_2_01_01_2_3_111 z idx (ix3 n s (0 : Fin 1))
      = z (ix3 n s (⟨min (idx (ix4 n s (0 : Fin 1) (0 : Fin 1))).toInt.toNat 31999, by omega⟩ : Fin 32000)) := by
  unfold Host.gather
  refine congrArg z (funext fun a => Fin.ext ?_)
  match a with
  | ⟨0, _⟩ =>
    show gather_S2x512x32000_S2x512x1x1_S2x512x1_n_2_01_01_2_3_111.start (ix3 n s (0 : Fin 1)) idx 0
      + gather_S2x512x32000_S2x512x1x1_S2x512x1_n_2_01_01_2_3_111.batchCoord (ix3 n s (0 : Fin 1)) 0
      + gather_S2x512x32000_S2x512x1x1_S2x512x1_n_2_01_01_2_3_111.offCoord (ix3 n s (0 : Fin 1)) 0 = n.val
    rw [GatherDims.start_batching _ _ _ _ (by decide),
      GatherDims.offCoord_eq_zero _ _ _ (fun h => ((GatherDims.mem_sKept _ _).mp h).2 (by decide))]
    simp only [Nat.zero_add, Nat.add_zero]
    rfl
  | ⟨1, _⟩ =>
    show gather_S2x512x32000_S2x512x1x1_S2x512x1_n_2_01_01_2_3_111.start (ix3 n s (0 : Fin 1)) idx 1
      + gather_S2x512x32000_S2x512x1x1_S2x512x1_n_2_01_01_2_3_111.batchCoord (ix3 n s (0 : Fin 1)) 1
      + gather_S2x512x32000_S2x512x1x1_S2x512x1_n_2_01_01_2_3_111.offCoord (ix3 n s (0 : Fin 1)) 1 = s.val
    rw [GatherDims.start_batching _ _ _ _ (by decide),
      GatherDims.offCoord_eq_zero _ _ _ (fun h => ((GatherDims.mem_sKept _ _).mp h).2 (by decide))]
    simp only [Nat.zero_add, Nat.add_zero]
    rfl
  | ⟨2, _⟩ =>
    show gather_S2x512x32000_S2x512x1x1_S2x512x1_n_2_01_01_2_3_111.start (ix3 n s (0 : Fin 1)) idx 2
      + gather_S2x512x32000_S2x512x1x1_S2x512x1_n_2_01_01_2_3_111.batchCoord (ix3 n s (0 : Fin 1)) 2
      + gather_S2x512x32000_S2x512x1x1_S2x512x1_n_2_01_01_2_3_111.offCoord (ix3 n s (0 : Fin 1)) 2 = _
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (2 : Fin S2x512x32000.rank) ∈ gather_S2x512x32000_S2x512x1x1_S2x512x1_n_2_01_01_2_3_111.startIndexMap by decide),
      gather_siIdx]
    rfl

theorem select_ofBool {α : Type} (c : Bool) (a b : α) : Scalar.select (BitVec.ofBool c) a b = if c then a else b := by
  cases c
  · exact select_zero a b
  · exact select_one a b

theorem takeIdx_apply (t3 : Vec Ideal S2x512x1 .i32) (n : Fin 2) (s : Fin 512) :
    takeIdx (F := Ideal) t3 (ix4 n s (0 : Fin 1) (0 : Fin 1)) = Cert.Spec.refIdx (t3 (ix3 n s (0 : Fin 1))) := by
  unfold takeIdx
  rw [shapeCast_apply (k := ix3 n s (0 : Fin 1)) (hk := by
    rw [Shape.rowMajor_val_three, Shape.rowMajor_val_four]
    show (n.val * 512 + s.val) * 1 + 0 = ((n.val * 512 + s.val) * 1 + 0) * 1 + 0
    omega)]
  rw [select_apply]
  exact select_ofBool _ _ _

theorem lift_unit (h : S2x512x1x1.Reduces [3] S2x512x1) (n : Fin 2) (s : Fin 512) (k : Fin (S2x512x1x1.size 3)) :
    h.lift (ix3 n s (0 : Fin 1)) k = ix4 n s (0 : Fin 1) (0 : Fin 1) := by
  funext c; apply Fin.ext
  match c with
  | ⟨0, _⟩ => rfl
  | ⟨1, _⟩ => rfl
  | ⟨2, _⟩ => rfl
  | ⟨3, _⟩ => exact Nat.lt_one_iff.mp k.isLt

theorem fold_fin_one {β : Type} (op : β → β → β) [Std.Commutative op] [Std.Associative op] (b : β) (f : Fin 1 → β) :
    Finset.fold op b f (Finset.univ : Finset (Fin 1)) = op (f 0) b := by
  rw [show (Finset.univ : Finset (Fin 1)) = {0} from rfl, Finset.fold_singleton]

theorem takeOk_apply (t3 : Vec Ideal S2x512x1 .i32) (n : Fin 2) (s : Fin 512)
    (h0 : (0#32).sle (Cert.Spec.refIdx (t3 (ix3 n s (0 : Fin 1)))) = true)
    (h1 : (Cert.Spec.refIdx (t3 (ix3 n s (0 : Fin 1)))).sle 31999#32 = true) :
    takeOk (F := Ideal) t3 (ix3 n s (0 : Fin 1)) = 1#1 := by
  have h : S2x512x1x1.Reduces [3] S2x512x1 := by decide
  unfold takeOk
  refine (Host.reduce_eq_fold_single IntOp.andi _ _ reducesTo_S2x512x1x1_S2x512x1_d3 h h_S_ _).trans ?_
  refine (fold_fin_one IntOp.andi _ _).trans ?_
  have hi : takeIdx (F := Ideal) t3 (h.lift (ix3 n s (0 : Fin 1)) (0 : Fin 1))
      = Cert.Spec.refIdx (t3 (ix3 n s (0 : Fin 1))) :=
    (congrArg (takeIdx (F := Ideal) t3) (lift_unit h n s (0 : Fin 1))).trans (takeIdx_apply t3 n s)
  show IntOp.andi (IntOp.andi
      (IntOp.cmpi .sge (takeIdx (F := Ideal) t3 (h.lift (ix3 n s (0 : Fin 1)) (0 : Fin 1))) 0#32)
      (IntOp.cmpi .sle (takeIdx (F := Ideal) t3 (h.lift (ix3 n s (0 : Fin 1)) (0 : Fin 1))) 31999#32)) 1#1 = 1#1
  rw [hi]
  show (BitVec.ofBool ((0#32).sle (Cert.Spec.refIdx (t3 (ix3 n s (0 : Fin 1)))))
      &&& BitVec.ofBool ((Cert.Spec.refIdx (t3 (ix3 n s (0 : Fin 1)))).sle 31999#32)) &&& 1#1 = 1#1
  rw [h0, h1]
  rfl

theorem clamp_of_lt (r : BitVec 32) (h : r.toNat < 32000) : min r.toInt.toNat 31999 = r.toNat := by
  have e : r.toInt = (r.toNat : Int) := by
    rw [BitVec.toInt_eq_toNat_cond]
    split <;> omega
  rw [e, Int.toNat_natCast]
  omega

theorem takeAlong_apply (lsm : Vec Ideal S2x512x32000 .f32) (t3 : Vec Ideal S2x512x1 .i32) (n : Fin 2) (s : Fin 512)
    (ht : Cert.Spec.LabelOk (t3 (ix3 n s (0 : Fin 1)))) :
    takeAlong (F := Ideal) lsm t3 (ix3 n s (0 : Fin 1))
      = lsm (ix3 n s (⟨(Cert.Spec.refIdx (t3 (ix3 n s (0 : Fin 1)))).toNat, (Cert.Spec.refIdx_inb _ ht).2.2⟩ : Fin 32000)) := by
  obtain ⟨h0, h1, h2⟩ := Cert.Spec.refIdx_inb _ ht
  unfold takeAlong
  rw [select_apply, takeOk_apply t3 n s h0 h1, select_one, gather_apply]
  refine congrArg lsm (congrArg (ix3 n s) (Fin.ext ?_))
  show min (takeIdx (F := Ideal) t3 (ix4 n s (0 : Fin 1) (0 : Fin 1))).toInt.toNat 31999 = _
  rw [takeIdx_apply, clamp_of_lt _ h2]

theorem labelMask_apply (t : Vec Ideal S2x512 .i32) (n : Fin 2) (s : Fin 512) :
    labelMask (F := Ideal) t (ix2 n s) = (if t (ix2 n s) = 4294967196#32 then 0 else 1 : EReal) := by
  show (((BitVec.ofBool (t (ix2 n s) != 4294967196#32)).toNat : ℝ) : EReal) = _
  by_cases h : t (ix2 n s) = 4294967196#32
  · rw [if_pos h, h]
    simp
  · rw [if_neg h]
    have e : (t (ix2 n s) != 4294967196#32) = true := by simpa using h
    rw [e]
    simp

theorem logit_real (xr : Fin 2048 → EReal) (W : Fin 32000 → Fin 2048 → EReal) (br : Fin 32000 → EReal)
    (hx : ∀ h, ∃ a : ℝ, xr h = (a : EReal)) (hW : ∀ v h, ∃ a : ℝ, W v h = (a : EReal))
    (hb : ∀ v, ∃ a : ℝ, br v = (a : EReal)) (v : Fin 32000) :
    ∃ a : ℝ, Cert.Spec.logit xr W br v = (a : EReal) := by
  choose xf hxf using hx
  choose Wf hWf using hW
  choose bf hbf using hb
  refine ⟨(∑ h, xf h * Wf v h) + bf v, ?_⟩
  unfold Cert.Spec.logit
  rw [hbf v, EReal.coe_add, OnlineSoftmax.coe_sum]
  refine congrArg (fun y : EReal => y + (bf v : EReal)) (Finset.sum_congr rfl fun h _ => ?_)
  rw [hxf h, hWf v h, EReal.coe_mul]

theorem tokLogps_apply (x : Vec Ideal S2x512x2048 .f32) (w : Vec Ideal S32000x2048 .f32) (b : Vec Ideal S32000 .f32)
    (t : Vec Ideal S2x512 .i32)
    (hx : ∀ i, ∃ a : ℝ, x i = (a : EReal)) (hw : ∀ i, ∃ a : ℝ, w i = (a : EReal)) (hb : ∀ i, ∃ a : ℝ, b i = (a : EReal))
    (ht : ∀ i, Cert.Spec.LabelOk (t i)) (n : Fin 2) (s : Fin 512) :
    tokLogps (F := Ideal) x w b t (ix2 n s)
      = Cert.Spec.tokLogp (Cert.Spec.logit (fun h => x (ix3 n s h)) (fun v h => w (ix2 v h)) (fun v => b (ix1 v)))
          (t (ix2 n s)) := by
  have hz := logit_real (fun h => x (ix3 n s h)) (fun v h => w (ix2 v h)) (fun v => b (ix1 v))
    (fun h => hx _) (fun v h => hw _) (fun v => hb _)
  have hrow : row (logits (F := Ideal) x w b) n s
      = Cert.Spec.logit (fun h => x (ix3 n s h)) (fun v h => w (ix2 v h)) (fun v => b (ix1 v)) :=
    funext fun v => logits_apply x w b n s v
  have ht3 : broadcastInDim S2x512x1 ![0, 1] bcast_S2x512_S2x512x1_0_1 t (ix3 n s (0 : Fin 1)) = t (ix2 n s) :=
    broadcastInDim_apply (k := ix2 n s) (hk := fun a => by match a with | ⟨0, _⟩ => rfl | ⟨1, _⟩ => rfl) ..
  have hok : Cert.Spec.LabelOk (broadcastInDim S2x512x1 ![0, 1] bcast_S2x512_S2x512x1_0_1 t (ix3 n s (0 : Fin 1))) := by
    rw [ht3]; exact ht _
  unfold tokLogps
  rw [mulf_apply, labelMask_apply,
    shapeCast_apply (k := ix3 n s (0 : Fin 1)) (hk := by
      rw [Shape.rowMajor_val_three, Shape.rowMajor_val_two]
      show (n.val * 512 + s.val) * 1 + 0 = n.val * 512 + s.val
      omega),
    takeAlong_apply _ _ n s hok, logSoftmax_apply, hrow]
  refine Cert.Spec.ref_eq_of _ hz _ (ht _) _ (fun hlt => ?_) (fun _ => Cert.Spec.refLsm_real _ hz _)
  refine congrArg (Cert.Spec.refLsm _) (Fin.ext ?_)
  show (Cert.Spec.refIdx (broadcastInDim S2x512x1 ![0, 1] bcast_S2x512_S2x512x1_0_1 t (ix3 n s (0 : Fin 1)))).toNat = _
  rw [ht3, Cert.Spec.refIdx_of_lt _ hlt]

theorem lift_seq (h : S2x512.Reduces [1] S2) (n : Fin 2) (k : Fin (S2x512.size 1)) :
    h.lift (ix1 n) k = ix2 n (⟨k.val, k.isLt⟩ : Fin 512) := by
  funext c; apply Fin.ext
  match c with
  | ⟨0, _⟩ => rfl
  | ⟨1, _⟩ => rfl

theorem seqLogp_apply (x : Vec Ideal S2x512x2048 .f32) (w : Vec Ideal S32000x2048 .f32) (b : Vec Ideal S32000 .f32)
    (t : Vec Ideal S2x512 .i32)
    (hx : ∀ i, ∃ a : ℝ, x i = (a : EReal)) (hw : ∀ i, ∃ a : ℝ, w i = (a : EReal)) (hb : ∀ i, ∃ a : ℝ, b i = (a : EReal))
    (ht : ∀ i, Cert.Spec.LabelOk (t i)) (n : Fin 2) :
    seqLogp (F := Ideal) x w b t (ix1 n)
      = 0 + ∑ s : Fin 512, Cert.Spec.tokLogp
          (Cert.Spec.logit (fun h => x (ix3 n s h)) (fun v h => w (ix2 v h)) (fun v => b (ix1 v))) (t (ix2 n s)) := by
  have h : S2x512.Reduces [1] S2 := by decide
  unfold seqLogp
  refine (Ideal.hostReduceAdd_single reducesTo_S2x512_S2_d1 h _ _ _).trans ?_
  rw [constant_apply, Ideal.ofBits_zero_f32]
  refine congrArg (fun y : EReal => 0 + y) (Finset.sum_congr rfl fun k _ => ?_)
  rw [lift_seq, tokLogps_apply x w b t hx hw hb ht]
  rfl

end Cert.ReferenceIdeal.Hand

end
-- ==== Proof.LibBlockOps.lean ====
import Idealize.ShloMosaic.Lib.Pipeline.Value
import Idealize.ShloMosaic.Lib.ValueIdx

noncomputable section

namespace Cert.LibBlockOps

open Idealize.ShloMosaic Idealize.ShloMosaic.ValueIdx

abbrev u1 : Fin 1 := ⟨0, Nat.one_pos⟩

theorem col_apply {α : Type} {R D : Nat} (x : (⟨2, ![R, 1]⟩ : Shape).Idx → α)
    (h2 : (⟨2, ![R, 1]⟩ : Shape).Broadcasts ⟨2, ![R, D]⟩) (p : Fin R) (q : Fin D) :
    broadcastTo ⟨2, ![R, D]⟩ x h2 (ix2 p q) = x (ix2 p u1) := by
  refine broadcastTo_apply x h2 (ix2 p q) (ix2 p u1) fun a => ?_
  match a with
  | ⟨0, _⟩ =>
    show p.val = if R = 1 then 0 else p.val
    split
    · have := p.isLt; omega
    · rfl
  | ⟨1, _⟩ =>
    show 0 = if (1 : Nat) = 1 then 0 else q.val
    rw [if_pos rfl]

theorem row_apply {α : Type} {R D : Nat} (x : (⟨2, ![1, D]⟩ : Shape).Idx → α)
    (h2 : (⟨2, ![1, D]⟩ : Shape).Broadcasts ⟨2, ![R, D]⟩) (p : Fin R) (q : Fin D) :
    broadcastTo ⟨2, ![R, D]⟩ x h2 (ix2 p q) = x (ix2 u1 q) := by
  refine broadcastTo_apply x h2 (ix2 p q) (ix2 u1 q) fun a => ?_
  match a with
  | ⟨0, _⟩ =>
    show 0 = if (1 : Nat) = 1 then 0 else p.val
    rw [if_pos rfl]
  | ⟨1, _⟩ =>
    show q.val = if D = 1 then 0 else q.val
    split
    · have := q.isLt; omega
    · rfl

end Cert.LibBlockOps

end
-- ==== Proof.LibRowReduce.lean ====
import Idealize.ShloMosaic.PureOps.Ideal
import Idealize.ShloMosaic.PureOps.Ideal.Laws
import Idealize.ShloMosaic.Lib.Pipeline.Value
import Idealize.ShloMosaic.Lib.ValueIdx

noncomputable section

namespace Cert.LibRowReduce

open Idealize.ShloMosaic Idealize.ShloMosaic.ValueIdx

theorem column_of_vector_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem lift_row {R D : Nat} (h : (⟨2, ![R, D]⟩ : Shape).Reduces [1] ⟨1, ![R]⟩) (p : Fin R) (k : Fin D) :
    h.lift (ix1 p) k = ix2 p k := by
  funext a; apply Fin.ext
  match a with
  | ⟨0, _⟩ => rfl
  | ⟨1, _⟩ => rfl

theorem row_sum_apply {R D : Nat} {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.add.neutral φ hφ)
    (p : Fin R) :
    multiReduction .add [1] ⟨1, ![R]⟩ src acc h hφ hacc (ix1 p) = ∑ k : Fin D, src (ix2 p k) := by
  refine (Ideal.multiReduction_add_single src acc h hφ hacc (ix1 p)).trans ?_
  show (∑ k : Fin D, src (h.lift (ix1 p) k)) = _
  exact Finset.sum_congr rfl fun k _ => congrArg src (lift_row h p k)

theorem row_max_apply {R D : Nat} {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.maximumf.neutral φ hφ)
    (p : Fin R) :
    multiReduction .maximumf [1] ⟨1, ![R]⟩ src acc h hφ hacc (ix1 p)
      = (Finset.univ : Finset (Fin D)).fold max (Ideal.ofBits φ acc) (fun k => src (ix2 p k)) := by
  refine (Ideal.multiReduction_maximumf_single src acc h hφ hacc (ix1 p)).trans ?_
  show (Finset.univ : Finset (Fin D)).fold max (Ideal.ofBits φ acc) (src ∘ h.lift (ix1 p)) = _
  rw [show src ∘ h.lift (ix1 p) = fun k => src (ix2 p k) from funext fun k => congrArg src (lift_row h p k)]
  rfl

end Cert.LibRowReduce

end
-- ==== Proof.PayIdeal.lean ====
import proofs.«421999_j71975061946951_3_alg».proof.Proof.Rec
import proofs.«421999_j71975061946951_3_alg».proof.Proof.Spec
import proofs.«421999_j71975061946951_3_alg».proof.Proof.Algebra
import proofs.«421999_j71975061946951_3_alg».proof.Proof.LibBlockOps
import proofs.«421999_j71975061946951_3_alg».proof.Proof.LibRowReduce
import Idealize.ShloMosaic.PureOps.Ideal.Laws
import Idealize.ShloMosaic.Lib.Pipeline.Value
import Idealize.ShloMosaic.Lib.ValueIdx

noncomputable section

open scoped BigOperators

namespace Cert.KernelIdeal.Hand

open Idealize.ShloMosaic Idealize.ShloMosaic.ValueIdx Cert.KernelIdeal Cert.KernelIdeal.Gen Cert.KernelIdeal.Rec

theorem ofBits_neg_inf_f32 : Ideal.ofBits .f32 0xFF800000#32 = (⊥ : EReal) := by simp [Ideal.ofBits, Ideal.ieee]

theorem lhs_dot_0 (j : S256x1280.Idx) (k : dot_S256x2048_S1280x2048_S256x1280_1_1_0_0_n_n.contr.Idx) :
    (dot_S256x2048_S1280x2048_S256x1280_1_1_0_0_n_n.lhsIdx j k 0).val = (j 0).val := by
  unfold DotDims.lhsIdx
  rw [dif_neg (show ¬(0 : Fin S256x2048.rank) ∈ dot_S256x2048_S1280x2048_S256x1280_1_1_0_0_n_n.lhsBatch by decide),
    dif_pos (show (0 : Fin S256x2048.rank) ∈ dot_S256x2048_S1280x2048_S256x1280_1_1_0_0_n_n.lhsNonContracting by decide)]
  rfl

theorem lhs_dot_1 (j : S256x1280.Idx) (k : dot_S256x2048_S1280x2048_S256x1280_1_1_0_0_n_n.contr.Idx) :
    (dot_S256x2048_S1280x2048_S256x1280_1_1_0_0_n_n.lhsIdx j k 1).val = (k ⟨0, by decide⟩).val :=
  dot_S256x2048_S1280x2048_S256x1280_1_1_0_0_n_n.lhsIdx_val_of_single (cl := 1) rfl j k

theorem rhs_dot_0 (j : S256x1280.Idx) (k : dot_S256x2048_S1280x2048_S256x1280_1_1_0_0_n_n.contr.Idx) :
    (dot_S256x2048_S1280x2048_S256x1280_1_1_0_0_n_n.rhsIdx j k 0).val = (j 1).val := by
  unfold DotDims.rhsIdx
  rw [dif_neg (show ¬(0 : Fin S1280x2048.rank) ∈ dot_S256x2048_S1280x2048_S256x1280_1_1_0_0_n_n.rhsBatch by decide),
    dif_pos (show (0 : Fin S1280x2048.rank) ∈ dot_S256x2048_S1280x2048_S256x1280_1_1_0_0_n_n.rhsNonContracting by decide)]
  rfl

theorem rhs_dot_1 (j : S256x1280.Idx) (k : dot_S256x2048_S1280x2048_S256x1280_1_1_0_0_n_n.contr.Idx) :
    (dot_S256x2048_S1280x2048_S256x1280_1_1_0_0_n_n.rhsIdx j k 1).val = (k ⟨0, by decide⟩).val :=
  dot_S256x2048_S1280x2048_S256x1280_1_1_0_0_n_n.rhsIdx_val_of_single (cr := 1) rfl j k

theorem matmul_zero_apply (A : FVec Ideal S256x2048 .bf16) (Bm : FVec Ideal S1280x2048 .bf16) (p : Fin 256) (q : Fin 1280) :
    matmul dot_S256x2048_S1280x2048_S256x1280_1_1_0_0_n_n none A Bm (constant (F := Ideal) S256x1280 .f32 0x00000000#32) (ix2 p q)
      = ∑ h : Fin 2048, A (ix2 p h) * Bm (ix2 q h) := by
  show FloatOps.matmul _ none A Bm _ (ix2 p q) = _
  rw [Ideal.matmul_constant_zero_apply,
    ← Equiv.sum_comp (contrEquiv1 dot_S256x2048_S1280x2048_S256x1280_1_1_0_0_n_n 2048 rfl rfl).symm]
  refine Finset.sum_congr rfl fun h _ => ?_
  have hk := contrEquiv1_symm_val dot_S256x2048_S1280x2048_S256x1280_1_1_0_0_n_n 2048 rfl rfl h
  have l2 : dot_S256x2048_S1280x2048_S256x1280_1_1_0_0_n_n.lhsIdx (ix2 p q)
      ((contrEquiv1 dot_S256x2048_S1280x2048_S256x1280_1_1_0_0_n_n 2048 rfl rfl).symm h) = ix2 p h := by
    funext ax; apply Fin.ext
    match ax with
    | ⟨0, _⟩ => exact lhs_dot_0 _ _
    | ⟨1, _⟩ => exact (lhs_dot_1 _ _).trans hk
  have r2 : dot_S256x2048_S1280x2048_S256x1280_1_1_0_0_n_n.rhsIdx (ix2 p q)
      ((contrEquiv1 dot_S256x2048_S1280x2048_S256x1280_1_1_0_0_n_n 2048 rfl rfl).symm h) = ix2 q h := by
    funext ax; apply Fin.ext
    match ax with
    | ⟨0, _⟩ => exact rhs_dot_0 _ _
    | ⟨1, _⟩ => exact (rhs_dot_1 _ _).trans hk
  rw [l2, r2]

theorem select_cmpi_eq {α : Type} (a b : BitVec 32) (x y : α) :
    Scalar.select (IntOp.cmpi .eq a b) x y = if a = b then x else y := by
  unfold Scalar.select IntOp.cmpi
  by_cases h : a = b
  · simp [h]
  · have hb : (a == b) = false := beq_eq_false_iff_ne.mpr h
    rw [if_neg h]
    show (if BitVec.ofBool (a == b) = 1#1 then x else y) = y
    rw [hb]
    rfl

theorem mask_cmpi_ne (a b : BitVec 32) :
    (FloatOps.sitofp (F := Ideal) .f32 ((IntOp.cmpi .ne a b).setWidth 32) : EReal) = if a = b then 0 else 1 := by
  show ((((IntOp.cmpi .ne a b).setWidth 32).toInt : ℝ) : EReal) = _
  by_cases h : a = b
  · have hb : IntOp.cmpi .ne a b = 0#1 := by unfold IntOp.cmpi; simp [h]
    rw [hb, if_pos h]
    simp
  · have hb : IntOp.cmpi .ne a b = 1#1 := by
      have hne : (a != b) = true := bne_iff_ne.mpr h
      show BitVec.ofBool (a != b) = 1#1
      rw [hne]
      rfl
    rw [hb, if_neg h]
    have : ((1#1 : BitVec 1).setWidth 32).toInt = 1 := by decide
    rw [this]
    simp

theorem pay7_apply (x0 : Vec Ideal S256x2048 .bf16) (x1 : Vec Ideal S1280x2048 .f32) (x2 : Vec Ideal S1x1280 .f32)
    (p : Fin 256) (q : Fin 1280) :
    k0_pay7 (F := Ideal) x0 x1 x2 (ix2 p q)
      = (∑ h : Fin 2048, x0 (ix2 p h) * x1 (ix2 q h)) + x2 (ix2 (0 : Fin 1) q) := by
  unfold k0_pay7
  rw [addf_apply, shapeCast_self, shapeCast_self, matmul_zero_apply, Cert.LibBlockOps.row_apply]
  rfl

theorem pay4_eq : k0_pay4 (F := Ideal) = fun _ => (⊥ : EReal) := by
  unfold k0_pay4
  exact (shapeCast_self _ _).trans (funext fun _ => ofBits_neg_inf_f32)

theorem pay5_eq : k0_pay5 (F := Ideal) = fun _ => (0 : EReal) := by
  unfold k0_pay5
  exact (shapeCast_self _ _).trans (funext fun _ => Ideal.ofBits_zero_f32)

theorem pay6_eq : k0_pay6 (F := Ideal) = fun _ => (0 : EReal) := by
  unfold k0_pay6
  exact (shapeCast_self _ _).trans (funext fun _ => Ideal.ofBits_zero_f32)

theorem pay2_eq (v : FVec Ideal S256x1 .f32) : k0_pay2 (F := Ideal) v = v := by
  unfold k0_pay2
  exact shapeCast_self _ _

theorem pay8_eq (x3 : Vec Ideal S256x1 .i32) : k0_pay8 (F := Ideal) x3 = x3 := by
  unfold k0_pay8
  exact shapeCast_self _ _

theorem pay10_apply (x0 : Vec Ideal S256x2048 .bf16) (x1 : Vec Ideal S1280x2048 .f32) (x2 : Vec Ideal S1x1280 .f32)
    (mOld : Vec Ideal S256x1 .f32) (p : Fin 256) (u : Fin 1) :
    k0_pay10 (F := Ideal) x0 x1 x2 mOld (ix2 p u)
      = max (mOld (ix2 p u)) (Finset.univ.sup fun q : Fin 1280 => k0_pay7 (F := Ideal) x0 x1 x2 (ix2 p q)) := by
  unfold k0_pay10
  refine (maximumf_apply _ _ _).trans (congrArg (max (mOld (ix2 p u))) ?_)
  refine (Cert.LibRowReduce.column_of_vector_apply _ _ p u).trans ?_
  refine (Cert.LibRowReduce.row_max_apply (k0_pay7 (F := Ideal) x0 x1 x2) 0xFF800000#32 reduces_S256x1280_S256 (.inl rfl) rfl p).trans ?_
  rw [ofBits_neg_inf_f32]
  rfl

theorem pay1_apply (z : FVec Ideal S256x1280 .f32) (mNew : FVec Ideal S256x1 .f32) (mOld lOld : Vec Ideal S256x1 .f32)
    (p : Fin 256) (u : Fin 1) :
    k0_pay1 (F := Ideal) z mNew mOld lOld (ix2 p u)
      = Ideal.exp (mOld (ix2 p u) - mNew (ix2 p u)) * lOld (ix2 p u)
        + ∑ q : Fin 1280, Ideal.exp (z (ix2 p q) - mNew (ix2 p u)) := by
  unfold k0_pay1
  refine (congrFun (shapeCast_self _ _) (ix2 p u)).trans ?_
  refine (addf_apply _ _ _).trans (congrArg (Ideal.exp (mOld (ix2 p u) - mNew (ix2 p u)) * lOld (ix2 p u) + ·) ?_)
  refine (Cert.LibRowReduce.column_of_vector_apply _ _ p u).trans ?_
  refine (Cert.LibRowReduce.row_sum_apply _ 0x00000000#32 reduces_S256x1280_S256 (.inl rfl) rfl p).trans ?_
  refine Finset.sum_congr rfl fun q _ => ?_
  show Ideal.exp (z (ix2 p q) - broadcastTo S256x1280 mNew broadcasts_S256x1_S256x1280 (ix2 p q)) = _
  rw [Cert.LibBlockOps.col_apply, Subsingleton.elim Cert.LibBlockOps.u1 u]

theorem pay9_apply (i : grid0.Coords) (x0 : Vec Ideal S256x2048 .bf16) (x1 : Vec Ideal S1280x2048 .f32)
    (x2 : Vec Ideal S1x1280 .f32) (x3 : Vec Ideal S256x1 .i32) (tOld : Vec Ideal S256x1 .f32) (p : Fin 256) (u : Fin 1) :
    k0_pay9 (F := Ideal) i x0 x1 x2 x3 tOld (ix2 p u)
      = tOld (ix2 p u)
        + ∑ q : Fin 1280, (if BitVec.ofNat 32 q.val + BitVec.ofNat 32 (i 1).val * 1280#32 = x3 (ix2 p u)
            then k0_pay7 (F := Ideal) x0 x1 x2 (ix2 p q) else 0) := by
  unfold k0_pay9
  refine (congrFun (shapeCast_self _ _) (ix2 p u)).trans ?_
  refine (addf_apply _ _ _).trans (congrArg (tOld (ix2 p u) + ·) ?_)
  refine (Cert.LibRowReduce.column_of_vector_apply _ _ p u).trans ?_
  refine (Cert.LibRowReduce.row_sum_apply _ 0x00000000#32 reduces_S256x1280_S256 (.inl rfl) rfl p).trans ?_
  refine Finset.sum_congr rfl fun q _ => ?_
  have h15 : (iota .tc S256x1280 32 [1] iota_S256x1280_d1_w32 : IVec S256x1280 32) (ix2 p q) = BitVec.ofNat 32 q.val :=
    iota_single_apply .tc S256x1280 32 1 iota_S256x1280_d1_w32 (ix2 p q)
  have h18 : broadcastTo S256x1280 (k0_pay8 (F := Ideal) x3) broadcasts_S256x1_S256x1280 (ix2 p q) = x3 (ix2 p u) := by
    rw [Cert.LibBlockOps.col_apply, pay8_eq, Subsingleton.elim Cert.LibBlockOps.u1 u]
  show Scalar.select (IntOp.cmpi .eq
      (IntOp.addi ((iota .tc S256x1280 32 [1] iota_S256x1280_d1_w32 : IVec S256x1280 32) (ix2 p q))
        (Scalar.muli (BitVec.ofNat 32 (i 1).val) 1280#32))
      (broadcastTo S256x1280 (k0_pay8 (F := Ideal) x3) broadcasts_S256x1_S256x1280 (ix2 p q)))
    (k0_pay7 (F := Ideal) x0 x1 x2 (ix2 p q)) (Ideal.ofBits .f32 0x00000000#32) = _
  rw [h15, h18, select_cmpi_eq, Ideal.ofBits_zero_f32]
  rfl

theorem pay3_apply (v17 : IVec S256x1 32) (m l t : Vec Ideal S256x1 .f32) (p : Fin 256) (u : Fin 1) :
    k0_pay3 (F := Ideal) v17 m l t (ix2 p u)
      = (t (ix2 p u) - (m (ix2 p u) + Ideal.log (l (ix2 p u))))
        * (if v17 (ix2 p u) = 4294967196#32 then (0 : EReal) else 1) := by
  unfold k0_pay3
  refine (mulf_apply _ _ _).trans
    (congrArg ((t (ix2 p u) - (m (ix2 p u) + Ideal.log (l (ix2 p u)))) * ·) ?_)
  exact mask_cmpi_ne (v17 (ix2 p u)) 4294967196#32

theorem sum_real {ι : Type*} (s : Finset ι) (f : ι → EReal) (hf : ∀ i, ∃ a : ℝ, f i = (a : EReal)) :
    ∃ a : ℝ, ∑ i ∈ s, f i = (a : EReal) := by
  classical
  induction s using Finset.induction_on with
  | empty => exact ⟨0, by simp⟩
  | insert a s ha ih =>
    obtain ⟨x, hx⟩ := hf a
    obtain ⟨y, hy⟩ := ih
    exact ⟨x + y, by rw [Finset.sum_insert ha, hx, hy, EReal.coe_add]⟩

theorem logit_real (x : Fin 2048 → EReal) (w : Fin 32000 → Fin 2048 → EReal) (b : Fin 32000 → EReal)
    (hx : ∀ h, ∃ a : ℝ, x h = (a : EReal)) (hw : ∀ v h, ∃ a : ℝ, w v h = (a : EReal))
    (hb : ∀ v, ∃ a : ℝ, b v = (a : EReal)) (v : Fin 32000) :
    ∃ a : ℝ, Cert.Spec.logit x w b v = (a : EReal) := by
  obtain ⟨s, hs⟩ := sum_real Finset.univ (fun h => x h * w v h) fun h => by
    obtain ⟨a, ha⟩ := hx h
    obtain ⟨c, hc⟩ := hw v h
    exact ⟨a * c, by rw [ha, hc, EReal.coe_mul]⟩
  obtain ⟨c, hc⟩ := hb v
  exact ⟨s + c, by unfold Cert.Spec.logit; rw [hs, hc, EReal.coe_add]⟩

section Rows

variable (X : Vec Ideal S2048x2048 .bf16) (W : Vec Ideal S32000x2048 .f32) (B : Vec Ideal S1x32000 .f32)
  (T : Vec Ideal S2048x1 .i32)

def zrow (r : Fin 2048) : Fin 32000 → EReal :=
  Cert.Spec.logit (fun h => X (ix2 r h)) (fun v h => W (ix2 v h)) (fun v => B (ix2 (0 : Fin 1) v))

theorem pay7_blk (mb : Fin 8) (k : Fin 25) (p : Fin 256) (q : Fin 1280) :
    k0_pay7 (F := Ideal) (xblk X mb) (wblk W k) (bblk B k) (ix2 p q)
      = Cert.Spec.zc (zrow X W B ⟨256 * mb.val + p.val, by omega⟩) k q := by
  rw [pay7_apply]
  rfl

theorem colsAfter_apply (mb : Fin 8) (p : Fin 256) (u : Fin 1) : ∀ (n : ℕ) (hn : n ≤ 25),
    ((colsAfter (F := Ideal) X W B T mb n hn).1 (ix2 p u), (colsAfter (F := Ideal) X W B T mb n hn).2.1 (ix2 p u),
      (colsAfter (F := Ideal) X W B T mb n hn).2.2 (ix2 p u))
      = Cert.Spec.chunks (zrow X W B ⟨256 * mb.val + p.val, by omega⟩)
          (T (ix2 (⟨256 * mb.val + p.val, by omega⟩ : Fin 2048) (0 : Fin 1))) n hn
  | 0, _ => by
    show ((k0_pay4 (F := Ideal)) (ix2 p u), (k0_pay5 (F := Ideal)) (ix2 p u), (k0_pay6 (F := Ideal)) (ix2 p u)) = (⊥, 0, 0)
    rw [pay4_eq, pay5_eq, pay6_eq]
  | n + 1, hn => by
    have ih := colsAfter_apply mb p u n (Nat.le_of_succ_le hn)
    rw [Cert.Spec.chunks_succ, ← ih]
    have h7 : (fun q : Fin 1280 => k0_pay7 (F := Ideal) (xblk X mb) (wblk W ⟨n, hn⟩) (bblk B ⟨n, hn⟩) (ix2 p q))
        = Cert.Spec.zc (zrow X W B ⟨256 * mb.val + p.val, by omega⟩) ⟨n, hn⟩ :=
      funext fun q => pay7_blk X W B mb ⟨n, hn⟩ p q
    have hm : k0_pay10 (F := Ideal) (xblk X mb) (wblk W ⟨n, hn⟩) (bblk B ⟨n, hn⟩)
          (colsAfter (F := Ideal) X W B T mb n (Nat.le_of_succ_le hn)).1 (ix2 p u)
        = max ((colsAfter (F := Ideal) X W B T mb n (Nat.le_of_succ_le hn)).1 (ix2 p u))
            (Finset.univ.sup (Cert.Spec.zc (zrow X W B ⟨256 * mb.val + p.val, by omega⟩) ⟨n, hn⟩)) := by
      rw [pay10_apply, h7]
    refine Prod.ext ?_ (Prod.ext ?_ ?_)
    · show k0_pay2 (F := Ideal) (k0_pay10 (F := Ideal) (xblk X mb) (wblk W ⟨n, hn⟩) (bblk B ⟨n, hn⟩)
          (colsAfter (F := Ideal) X W B T mb n (Nat.le_of_succ_le hn)).1) (ix2 p u) = _
      rw [pay2_eq, hm]
      rfl
    · refine (pay1_apply _ _ _ _ p u).trans ?_
      rw [hm]
      simp only [pay7_blk]
      rfl
    · refine (pay9_apply _ _ _ _ _ _ p u).trans ?_
      simp only [pay7_blk]
      rfl

end Rows

theorem outArr_apply (X : Vec Ideal S2048x2048 .bf16) (W : Vec Ideal S32000x2048 .f32) (B : Vec Ideal S1x32000 .f32)
    (T : Vec Ideal S2048x1 .i32) (hX : ∀ i, ∃ a : ℝ, X i = (a : EReal)) (hW : ∀ i, ∃ a : ℝ, W i = (a : EReal))
    (hB : ∀ i, ∃ a : ℝ, B i = (a : EReal)) (hT : ∀ i, Cert.Spec.LabelOk (T i)) (r : Fin 2048) :
    Rec.outArr (F := Ideal) X W B T (ix2 r 0)
      = Cert.Spec.tokLogp (Cert.Spec.logit (fun h => X (ix2 r h)) (fun v h => W (ix2 v h)) (fun v => B (ix2 0 v)))
          (T (ix2 r 0)) := by
  have hr : (⟨256 * (r.val / 256) + r.val % 256, by omega⟩ : Fin 2048) = r := Fin.ext (Nat.div_add_mod r.val 256)
  have hz : ∀ v, ∃ a : ℝ, zrow X W B r v = (a : EReal) :=
    logit_real _ _ _ (fun h => hX _) (fun v h => hW _) (fun v => hB _)
  have h := colsAfter_apply X W B T ⟨r.val / 256, by omega⟩ ⟨r.val % 256, Nat.mod_lt _ (by decide)⟩ ⟨0, by decide⟩ 25 le_rfl
  simp only [hr] at h
  have ht : tblk T ⟨r.val / 256, by omega⟩
      (ix2 (⟨r.val % 256, Nat.mod_lt _ (by decide)⟩ : Fin 256) (⟨0, by decide⟩ : Fin 1)) = T (ix2 r 0) :=
    congrArg (fun i : Fin 2048 => T (ix2 i (0 : Fin 1))) hr
  refine Eq.trans ?_ (Cert.Spec.streamed_eq (zrow X W B r) hz (T (ix2 r 0)) (hT _))
  rw [← h]
  show outCol (F := Ideal) (tblk T ⟨r.val / 256, by omega⟩)
      (colsAfter (F := Ideal) X W B T ⟨r.val / 256, by omega⟩ 25 le_rfl)
      (ix2 (⟨r.val % 256, Nat.mod_lt _ (by decide)⟩ : Fin 256) (⟨0, by decide⟩ : Fin 1)) = _
  refine (pay3_apply _ _ _ _ ⟨r.val % 256, Nat.mod_lt _ (by decide)⟩ ⟨0, by decide⟩).trans ?_
  rw [pay8_eq, ht]

end Cert.KernelIdeal.Hand

end
-- ==== Proof.PreFacts.lean ====
import proofs.«421999_j71975061946951_3_alg».proof.Defs
import proofs.«421999_j71975061946951_3_alg».proof.Proof.Spec
import Idealize.ShloMosaic.Lib.ReduceAll
import Idealize.ShloMosaic.Lib.ValueIdx

noncomputable section

namespace Cert.Pre.Hand

open Idealize.ShloMosaic Idealize.SL.Sem
open Cert.Pre_finite_inputs (S2x512x2048 S32000x2048 S32000 S2x512 S_)

instance : Subsingleton S_.Idx := ⟨fun a b => funext fun d => d.elim0⟩

variable [hPre_finite_inputs : Cert.Pre_finite_inputs.Facts]

def FinTest {F : FTy → Type} [FloatOps F] (x : F .f32) : Prop :=
  FloatOps.cmpf .olt (FloatOps.hostAbsf x) (FloatOps.ofBits .f32 0x7F800000#32 : F .f32) = 1#1

def LabTest (t : BitVec 32) : Prop :=
  IntOp.ori (IntOp.andi (IntOp.cmpi .sge t 0#32) (IntOp.cmpi .slt t 32000#32)) (IntOp.cmpi .eq t 4294967196#32) = 1#1

theorem fn_split {F : FTy → Type} [FloatOps F]
    (a0 a1 a2 a3 : FVec F S2x512x2048 .f32) (a4 : FVec F S32000x2048 .f32) (a5 : FVec F S32000 .f32)
    (a6 : FVec F S32000x2048 .f32) (a7 : FVec F S32000 .f32) (a8 a9 : IVec S2x512 32)
    (h : Cert.Pre_finite_inputs.fn (F := F) a0 a1 a2 a3 a4 a5 a6 a7 a8 a9 = fun _ => 1#1) :
    (∀ i, FinTest (a0 i)) ∧ (∀ i, FinTest (a1 i)) ∧ (∀ i, FinTest (a2 i)) ∧ (∀ i, FinTest (a3 i))
    ∧ (∀ i, FinTest (a4 i)) ∧ (∀ i, FinTest (a5 i)) ∧ (∀ i, FinTest (a6 i)) ∧ (∀ i, FinTest (a7 i))
    ∧ (∀ i, LabTest (a8 i)) ∧ (∀ i, LabTest (a9 i)) := by
  have e := congrFun h ValueIdx.ix0
  dsimp only [Cert.Pre_finite_inputs.fn, Cert.Pre_finite_inputs.fn_part1, Cert.Pre_finite_inputs.fn_part2,
    Cert.Pre_finite_inputs.fn_part3, andi] at e
  simp only [IntOp.andi_eq_one] at e
  obtain ⟨⟨⟨⟨⟨⟨⟨⟨⟨e0, e1⟩, e2⟩, e3⟩, e4⟩, e5⟩, e6⟩, e7⟩, e8⟩, e9⟩ := e
  exact ⟨fun i => Host.reduce_andi_all _ _ _ _ _ e0 i, fun i => Host.reduce_andi_all _ _ _ _ _ e1 i,
    fun i => Host.reduce_andi_all _ _ _ _ _ e2 i, fun i => Host.reduce_andi_all _ _ _ _ _ e3 i,
    fun i => Host.reduce_andi_all _ _ _ _ _ e4 i, fun i => Host.reduce_andi_all _ _ _ _ _ e5 i,
    fun i => Host.reduce_andi_all _ _ _ _ _ e6 i, fun i => Host.reduce_andi_all _ _ _ _ _ e7 i,
    fun i => Host.reduce_andi_all _ _ _ _ _ e8 i, fun i => Host.reduce_andi_all _ _ _ _ _ e9 i⟩

theorem real_of_finTest (x : EReal) (h : FinTest (F := Ideal) x) : ∃ a : ℝ, x = (a : EReal) := by
  have htop : (Ideal.ofBits .f32 0x7F800000#32 : EReal) = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hc
    have h2 : BitVec.ofBool (decide (max x (-x) < ⊤)) = 1#1 := h'
    rw [decide_eq_false hc] at h2
    exact absurd h2 (by decide)
  induction x using EReal.rec with
  | bot => exact absurd hlt (by simp)
  | coe a => exact ⟨a, rfl⟩
  | top => exact absurd hlt (by simp)

theorem labelOk_of_labTest (t : BitVec 32) (h : LabTest t) : Cert.Spec.LabelOk t := by
  unfold LabTest at h
  rw [IntOp.ori_eq_one, IntOp.andi_eq_one, IntOp.cmpi_sge, IntOp.cmpi_slt, IntOp.cmpi_eq] at h
  rcases h with ⟨h0, h1⟩ | h
  · left
    have e0 : (0#32 : BitVec 32).toInt = 0 := by decide
    have e1 : (32000#32 : BitVec 32).toInt = 32000 := by decide
    rw [e0] at h0
    rw [e1] at h1
    have hlt := t.isLt
    rw [BitVec.toInt_eq_toNat_cond] at h0 h1
    split at h0 <;> omega
  · right; exact h

theorem fn_labels {F : FTy → Type} [FloatOps F]
    (a0 a1 a2 a3 : FVec F S2x512x2048 .f32) (a4 : FVec F S32000x2048 .f32) (a5 : FVec F S32000 .f32)
    (a6 : FVec F S32000x2048 .f32) (a7 : FVec F S32000 .f32) (a8 a9 : IVec S2x512 32)
    (h : Cert.Pre_finite_inputs.fn (F := F) a0 a1 a2 a3 a4 a5 a6 a7 a8 a9 = fun _ => 1#1) :
    (∀ i, Cert.Spec.LabelOk (a8 i)) ∧ (∀ i, Cert.Spec.LabelOk (a9 i)) := by
  obtain ⟨-, -, -, -, -, -, -, -, h8, h9⟩ := fn_split a0 a1 a2 a3 a4 a5 a6 a7 a8 a9 h
  exact ⟨fun i => labelOk_of_labTest _ (h8 i), fun i => labelOk_of_labTest _ (h9 i)⟩

variable (m : (ℓ : Loc Cert.KernelIdeal.nD Cert.KernelIdeal.τ Cert.KernelIdeal.sig) → Buf (Elt Ideal) ℓ)

theorem split_mem (hpre : Cert.Pre_KernelIdeal m) (c : Dev Cert.KernelIdeal.nD) :
    (∀ i, FinTest (F := Ideal) (m ((c.tc : Thread Cert.KernelIdeal.nD Cert.KernelIdeal.τ).loc Cert.KernelIdeal.main_arg0) i)) ∧ (∀ i, FinTest (F := Ideal) (m ((c.tc : Thread Cert.KernelIdeal.nD Cert.KernelIdeal.τ).loc Cert.KernelIdeal.main_arg1) i))
    ∧ (∀ i, FinTest (F := Ideal) (m ((c.tc : Thread Cert.KernelIdeal.nD Cert.KernelIdeal.τ).loc Cert.KernelIdeal.main_arg2) i)) ∧ (∀ i, FinTest (F := Ideal) (m ((c.tc : Thread Cert.KernelIdeal.nD Cert.KernelIdeal.τ).loc Cert.KernelIdeal.main_arg3) i))
    ∧ (∀ i, FinTest (F := Ideal) (m ((c.tc : Thread Cert.KernelIdeal.nD Cert.KernelIdeal.τ).loc Cert.KernelIdeal.main_arg4) i)) ∧ (∀ i, FinTest (F := Ideal) (m ((c.tc : Thread Cert.KernelIdeal.nD Cert.KernelIdeal.τ).loc Cert.KernelIdeal.main_arg5) i))
    ∧ (∀ i, FinTest (F := Ideal) (m ((c.tc : Thread Cert.KernelIdeal.nD Cert.KernelIdeal.τ).loc Cert.KernelIdeal.main_arg6) i)) ∧ (∀ i, FinTest (F := Ideal) (m ((c.tc : Thread Cert.KernelIdeal.nD Cert.KernelIdeal.τ).loc Cert.KernelIdeal.main_arg7) i))
    ∧ (∀ i, LabTest (m ((c.tc : Thread Cert.KernelIdeal.nD Cert.KernelIdeal.τ).loc Cert.KernelIdeal.main_arg8) i)) ∧ (∀ i, LabTest (m ((c.tc : Thread Cert.KernelIdeal.nD Cert.KernelIdeal.τ).loc Cert.KernelIdeal.main_arg9) i)) :=
  fn_split (F := Ideal) _ _ _ _ _ _ _ _ _ _ (hpre c)

theorem finite_arg0 (hpre : Cert.Pre_KernelIdeal m) (c : Dev Cert.KernelIdeal.nD) :
    ∀ i : Cert.KernelIdeal.S2x512x2048.Idx, ∃ a : ℝ, m ((c.tc : Thread Cert.KernelIdeal.nD Cert.KernelIdeal.τ).loc Cert.KernelIdeal.main_arg0) i = (a : EReal) :=
  fun i => real_of_finTest _ ((split_mem m hpre c).1 i)

theorem finite_arg1 (hpre : Cert.Pre_KernelIdeal m) (c : Dev Cert.KernelIdeal.nD) :
    ∀ i : Cert.KernelIdeal.S2x512x2048.Idx, ∃ a : ℝ, m ((c.tc : Thread Cert.KernelIdeal.nD Cert.KernelIdeal.τ).loc Cert.KernelIdeal.main_arg1) i = (a : EReal) :=
  fun i => real_of_finTest _ ((split_mem m hpre c).2.1 i)

theorem finite_arg2 (hpre : Cert.Pre_KernelIdeal m) (c : Dev Cert.KernelIdeal.nD) :
    ∀ i : Cert.KernelIdeal.S2x512x2048.Idx, ∃ a : ℝ, m ((c.tc : Thread Cert.KernelIdeal.nD Cert.KernelIdeal.τ).loc Cert.KernelIdeal.main_arg2) i = (a : EReal) :=
  fun i => real_of_finTest _ ((split_mem m hpre c).2.2.1 i)

theorem finite_arg3 (hpre : Cert.Pre_KernelIdeal m) (c : Dev Cert.KernelIdeal.nD) :
    ∀ i : Cert.KernelIdeal.S2x512x2048.Idx, ∃ a : ℝ, m ((c.tc : Thread Cert.KernelIdeal.nD Cert.KernelIdeal.τ).loc Cert.KernelIdeal.main_arg3) i = (a : EReal) :=
  fun i => real_of_finTest _ ((split_mem m hpre c).2.2.2.1 i)

theorem finite_arg4 (hpre : Cert.Pre_KernelIdeal m) (c : Dev Cert.KernelIdeal.nD) :
    ∀ i : Cert.KernelIdeal.S32000x2048.Idx, ∃ a : ℝ, m ((c.tc : Thread Cert.KernelIdeal.nD Cert.KernelIdeal.τ).loc Cert.KernelIdeal.main_arg4) i = (a : EReal) :=
  fun i => real_of_finTest _ ((split_mem m hpre c).2.2.2.2.1 i)

theorem finite_arg5 (hpre : Cert.Pre_KernelIdeal m) (c : Dev Cert.KernelIdeal.nD) :
    ∀ i : Cert.KernelIdeal.S32000.Idx, ∃ a : ℝ, m ((c.tc : Thread Cert.KernelIdeal.nD Cert.KernelIdeal.τ).loc Cert.KernelIdeal.main_arg5) i = (a : EReal) :=
  fun i => real_of_finTest _ ((split_mem m hpre c).2.2.2.2.2.1 i)

theorem finite_arg6 (hpre : Cert.Pre_KernelIdeal m) (c : Dev Cert.KernelIdeal.nD) :
    ∀ i : Cert.KernelIdeal.S32000x2048.Idx, ∃ a : ℝ, m ((c.tc : Thread Cert.KernelIdeal.nD Cert.KernelIdeal.τ).loc Cert.KernelIdeal.main_arg6) i = (a : EReal) :=
  fun i => real_of_finTest _ ((split_mem m hpre c).2.2.2.2.2.2.1 i)

theorem finite_arg7 (hpre : Cert.Pre_KernelIdeal m) (c : Dev Cert.KernelIdeal.nD) :
    ∀ i : Cert.KernelIdeal.S32000.Idx, ∃ a : ℝ, m ((c.tc : Thread Cert.KernelIdeal.nD Cert.KernelIdeal.τ).loc Cert.KernelIdeal.main_arg7) i = (a : EReal) :=
  fun i => real_of_finTest _ ((split_mem m hpre c).2.2.2.2.2.2.2.1 i)

theorem label_arg8 (hpre : Cert.Pre_KernelIdeal m) (c : Dev Cert.KernelIdeal.nD) :
    ∀ i : Cert.KernelIdeal.S2x512.Idx, Cert.Spec.LabelOk (m ((c.tc : Thread Cert.KernelIdeal.nD Cert.KernelIdeal.τ).loc Cert.KernelIdeal.main_arg8) i) :=
  fun i => labelOk_of_labTest _ ((split_mem m hpre c).2.2.2.2.2.2.2.2.1 i)

theorem label_arg9 (hpre : Cert.Pre_KernelIdeal m) (c : Dev Cert.KernelIdeal.nD) :
    ∀ i : Cert.KernelIdeal.S2x512.Idx, Cert.Spec.LabelOk (m ((c.tc : Thread Cert.KernelIdeal.nD Cert.KernelIdeal.τ).loc Cert.KernelIdeal.main_arg9) i) :=
  fun i => labelOk_of_labTest _ ((split_mem m hpre c).2.2.2.2.2.2.2.2.2 i)

end Cert.Pre.Hand

end
-- ==== Proof.KValue.lean ====
import proofs.«421999_j71975061946951_3_alg».proof.Proof.KHost
import proofs.«421999_j71975061946951_3_alg».proof.Proof.Launch
import proofs.«421999_j71975061946951_3_alg».proof.Proof.R0Value
import proofs.«421999_j71975061946951_3_alg».proof.Proof.R1Value
import proofs.«421999_j71975061946951_3_alg».proof.Proof.RefValue
import proofs.«421999_j71975061946951_3_alg».proof.Proof.PayIdeal
import proofs.«421999_j71975061946951_3_alg».proof.Proof.PreFacts
import Idealize.ShloMosaic.Lib.ValueIdx

set_option maxRecDepth 1028

noncomputable section

open scoped BigOperators

namespace Cert.KernelIdeal.Hand

open Idealize.ShloMosaic Idealize.ShloMosaic.TcCoe Idealize.ShloMosaic.ValueIdx
open Idealize.SL.Sem
open Cert.KernelIdeal

section Core

variable (X : Vec Ideal S2048x2048 .bf16) (W : Vec Ideal S32000x2048 .f32) (B : Vec Ideal S1x32000 .f32)
  (T : Vec Ideal S2048x1 .i32)
  (x0 x1 : Vec Ideal S2x512x2048 .f32) (w : Vec Ideal S32000x2048 .f32) (b : Vec Ideal S32000 .f32)
  (t0 t1 : Vec Ideal S2x512 .i32)
  (hXlo : ∀ (r : Fin 2048) (h : Fin 2048) (hr : r.val < 1024),
    X (ix2 r h) = x0 (ix3 (⟨r.val / 512, by omega⟩ : Fin 2) (⟨r.val % 512, by omega⟩ : Fin 512) h))
  (hXhi : ∀ (r : Fin 2048) (h : Fin 2048) (hr : 1024 ≤ r.val),
    X (ix2 r h) = x1 (ix3 (⟨(r.val - 1024) / 512, by omega⟩ : Fin 2) (⟨(r.val - 1024) % 512, by omega⟩ : Fin 512) h))
  (hTlo : ∀ (r : Fin 2048) (z : Fin 1) (hr : r.val < 1024),
    T (ix2 r z) = t0 (ix2 (⟨r.val / 512, by omega⟩ : Fin 2) (⟨r.val % 512, by omega⟩ : Fin 512)))
  (hThi : ∀ (r : Fin 2048) (z : Fin 1) (hr : 1024 ≤ r.val),
    T (ix2 r z) = t1 (ix2 (⟨(r.val - 1024) / 512, by omega⟩ : Fin 2) (⟨(r.val - 1024) % 512, by omega⟩ : Fin 512)))
  (hW : W = w) (hB : ∀ (u : Fin 1) (v : Fin 32000), B (ix2 u v) = b (ix1 v))
  (fx0 : ∀ i, ∃ a : ℝ, x0 i = (a : EReal)) (fx1 : ∀ i, ∃ a : ℝ, x1 i = (a : EReal))
  (fw : ∀ i, ∃ a : ℝ, w i = (a : EReal)) (fb : ∀ i, ∃ a : ℝ, b i = (a : EReal))
  (lt0 : ∀ i, Cert.Spec.LabelOk (t0 i)) (lt1 : ∀ i, Cert.Spec.LabelOk (t1 i))

include hXlo hXhi hTlo hThi hW hB fx0 fx1 fw fb lt0 lt1

theorem stackX_real : ∀ i, ∃ a : ℝ, X i = (a : EReal) := fun i => by
  obtain ⟨r, h, rfl⟩ : ∃ (r : Fin 2048) (h : Fin 2048), i = ix2 r h := ⟨i 0, i 1, eq_ix2 i⟩
  by_cases hr : r.val < 1024
  · rw [hXlo r h hr]; exact fx0 _
  · rw [hXhi r h (Nat.le_of_not_lt hr)]; exact fx1 _

theorem stackT_ok : ∀ i, Cert.Spec.LabelOk (T i) := fun i => by
  obtain ⟨r, z, rfl⟩ : ∃ (r : Fin 2048) (z : Fin 1), i = ix2 r z := ⟨i 0, i 1, eq_ix2 i⟩
  by_cases hr : r.val < 1024
  · rw [hTlo r z hr]; exact lt0 _
  · rw [hThi r z (Nat.le_of_not_lt hr)]; exact lt1 _

theorem rowB_real : ∀ i, ∃ a : ℝ, B i = (a : EReal) := fun i => by
  obtain ⟨u, v, rfl⟩ : ∃ (u : Fin 1) (v : Fin 32000), i = ix2 u v := ⟨i 0, i 1, eq_ix2 i⟩
  rw [hB u v]; exact fb _

theorem sum_lo (n : Fin 2) :
    (∑ s : Fin 512, Rec.outArr (F := Ideal) X W B T (ix2 (⟨512 * n.val + s.val, by omega⟩ : Fin 2048) (0 : Fin 1)))
      = Cert.ReferenceIdeal.Hand.seqLogp (F := Ideal) x0 w b t0 (ix1 n) := by
  have hX := stackX_real X W B T x0 x1 w b t0 t1 hXlo hXhi hTlo hThi hW hB fx0 fx1 fw fb lt0 lt1
  have hT := stackT_ok X W B T x0 x1 w b t0 t1 hXlo hXhi hTlo hThi hW hB fx0 fx1 fw fb lt0 lt1
  have hBr := rowB_real X W B T x0 x1 w b t0 t1 hXlo hXhi hTlo hThi hW hB fx0 fx1 fw fb lt0 lt1
  rw [Cert.ReferenceIdeal.Hand.seqLogp_apply x0 w b t0 fx0 fw fb lt0 n, zero_add]
  refine Finset.sum_congr rfl fun s _ => ?_
  have hn : (⟨(512 * n.val + s.val) / 512, by omega⟩ : Fin 2) = n := Fin.ext (by show _ / 512 = n.val; omega)
  have hs : (⟨(512 * n.val + s.val) % 512, by omega⟩ : Fin 512) = s := Fin.ext (by show _ % 512 = s.val; omega)
  have hr : (⟨512 * n.val + s.val, by omega⟩ : Fin 2048).val < 1024 := by show 512 * n.val + s.val < 1024; omega
  rw [outArr_apply X W B T hX (hW ▸ fw) hBr hT, hTlo _ _ hr]
  simp only [fun h => hXlo ⟨512 * n.val + s.val, by omega⟩ h hr, hB, hW, hn, hs]

theorem sum_hi (n : Fin 2) :
    (∑ s : Fin 512, Rec.outArr (F := Ideal) X W B T (ix2 (⟨1024 + 512 * n.val + s.val, by omega⟩ : Fin 2048) (0 : Fin 1)))
      = Cert.ReferenceIdeal.Hand.seqLogp (F := Ideal) x1 w b t1 (ix1 n) := by
  have hX := stackX_real X W B T x0 x1 w b t0 t1 hXlo hXhi hTlo hThi hW hB fx0 fx1 fw fb lt0 lt1
  have hT := stackT_ok X W B T x0 x1 w b t0 t1 hXlo hXhi hTlo hThi hW hB fx0 fx1 fw fb lt0 lt1
  have hBr := rowB_real X W B T x0 x1 w b t0 t1 hXlo hXhi hTlo hThi hW hB fx0 fx1 fw fb lt0 lt1
  rw [Cert.ReferenceIdeal.Hand.seqLogp_apply x1 w b t1 fx1 fw fb lt1 n, zero_add]
  refine Finset.sum_congr rfl fun s _ => ?_
  have hn : (⟨(1024 + 512 * n.val + s.val - 1024) / 512, by omega⟩ : Fin 2) = n := Fin.ext (by show _ / 512 = n.val; omega)
  have hs : (⟨(1024 + 512 * n.val + s.val - 1024) % 512, by omega⟩ : Fin 512) = s := Fin.ext (by show _ % 512 = s.val; omega)
  have hr : 1024 ≤ (⟨1024 + 512 * n.val + s.val, by omega⟩ : Fin 2048).val := by show 1024 ≤ 1024 + 512 * n.val + s.val; omega
  rw [outArr_apply X W B T hX (hW ▸ fw) hBr hT, hThi _ _ hr]
  simp only [fun h => hXhi ⟨1024 + 512 * n.val + s.val, by omega⟩ h hr, hB, hW, hn, hs]

end Core

section Final

variable [hPre_finite_inputs : Cert.Pre_finite_inputs.Facts]
variable (m : (ℓ : Loc nD τ sig) → Buf (Elt Ideal) ℓ) (hpre : Cert.Pre_KernelIdeal m) (c : Dev nD)

theorem colK0_eq : (outsK m 2 main_v8 c : Vec Ideal S2048x1 .f32)
    = Rec.outArr (F := Ideal) (Gen.V1 m c main_v3) (Gen.V1 m c main_arg4) (Gen.V1 m c main_v7) (Gen.V1 m c main_v6) := by
  rw [outsK_2]
  exact arr0_eq' (fun c b => Gen.V1 m c (Proc.devRef .tc b)) c

theorem colK1_eq : (outsK m 4 main_v25 c : Vec Ideal S2048x1 .f32)
    = Rec.outArr (F := Ideal) (Gen.V3 m (outsK m) c main_v20) (Gen.V3 m (outsK m) c main_arg6)
        (Gen.V3 m (outsK m) c main_v24) (Gen.V3 m (outsK m) c main_v23) := by
  rw [outsK_4]
  exact arr1_eq' (fun c b => Gen.V3 m (outsK m) c (Proc.devRef .tc b)) c

include hpre

theorem seq12_eq : Gen.V5 m (outsK m) c main_v12
    = Cert.ReferenceIdeal.Hand.seqLogp (F := Ideal) (m ((c : Thread nD τ).loc main_arg0)) (m ((c : Thread nD τ).loc main_arg4))
        (m ((c : Thread nD τ).loc main_arg5)) (m ((c : Thread nD τ).loc main_arg8)) := by
  funext j
  obtain ⟨n, rfl⟩ : ∃ n : Fin 2, j = ix1 n := ⟨j 0, eq_ix1 j⟩
  rw [v12_V5, sum_v12, colK0_eq]
  exact sum_lo _ _ _ _ _ (m ((c : Thread nD τ).loc main_arg1)) _ _ _ (m ((c : Thread nD τ).loc main_arg9))
    (xcat0_apply_lo m c) (xcat0_apply_hi m c) (tcat0_apply_lo m c) (tcat0_apply_hi m c) (w0_eq m c) (bias0_apply m c)
    (Cert.Pre.Hand.finite_arg0 m hpre c) (Cert.Pre.Hand.finite_arg1 m hpre c) (Cert.Pre.Hand.finite_arg4 m hpre c)
    (Cert.Pre.Hand.finite_arg5 m hpre c) (Cert.Pre.Hand.label_arg8 m hpre c) (Cert.Pre.Hand.label_arg9 m hpre c) n

theorem seq16_eq : Gen.V5 m (outsK m) c main_v16
    = Cert.ReferenceIdeal.Hand.seqLogp (F := Ideal) (m ((c : Thread nD τ).loc main_arg1)) (m ((c : Thread nD τ).loc main_arg4))
        (m ((c : Thread nD τ).loc main_arg5)) (m ((c : Thread nD τ).loc main_arg9)) := by
  funext j
  obtain ⟨n, rfl⟩ : ∃ n : Fin 2, j = ix1 n := ⟨j 0, eq_ix1 j⟩
  rw [v16_V5, sum_v16, colK0_eq]
  exact sum_hi _ _ _ _ (m ((c : Thread nD τ).loc main_arg0)) _ _ _ (m ((c : Thread nD τ).loc main_arg8)) _
    (xcat0_apply_lo m c) (xcat0_apply_hi m c) (tcat0_apply_lo m c) (tcat0_apply_hi m c) (w0_eq m c) (bias0_apply m c)
    (Cert.Pre.Hand.finite_arg0 m hpre c) (Cert.Pre.Hand.finite_arg1 m hpre c) (Cert.Pre.Hand.finite_arg4 m hpre c)
    (Cert.Pre.Hand.finite_arg5 m hpre c) (Cert.Pre.Hand.label_arg8 m hpre c) (Cert.Pre.Hand.label_arg9 m hpre c) n

theorem seq29_eq : Gen.V5 m (outsK m) c main_v29
    = Cert.ReferenceIdeal.Hand.seqLogp (F := Ideal) (m ((c : Thread nD τ).loc main_arg2)) (m ((c : Thread nD τ).loc main_arg6))
        (m ((c : Thread nD τ).loc main_arg7)) (m ((c : Thread nD τ).loc main_arg8)) := by
  funext j
  obtain ⟨n, rfl⟩ : ∃ n : Fin 2, j = ix1 n := ⟨j 0, eq_ix1 j⟩
  rw [sum_v29, colK1_eq]
  exact sum_lo _ _ _ _ _ (m ((c : Thread nD τ).loc main_arg3)) _ _ _ (m ((c : Thread nD τ).loc main_arg9))
    (xcat1_apply_lo m (outsK m) c) (xcat1_apply_hi m (outsK m) c) (tcat1_apply_lo m (outsK m) c)
    (tcat1_apply_hi m (outsK m) c) (w1_eq m (outsK m) c) (bias1_apply m (outsK m) c)
    (Cert.Pre.Hand.finite_arg2 m hpre c) (Cert.Pre.Hand.finite_arg3 m hpre c) (Cert.Pre.Hand.finite_arg6 m hpre c)
    (Cert.Pre.Hand.finite_arg7 m hpre c) (Cert.Pre.Hand.label_arg8 m hpre c) (Cert.Pre.Hand.label_arg9 m hpre c) n

theorem seq33_eq : Gen.V5 m (outsK m) c main_v33
    = Cert.ReferenceIdeal.Hand.seqLogp (F := Ideal) (m ((c : Thread nD τ).loc main_arg3)) (m ((c : Thread nD τ).loc main_arg6))
        (m ((c : Thread nD τ).loc main_arg7)) (m ((c : Thread nD τ).loc main_arg9)) := by
  funext j
  obtain ⟨n, rfl⟩ : ∃ n : Fin 2, j = ix1 n := ⟨j 0, eq_ix1 j⟩
  rw [sum_v33, colK1_eq]
  exact sum_hi _ _ _ _ (m ((c : Thread nD τ).loc main_arg2)) _ _ _ (m ((c : Thread nD τ).loc main_arg8)) _
    (xcat1_apply_lo m (outsK m) c) (xcat1_apply_hi m (outsK m) c) (tcat1_apply_lo m (outsK m) c)
    (tcat1_apply_hi m (outsK m) c) (w1_eq m (outsK m) c) (bias1_apply m (outsK m) c)
    (Cert.Pre.Hand.finite_arg2 m hpre c) (Cert.Pre.Hand.finite_arg3 m hpre c) (Cert.Pre.Hand.finite_arg6 m hpre c)
    (Cert.Pre.Hand.finite_arg7 m hpre c) (Cert.Pre.Hand.label_arg8 m hpre c) (Cert.Pre.Hand.label_arg9 m hpre c) n

end Final

end Cert.KernelIdeal.Hand

end
-- ==== Proof.RefRun1.lean ====
import proofs.«421999_j71975061946951_3_alg».proof.Proof.Gen.ReferenceIdeal
import Idealize.ShloMosaic.Lib.StableHlo.Run
import Idealize.ShloMosaic.Lib.Pipeline.Frame

noncomputable section

namespace Cert.ReferenceIdeal.Hand

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F]

abbrev lsmOps (arg0 : TRef sig ⟨S2x512x32000, .f32⟩) (φ : fn_log_softmax.Bufs) : List (HloOp τ sig (Elt F)) :=
  [ TRef.nullary φ.cst (constant S_ .f32 0xFF800000#32),
    TRef.binary arg0 φ.cst φ.v0 (fun x v => Host.reduce FloatOps.maximumf x v reducesTo_S2x512x32000_S2x512_d2 h_S_),
    TRef.nullary φ.cst_0 (constant S_ .f32 0xFF800000#32),
    TRef.unary φ.cst_0 φ.v1 (broadcastInDim S2x512 ![] bcast_S_S2x512),
    TRef.binary φ.v1 φ.v0 φ.v2 maximumf,
    TRef.unary φ.v2 φ.v3 (broadcastInDim S2x512x1 ![0, 1] bcast_S2x512_S2x512x1_0_1),
    TRef.unary φ.v3 φ.v4 (broadcastInDim S2x512x32000 ![0, 1, 2] bcast_S2x512x1_S2x512x32000_0_1_2),
    TRef.binary arg0 φ.v4 φ.v5 subf,
    TRef.unary φ.v5 φ.v6 Host.exp,
    TRef.nullary φ.cst_1 (constant S_ .f32 0x00000000#32),
    TRef.binary φ.v6 φ.cst_1 φ.v7 (fun x v => Host.reduceAdd x v reducesTo_S2x512x32000_S2x512_d2 h_S_),
    TRef.unary φ.v7 φ.v8 (broadcastInDim S2x512x1 ![0, 1] bcast_S2x512_S2x512x1_0_1),
    TRef.unary φ.v8 φ.v9 Host.log,
    TRef.unary φ.v9 φ.v10 (broadcastInDim S2x512x32000 ![0, 1, 2] bcast_S2x512x1_S2x512x32000_0_1_2),
    TRef.binary φ.v5 φ.v10 φ.v11 subf ]

theorem lsm_body_eq (arg0 : TRef sig ⟨S2x512x32000, .f32⟩) (φ : fn_log_softmax.Bufs) :
    fn_log_softmax.body (F := F) arg0 φ = seq (lsmOps arg0 φ) := rfl

theorem lsmOps_sub (arg0 : TRef sig ⟨S2x512x32000, .f32⟩) (φ : fn_log_softmax.Bufs) :
    (lsmOps (F := F) arg0 φ).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

theorem lsmOps_fresh (arg0 : TRef sig ⟨S2x512x32000, .f32⟩) (φ : fn_log_softmax.Bufs) :
    ∀ op ∈ lsmOps (F := F) arg0 φ, op.fresh = ∅ := by
  intro _ h; (repeat (cases h with | head => rfl | tail _ h => ?_)); exact nomatch h

abbrev takeOps (arg0 : TRef sig ⟨S2x512x32000, .f32⟩) (arg1 : TRef sig ⟨S2x512x1, .i32⟩) (φ : fn_take_along_axis.Bufs) :
    List (HloOp τ sig (Elt F)) :=
  [ TRef.nullary φ.c (constantI S_ 32 0#32),
    TRef.unary φ.c φ.v0 (broadcastInDim S2x512x1 ![] bcast_S_S2x512x1),
    TRef.binary arg1 φ.v0 φ.v1 (cmpi .slt),
    TRef.nullary φ.c_0 (constantI S_ 32 32000#32),
    TRef.unary φ.c_0 φ.v2 (broadcastInDim S2x512x1 ![] bcast_S_S2x512x1),
    TRef.binary arg1 φ.v2 φ.v3 addi,
    TRef.ternary φ.v1 φ.v3 arg1 φ.v4 select,
    TRef.reshape φ.v4 φ.v5 rfl shapeCasts_S2x512x1_S2x512x1x1,
    TRef.nullary φ.c_1 (constantI S1 32 31999#32),
    TRef.nullary φ.c_2 (constantI S_ 32 0#32),
    TRef.unary φ.c_2 φ.v6 (broadcastInDim S2x512x1x1 ![] bcast_S_S2x512x1x1),
    TRef.binary φ.v5 φ.v6 φ.v7 (cmpi .sge),
    TRef.unary φ.c_1 φ.v8 (broadcastInDim S1x1x1x1 ![3] bcast_S1_S1x1x1x1_3),
    TRef.unary φ.v8 φ.v9 (broadcastInDim S2x512x1x1 ![0, 1, 2, 3] bcast_S1x1x1x1_S2x512x1x1_0_1_2_3),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S2x512x1x1_S2x512x1_d3 h_S_),
    TRef.binary arg0 φ.v5 φ.v13 (fun x i => Host.gather gather_S2x512x32000_S2x512x1x1_S2x512x1_n_2_01_01_2_3_111 x i),
    TRef.nullary φ.cst (constant S_ .f32 0x7FC00000#32),
    TRef.unary φ.cst φ.v14 (broadcastInDim S2x512x1 ![] bcast_S_S2x512x1),
    TRef.ternary φ.v12 φ.v13 φ.v14 φ.v15 select ]

theorem take_body_eq (arg0 : TRef sig ⟨S2x512x32000, .f32⟩) (arg1 : TRef sig ⟨S2x512x1, .i32⟩) (φ : fn_take_along_axis.Bufs) :
    fn_take_along_axis.body (F := F) arg0 arg1 φ = seq (takeOps arg0 arg1 φ) := rfl

theorem takeOps_sub (arg0 : TRef sig ⟨S2x512x32000, .f32⟩) (arg1 : TRef sig ⟨S2x512x1, .i32⟩) (φ : fn_take_along_axis.Bufs) :
    (takeOps (F := F) arg0 arg1 φ).Forall fun op => op.bufs ⊆ tcRefs τ sig :=
  ⟨nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩

theorem takeOps_fresh (arg0 : TRef sig ⟨S2x512x32000, .f32⟩) (arg1 : TRef sig ⟨S2x512x1, .i32⟩) (φ : fn_take_along_axis.Bufs) :
    ∀ op ∈ takeOps (F := F) arg0 arg1 φ, op.fresh = ∅ := by
  intro _ h; (repeat (cases h with | head => rfl | tail _ h => ?_)); exact nomatch h

abbrev logSigmoidOps (arg0 : TRef sig ⟨S2, .f32⟩) (φ : fn_log_sigmoid.Bufs) : List (HloOp τ sig (Elt F)) :=
  [ TRef.unary arg0 φ.v0 Host.negf,
    TRef.nullary φ.call0.cst (constant S_ .f32 0x00000000#32),
    TRef.unary φ.call0.cst φ.call0.v0 (broadcastInDim S2 ![] bcast_S_S2),
    TRef.binary φ.v0 φ.call0.v0 φ.call0.v1 maximumf,
    TRef.unary φ.call0.cst φ.call0.v2 (broadcastInDim S2 ![] bcast_S_S2),
    TRef.binary φ.v0 φ.call0.v2 φ.call0.v3 subf,
    TRef.binary φ.call0.v3 φ.call0.v3 φ.call0.v4 (cmpf .une),
    TRef.unary φ.call0.cst φ.call0.v5 (broadcastInDim S2 ![] bcast_S_S2),
    TRef.binary φ.v0 φ.call0.v5 φ.call0.v6 addf,
    TRef.unary φ.call0.v3 φ.call0.v7 Host.absf,
    TRef.unary φ.call0.v7 φ.call0.v8 Host.negf,
    TRef.unary φ.call0.v8 φ.call0.v9 Host.exp,
    TRef.unary φ.call0.v9 φ.call0.v10 Host.log1p,
    TRef.binary φ.call0.v1 φ.call0.v10 φ.call0.v11 addf,
    TRef.ternary φ.call0.v4 φ.call0.v6 φ.call0.v11 φ.call0.v12 select,
    TRef.unary φ.call0.v12 φ.v2 Host.negf ]

theorem logSigmoid_body_eq (arg0 : TRef sig ⟨S2, .f32⟩) (φ : fn_log_sigmoid.Bufs) :
    fn_log_sigmoid.body (F := F) arg0 φ = seq (logSigmoidOps arg0 φ) := rfl

theorem logSigmoidOps_sub (arg0 : TRef sig ⟨S2, .f32⟩) (φ : fn_log_sigmoid.Bufs) :
    (logSigmoidOps (F := F) arg0 φ).Forall fun op => op.bufs ⊆ tcRefs τ sig :=
  ⟨unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub ..⟩

theorem logSigmoidOps_fresh (arg0 : TRef sig ⟨S2, .f32⟩) (φ : fn_log_sigmoid.Bufs) :
    ∀ op ∈ logSigmoidOps (F := F) arg0 φ, op.fresh = ∅ := by
  intro _ h; (repeat (cases h with | head => rfl | tail _ h => ?_)); exact nomatch h

end Cert.ReferenceIdeal.Hand

end
-- ==== Proof.RefRun2.lean ====
import proofs.«421999_j71975061946951_3_alg».proof.Proof.RefRun1
import Idealize.ShloMosaic.Lib.Pipeline.Regions

noncomputable section

namespace Cert.ReferenceIdeal.Hand

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F]

structure CallRefs where
  x : TRef sig ⟨S2x512x2048, .f32⟩
  w : TRef sig ⟨S32000x2048, .f32⟩
  b : TRef sig ⟨S32000, .f32⟩
  t : TRef sig ⟨S2x512, .i32⟩
  v0 : TRef sig ⟨S2x512x32000, .f32⟩
  v1 : TRef sig ⟨S1x1x32000, .f32⟩
  v2 : TRef sig ⟨S2x512x32000, .f32⟩
  v3 : TRef sig ⟨S2x512x32000, .f32⟩
  lsm : fn_log_softmax.Bufs
  v5 : TRef sig ⟨S2x512x1, .i32⟩
  take : fn_take_along_axis.Bufs
  v7 : TRef sig ⟨S2x512, .f32⟩
  c : TRef sig ⟨S_, .i32⟩
  v8 : TRef sig ⟨S2x512, .i32⟩
  v9 : TRef sig ⟨S2x512, .i1⟩
  v10 : TRef sig ⟨S2x512, .f32⟩
  v11 : TRef sig ⟨S2x512, .f32⟩
  cst : TRef sig ⟨S_, .f32⟩
  v12 : TRef sig ⟨S2, .f32⟩

abbrev preOps (k : CallRefs) : List (HloOp τ sig (Elt F)) :=
  [ TRef.binary k.x k.w k.v0 (fun l r => Host.dotGeneral dot_S2x512x2048_S32000x2048_S2x512x32000_2_1_01_0_n_n none l r),
    TRef.unary k.b k.v1 (broadcastInDim S1x1x32000 ![2] bcast_S32000_S1x1x32000_2),
    TRef.unary k.v1 k.v2 (broadcastInDim S2x512x32000 ![0, 1, 2] bcast_S1x1x32000_S2x512x32000_0_1_2),
    TRef.binary k.v0 k.v2 k.v3 addf ]

abbrev midOps (k : CallRefs) : List (HloOp τ sig (Elt F)) :=
  [ TRef.unary k.t k.v5 (broadcastInDim S2x512x1 ![0, 1] bcast_S2x512_S2x512x1_0_1) ]

abbrev postOps (k : CallRefs) : List (HloOp τ sig (Elt F)) :=
  [ TRef.reshape k.take.v15 k.v7 rfl shapeCasts_S2x512x1_S2x512,
    TRef.nullary k.c (constantI S_ 32 4294967196#32),
    TRef.unary k.c k.v8 (broadcastInDim S2x512 ![] bcast_S_S2x512),
    TRef.binary k.t k.v8 k.v9 (cmpi .ne),
    TRef.unary k.v9 k.v10 (uitofp .f32),
    TRef.binary k.v7 k.v10 k.v11 mulf,
    TRef.nullary k.cst (constant S_ .f32 0x00000000#32),
    TRef.binary k.v11 k.cst k.v12 (fun x v => Host.reduceAdd x v reducesTo_S2x512_S2_d1 h_S_) ]

abbrev callStretches (k : CallRefs) : List (List (HloOp τ sig (Elt F))) :=
  [ preOps k, lsmOps k.v3 k.lsm, midOps k, takeOps k.lsm.v11 k.v5 k.take, postOps k ]

abbrev callItems (k : CallRefs) :
    List (Prog (TpuEff nD τ sig (Elt F) (Pipeline.Sig Λ₀ (Fin 0) fun p => (pcfgs (F := F) p).Adm) .tc) PUnit) :=
  [ seq (preOps k), fn_log_softmax.body k.v3 k.lsm, seq (midOps k), fn_take_along_axis.body k.lsm.v11 k.v5 k.take,
    seq (postOps k) ]

theorem callItems_eq (k : CallRefs) : callItems (F := F) k = (callStretches k).map fun l => seq l := rfl

theorem callStretches_sub (k : CallRefs) :
    (callStretches (F := F) k).Forall fun l => l.Forall fun op => op.bufs ⊆ tcRefs τ sig :=
  ⟨⟨binary_bufs_sub .., unary_bufs_sub .., unary_bufs_sub .., binary_bufs_sub ..⟩, lsmOps_sub _ _, unary_bufs_sub ..,
    takeOps_sub _ _ _,
    ⟨reshape_bufs_sub .., nullary_bufs_sub .., unary_bufs_sub .., binary_bufs_sub .., unary_bufs_sub .., binary_bufs_sub ..,
      nullary_bufs_sub .., binary_bufs_sub ..⟩⟩

theorem preOps_fresh (k : CallRefs) : ∀ op ∈ preOps (F := F) k, op.fresh = ∅ := by
  intro _ h; (repeat (cases h with | head => rfl | tail _ h => ?_)); exact nomatch h
theorem midOps_fresh (k : CallRefs) : ∀ op ∈ midOps (F := F) k, op.fresh = ∅ := by
  intro _ h; (repeat (cases h with | head => rfl | tail _ h => ?_)); exact nomatch h
theorem postOps_fresh (k : CallRefs) : ∀ op ∈ postOps (F := F) k, op.fresh = ∅ := by
  intro _ h; (repeat (cases h with | head => rfl | tail _ h => ?_)); exact nomatch h

theorem callStretches_fresh (k : CallRefs) : (callStretches (F := F) k).Forall fun l => ∀ op ∈ l, op.fresh = ∅ :=
  ⟨preOps_fresh k, lsmOps_fresh _ _, midOps_fresh k, takeOps_fresh _ _ _, postOps_fresh k⟩

abbrev callA : CallRefs where
  x := .of main_arg0
  w := .of main_arg4
  b := .of main_arg5
  t := .of main_arg8
  v0 := .of main_v0
  v1 := .of main_v1
  v2 := .of main_v2
  v3 := .of main_v3
  lsm := main_call0
  v5 := .of main_v5
  take := main_call1
  v7 := .of main_v7
  c := .of main_c
  v8 := .of main_v8
  v9 := .of main_v9
  v10 := .of main_v10
  v11 := .of main_v11
  cst := .of main_cst
  v12 := .of main_v12

abbrev callB : CallRefs where
  x := .of main_arg1
  w := .of main_arg4
  b := .of main_arg5
  t := .of main_arg9
  v0 := .of main_v13
  v1 := .of main_v14
  v2 := .of main_v15
  v3 := .of main_v16
  lsm := main_call2
  v5 := .of main_v18
  take := main_call3
  v7 := .of main_v20
  c := .of main_c_0
  v8 := .of main_v21
  v9 := .of main_v22
  v10 := .of main_v23
  v11 := .of main_v24
  cst := .of main_cst_1
  v12 := .of main_v25

abbrev callC : CallRefs where
  x := .of main_arg2
  w := .of main_arg6
  b := .of main_arg7
  t := .of main_arg8
  v0 := .of main_v26
  v1 := .of main_v27
  v2 := .of main_v28
  v3 := .of main_v29
  lsm := main_call4
  v5 := .of main_v31
  take := main_call5
  v7 := .of main_v33
  c := .of main_c_2
  v8 := .of main_v34
  v9 := .of main_v35
  v10 := .of main_v36
  v11 := .of main_v37
  cst := .of main_cst_3
  v12 := .of main_v38

abbrev callD : CallRefs where
  x := .of main_arg3
  w := .of main_arg6
  b := .of main_arg7
  t := .of main_arg9
  v0 := .of main_v39
  v1 := .of main_v40
  v2 := .of main_v41
  v3 := .of main_v42
  lsm := main_call6
  v5 := .of main_v44
  take := main_call7
  v7 := .of main_v46
  c := .of main_c_4
  v8 := .of main_v47
  v9 := .of main_v48
  v10 := .of main_v49
  v11 := .of main_v50
  cst := .of main_cst_5
  v12 := .of main_v51

abbrev tailPre : List (HloOp τ sig (Elt F)) :=
  [ binary main_v12 main_v25 main_v52 (subf : (⟨S2, .f32⟩ : BufTy).Contents (Elt F) → (⟨S2, .f32⟩ : BufTy).Contents (Elt F) → (⟨S2, .f32⟩ : BufTy).Contents (Elt F)),
    binary main_v38 main_v51 main_v53 (subf : (⟨S2, .f32⟩ : BufTy).Contents (Elt F) → (⟨S2, .f32⟩ : BufTy).Contents (Elt F) → (⟨S2, .f32⟩ : BufTy).Contents (Elt F)),
    binary main_v52 main_v53 main_v54 (subf : (⟨S2, .f32⟩ : BufTy).Contents (Elt F) → (⟨S2, .f32⟩ : BufTy).Contents (Elt F) → (⟨S2, .f32⟩ : BufTy).Contents (Elt F)),
    nullary main_cst_6 (constant S_ .f32 0x3DCCCCCD#32),
    unary main_cst_6 main_v55 (broadcastInDim S2 ![] bcast_S_S2 : (⟨S_, .f32⟩ : BufTy).Contents (Elt F) → (⟨S2, .f32⟩ : BufTy).Contents (Elt F)),
    binary main_v55 main_v54 main_v56 (mulf : (⟨S2, .f32⟩ : BufTy).Contents (Elt F) → (⟨S2, .f32⟩ : BufTy).Contents (Elt F) → (⟨S2, .f32⟩ : BufTy).Contents (Elt F)) ]

abbrev tailPost : List (HloOp τ sig (Elt F)) :=
  [ nullary main_cst_7 (constant S_ .f32 0x00000000#32),
    binary main_v57 main_cst_7 main_v58 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    unary main_v58 main_v59 (Host.negf : (⟨S_, .f32⟩ : BufTy).Contents (Elt F) → (⟨S_, .f32⟩ : BufTy).Contents (Elt F)),
    nullary main_cst_8 (constant S_ .f32 0x40000000#32),
    binary main_v59 main_cst_8 main_v60 (Host.divf : (⟨S_, .f32⟩ : BufTy).Contents (Elt F) → (⟨S_, .f32⟩ : BufTy).Contents (Elt F) → (⟨S_, .f32⟩ : BufTy).Contents (Elt F)),
    binary main_v12 main_v38 main_v61 (subf : (⟨S2, .f32⟩ : BufTy).Contents (Elt F) → (⟨S2, .f32⟩ : BufTy).Contents (Elt F) → (⟨S2, .f32⟩ : BufTy).Contents (Elt F)),
    nullary main_cst_9 (constant S_ .f32 0x3DCCCCCD#32),
    unary main_cst_9 main_v62 (broadcastInDim S2 ![] bcast_S_S2 : (⟨S_, .f32⟩ : BufTy).Contents (Elt F) → (⟨S2, .f32⟩ : BufTy).Contents (Elt F)),
    binary main_v62 main_v61 main_v63 (mulf : (⟨S2, .f32⟩ : BufTy).Contents (Elt F) → (⟨S2, .f32⟩ : BufTy).Contents (Elt F) → (⟨S2, .f32⟩ : BufTy).Contents (Elt F)),
    binary main_v25 main_v51 main_v64 (subf : (⟨S2, .f32⟩ : BufTy).Contents (Elt F) → (⟨S2, .f32⟩ : BufTy).Contents (Elt F) → (⟨S2, .f32⟩ : BufTy).Contents (Elt F)),
    nullary main_cst_10 (constant S_ .f32 0x3DCCCCCD#32),
    unary main_cst_10 main_v65 (broadcastInDim S2 ![] bcast_S_S2 : (⟨S_, .f32⟩ : BufTy).Contents (Elt F) → (⟨S2, .f32⟩ : BufTy).Contents (Elt F)),
    binary main_v65 main_v64 main_v66 (mulf : (⟨S2, .f32⟩ : BufTy).Contents (Elt F) → (⟨S2, .f32⟩ : BufTy).Contents (Elt F) → (⟨S2, .f32⟩ : BufTy).Contents (Elt F)),
    binary main_v63 main_v66 main_v67 (subf : (⟨S2, .f32⟩ : BufTy).Contents (Elt F) → (⟨S2, .f32⟩ : BufTy).Contents (Elt F) → (⟨S2, .f32⟩ : BufTy).Contents (Elt F)),
    nullary main_cst_11 (constant S_ .f32 0x00000000#32),
    binary main_v67 main_cst_11 main_v68 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_12 (constant S_ .f32 0x40000000#32),
    binary main_v68 main_cst_12 main_v69 (Host.divf : (⟨S_, .f32⟩ : BufTy).Contents (Elt F) → (⟨S_, .f32⟩ : BufTy).Contents (Elt F) → (⟨S_, .f32⟩ : BufTy).Contents (Elt F)),
    binary main_v63 main_v66 main_v70 (cmpf .ogt : (⟨S2, .f32⟩ : BufTy).Contents (Elt F) → (⟨S2, .f32⟩ : BufTy).Contents (Elt F) → (⟨S2, .i1⟩ : BufTy).Contents (Elt F)),
    unary main_v70 main_v71 (uitofp .f32 : (⟨S2, .i1⟩ : BufTy).Contents (Elt F) → (⟨S2, .f32⟩ : BufTy).Contents (Elt F)),
    nullary main_cst_13 (constant S_ .f32 0x00000000#32),
    binary main_v71 main_cst_13 main_v72 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_14 (constant S_ .f32 0x40000000#32),
    binary main_v72 main_cst_14 main_v73 (Host.divf : (⟨S_, .f32⟩ : BufTy).Contents (Elt F) → (⟨S_, .f32⟩ : BufTy).Contents (Elt F) → (⟨S_, .f32⟩ : BufTy).Contents (Elt F)),
    nullary main_cst_15 (constant S_ .f32 0x00000000#32),
    binary main_v63 main_cst_15 main_v74 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_16 (constant S_ .f32 0x40000000#32),
    binary main_v74 main_cst_16 main_v75 (Host.divf : (⟨S_, .f32⟩ : BufTy).Contents (Elt F) → (⟨S_, .f32⟩ : BufTy).Contents (Elt F) → (⟨S_, .f32⟩ : BufTy).Contents (Elt F)),
    nullary main_cst_17 (constant S_ .f32 0x00000000#32),
    binary main_v66 main_cst_17 main_v76 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_18 (constant S_ .f32 0x40000000#32),
    binary main_v76 main_cst_18 main_v77 (Host.divf : (⟨S_, .f32⟩ : BufTy).Contents (Elt F) → (⟨S_, .f32⟩ : BufTy).Contents (Elt F) → (⟨S_, .f32⟩ : BufTy).Contents (Elt F)),
    nullary main_cst_19 (constant S_ .f32 0x00000000#32) ]

theorem tailPre_sub : (tailPre : List (HloOp τ sig (Elt F))).Forall fun op => op.bufs ⊆ tcRefs τ sig :=
  ⟨binary_bufs_sub .., binary_bufs_sub .., binary_bufs_sub .., nullary_bufs_sub .., unary_bufs_sub .., binary_bufs_sub ..⟩
theorem tailPost_sub : (tailPost : List (HloOp τ sig (Elt F))).Forall fun op => op.bufs ⊆ tcRefs τ sig :=
  ⟨nullary_bufs_sub .., binary_bufs_sub .., unary_bufs_sub .., nullary_bufs_sub .., binary_bufs_sub .., binary_bufs_sub ..,
    nullary_bufs_sub .., unary_bufs_sub .., binary_bufs_sub .., binary_bufs_sub .., nullary_bufs_sub .., unary_bufs_sub ..,
    binary_bufs_sub .., binary_bufs_sub .., nullary_bufs_sub .., binary_bufs_sub .., nullary_bufs_sub .., binary_bufs_sub ..,
    binary_bufs_sub .., unary_bufs_sub .., nullary_bufs_sub .., binary_bufs_sub .., nullary_bufs_sub .., binary_bufs_sub ..,
    nullary_bufs_sub .., binary_bufs_sub .., nullary_bufs_sub .., binary_bufs_sub .., nullary_bufs_sub .., binary_bufs_sub ..,
    nullary_bufs_sub .., binary_bufs_sub .., nullary_bufs_sub ..⟩
theorem tailPre_fresh : ∀ op ∈ (tailPre : List (HloOp τ sig (Elt F))), op.fresh = ∅ := by
  intro _ h; (repeat (cases h with | head => rfl | tail _ h => ?_)); exact nomatch h
theorem tailPost_fresh : ∀ op ∈ (tailPost : List (HloOp τ sig (Elt F))), op.fresh = ∅ := by
  intro _ h; (repeat (cases h with | head => rfl | tail _ h => ?_)); exact nomatch h

abbrev stretches : List (List (HloOp τ sig (Elt F))) :=
  callStretches callA ++ (callStretches callB ++ (callStretches callC ++ (callStretches callD
    ++ [tailPre, logSigmoidOps (.of main_v56) main_call8, tailPost])))

theorem main_part0_chain (c : Dev nD) : main_part0 (F := F) c
    = Pipeline.chain (callItems callA ++ (callItems callB ++ (callItems callC ++ callItems callD))) := by
  chain_rfl

theorem main_part1_chain (c : Dev nD) : main_part1 (F := F) c = Pipeline.chain
    [ seq tailPre, fn_log_sigmoid.body (.of main_v56) main_call8, seq tailPost ] := by
  chain_rfl

theorem chain_append {E : Type → Type} (xs ys : List (Prog E PUnit)) :
    (Pipeline.chain xs >>= fun _ => Pipeline.chain ys) = Pipeline.chain (xs ++ ys) := by
  induction xs with
  | nil => simp only [Pipeline.chain_nil, pure_bind, List.nil_append]
  | cons x xs ih => simp only [Pipeline.chain_cons, List.cons_append, bind_assoc, ih]

theorem chain_map_seq (L : List (List (HloOp τ sig (Elt F)))) :
    (Pipeline.chain (L.map fun l => (seq l : Prog (TpuEff nD τ sig (Elt F) (Pipeline.Sig Λ₀ (Fin 0) fun p => (pcfgs (F := F) p).Adm) .tc) PUnit)))
      = seq L.flatten := by
  induction L with
  | nil => rfl
  | cons l L ih => simp only [List.map_cons, Pipeline.chain_cons, List.flatten_cons, seq_append, ih]

theorem main_eq (c : Dev nD) : main (F := F) c = seq (stretches (F := F)).flatten := by
  show (main_part0 c >>= fun _ => main_part1 c) = _
  rw [main_part0_chain, main_part1_chain, chain_append, ← chain_map_seq]
  rfl

theorem forall_flatten {α : Type} {p : α → Prop} {L : List (List α)} (h : L.Forall fun l => l.Forall p) : L.flatten.Forall p :=
  List.forall_iff_forall_mem.2 fun x hx => by
    obtain ⟨l, hl, hxl⟩ := List.mem_flatten.1 hx
    exact List.forall_iff_forall_mem.1 (List.forall_iff_forall_mem.1 h l hl) x hxl

theorem fresh_flatten {L : List (List (HloOp τ sig (Elt F)))} (h : L.Forall fun l => ∀ op ∈ l, op.fresh = ∅) :
    ∀ op ∈ L.flatten, op.fresh = ∅ := fun op hop => by
  obtain ⟨l, hl, hxl⟩ := List.mem_flatten.1 hop
  exact List.forall_iff_forall_mem.1 h l hl op hxl

theorem scopedRefs_eq : (Finset.univ.filter fun b : Ref sig .tc => b.isScoped) = ∅ := by decide
theorem scopedSems_eq : (Finset.univ.filter fun sm : SemLoc sig => sm.isScoped .tc) = ∅ := by decide

theorem stretches_sub : (stretches (F := F)).Forall fun l => l.Forall fun op => op.bufs ⊆ tcRefs τ sig :=
  List.forall_append.2 ⟨callStretches_sub _, List.forall_append.2 ⟨callStretches_sub _, List.forall_append.2
    ⟨callStretches_sub _, List.forall_append.2 ⟨callStretches_sub _, tailPre_sub, logSigmoidOps_sub _ _, tailPost_sub⟩⟩⟩⟩

theorem stretches_fresh : (stretches (F := F)).Forall fun l => ∀ op ∈ l, op.fresh = ∅ :=
  List.forall_append.2 ⟨callStretches_fresh _, List.forall_append.2 ⟨callStretches_fresh _, List.forall_append.2
    ⟨callStretches_fresh _, List.forall_append.2 ⟨callStretches_fresh _, tailPre_fresh, logSigmoidOps_fresh _ _,
      tailPost_fresh⟩⟩⟩⟩

theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after (stretches (F := F)).flatten (launchContents m c) (b : DevRef τ sig) :=
  run_seq scopedRefs_eq scopedSems_eq defs main (fun _ => stretches.flatten) main_eq (fun _ => forall_flatten stretches_sub) m ρ
    (fun _ => fresh_flatten stretches_fresh)

end Cert.ReferenceIdeal.Hand

end
-- ==== Proof.RefRun3.lean ====
import proofs.«421999_j71975061946951_3_alg».proof.Proof.RefStages
import proofs.«421999_j71975061946951_3_alg».proof.Proof.RefRun2

noncomputable section

namespace Cert.ReferenceIdeal.Hand

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F]

section Line

variable
    (f1 : BufTy.Contents (Elt F) ⟨S2x512x2048,.f32⟩ → BufTy.Contents (Elt F) ⟨S32000x2048,.f32⟩ → BufTy.Contents (Elt F) ⟨S2x512x32000,.f32⟩)
    (f2 : BufTy.Contents (Elt F) ⟨S32000,.f32⟩ → BufTy.Contents (Elt F) ⟨S1x1x32000,.f32⟩)
    (f3 : BufTy.Contents (Elt F) ⟨S1x1x32000,.f32⟩ → BufTy.Contents (Elt F) ⟨S2x512x32000,.f32⟩)
    (f4 : BufTy.Contents (Elt F) ⟨S2x512x32000,.f32⟩ → BufTy.Contents (Elt F) ⟨S2x512x32000,.f32⟩ → BufTy.Contents (Elt F) ⟨S2x512x32000,.f32⟩)
    (c5 : BufTy.Contents (Elt F) ⟨S_,.f32⟩)
    (f6 : BufTy.Contents (Elt F) ⟨S2x512x32000,.f32⟩ → BufTy.Contents (Elt F) ⟨S_,.f32⟩ → BufTy.Contents (Elt F) ⟨S2x512,.f32⟩)
    (c7 : BufTy.Contents (Elt F) ⟨S_,.f32⟩)
    (f8 : BufTy.Contents (Elt F) ⟨S_,.f32⟩ → BufTy.Contents (Elt F) ⟨S2x512,.f32⟩)
    (f9 : BufTy.Contents (Elt F) ⟨S2x512,.f32⟩ → BufTy.Contents (Elt F) ⟨S2x512,.f32⟩ → BufTy.Contents (Elt F) ⟨S2x512,.f32⟩)
    (f10 : BufTy.Contents (Elt F) ⟨S2x512,.f32⟩ → BufTy.Contents (Elt F) ⟨S2x512x1,.f32⟩)
    (f11 : BufTy.Contents (Elt F) ⟨S2x512x1,.f32⟩ → BufTy.Contents (Elt F) ⟨S2x512x32000,.f32⟩)
    (f12 : BufTy.Contents (Elt F) ⟨S2x512x32000,.f32⟩ → BufTy.Contents (Elt F) ⟨S2x512x32000,.f32⟩ → BufTy.Contents (Elt F) ⟨S2x512x32000,.f32⟩)
    (f13 : BufTy.Contents (Elt F) ⟨S2x512x32000,.f32⟩ → BufTy.Contents (Elt F) ⟨S2x512x32000,.f32⟩)
    (c14 : BufTy.Contents (Elt F) ⟨S_,.f32⟩)
    (f15 : BufTy.Contents (Elt F) ⟨S2x512x32000,.f32⟩ → BufTy.Contents (Elt F) ⟨S_,.f32⟩ → BufTy.Contents (Elt F) ⟨S2x512,.f32⟩)
    (f16 : BufTy.Contents (Elt F) ⟨S2x512,.f32⟩ → BufTy.Contents (Elt F) ⟨S2x512x1,.f32⟩)
    (f17 : BufTy.Contents (Elt F) ⟨S2x512x1,.f32⟩ → BufTy.Contents (Elt F) ⟨S2x512x1,.f32⟩)
    (f18 : BufTy.Contents (Elt F) ⟨S2x512x1,.f32⟩ → BufTy.Contents (Elt F) ⟨S2x512x32000,.f32⟩)
    (f19 : BufTy.Contents (Elt F) ⟨S2x512x32000,.f32⟩ → BufTy.Contents (Elt F) ⟨S2x512x32000,.f32⟩ → BufTy.Contents (Elt F) ⟨S2x512x32000,.f32⟩)
    (f20 : BufTy.Contents (Elt F) ⟨S2x512,.i32⟩ → BufTy.Contents (Elt F) ⟨S2x512x1,.i32⟩)
    (c21 : BufTy.Contents (Elt F) ⟨S_,.i32⟩)
    (f22 : BufTy.Contents (Elt F) ⟨S_,.i32⟩ → BufTy.Contents (Elt F) ⟨S2x512x1,.i32⟩)
    (f23 : BufTy.Contents (Elt F) ⟨S2x512x1,.i32⟩ → BufTy.Contents (Elt F) ⟨S2x512x1,.i32⟩ → BufTy.Contents (Elt F) ⟨S2x512x1,.i1⟩)
    (c24 : BufTy.Contents (Elt F) ⟨S_,.i32⟩)
    (f25 : BufTy.Contents (Elt F) ⟨S_,.i32⟩ → BufTy.Contents (Elt F) ⟨S2x512x1,.i32⟩)
    (f26 : BufTy.Contents (Elt F) ⟨S2x512x1,.i32⟩ → BufTy.Contents (Elt F) ⟨S2x512x1,.i32⟩ → BufTy.Contents (Elt F) ⟨S2x512x1,.i32⟩)
    (f27 : BufTy.Contents (Elt F) ⟨S2x512x1,.i1⟩ → BufTy.Contents (Elt F) ⟨S2x512x1,.i32⟩ → BufTy.Contents (Elt F) ⟨S2x512x1,.i32⟩ → BufTy.Contents (Elt F) ⟨S2x512x1,.i32⟩)
    (c29 : BufTy.Contents (Elt F) ⟨S1,.i32⟩)
    (c30 : BufTy.Contents (Elt F) ⟨S_,.i32⟩)
    (f31 : BufTy.Contents (Elt F) ⟨S_,.i32⟩ → BufTy.Contents (Elt F) ⟨S2x512x1x1,.i32⟩)
    (f32 : BufTy.Contents (Elt F) ⟨S2x512x1x1,.i32⟩ → BufTy.Contents (Elt F) ⟨S2x512x1x1,.i32⟩ → BufTy.Contents (Elt F) ⟨S2x512x1x1,.i1⟩)
    (f33 : BufTy.Contents (Elt F) ⟨S1,.i32⟩ → BufTy.Contents (Elt F) ⟨S1x1x1x1,.i32⟩)
    (f34 : BufTy.Contents (Elt F) ⟨S1x1x1x1,.i32⟩ → BufTy.Contents (Elt F) ⟨S2x512x1x1,.i32⟩)
    (f35 : BufTy.Contents (Elt F) ⟨S2x512x1x1,.i32⟩ → BufTy.Contents (Elt F) ⟨S2x512x1x1,.i32⟩ → BufTy.Contents (Elt F) ⟨S2x512x1x1,.i1⟩)
    (f36 : BufTy.Contents (Elt F) ⟨S2x512x1x1,.i1⟩ → BufTy.Contents (Elt F) ⟨S2x512x1x1,.i1⟩ → BufTy.Contents (Elt F) ⟨S2x512x1x1,.i1⟩)
    (c37 : BufTy.Contents (Elt F) ⟨S_,.i1⟩)
    (f38 : BufTy.Contents (Elt F) ⟨S2x512x1x1,.i1⟩ → BufTy.Contents (Elt F) ⟨S_,.i1⟩ → BufTy.Contents (Elt F) ⟨S2x512x1,.i1⟩)
    (f39 : BufTy.Contents (Elt F) ⟨S2x512x32000,.f32⟩ → BufTy.Contents (Elt F) ⟨S2x512x1x1,.i32⟩ → BufTy.Contents (Elt F) ⟨S2x512x1,.f32⟩)
    (c40 : BufTy.Contents (Elt F) ⟨S_,.f32⟩)
    (f41 : BufTy.Contents (Elt F) ⟨S_,.f32⟩ → BufTy.Contents (Elt F) ⟨S2x512x1,.f32⟩)
    (f42 : BufTy.Contents (Elt F) ⟨S2x512x1,.i1⟩ → BufTy.Contents (Elt F) ⟨S2x512x1,.f32⟩ → BufTy.Contents (Elt F) ⟨S2x512x1,.f32⟩ → BufTy.Contents (Elt F) ⟨S2x512x1,.f32⟩)
    (c44 : BufTy.Contents (Elt F) ⟨S_,.i32⟩)
    (f45 : BufTy.Contents (Elt F) ⟨S_,.i32⟩ → BufTy.Contents (Elt F) ⟨S2x512,.i32⟩)
    (f46 : BufTy.Contents (Elt F) ⟨S2x512,.i32⟩ → BufTy.Contents (Elt F) ⟨S2x512,.i32⟩ → BufTy.Contents (Elt F) ⟨S2x512,.i1⟩)
    (f47 : BufTy.Contents (Elt F) ⟨S2x512,.i1⟩ → BufTy.Contents (Elt F) ⟨S2x512,.f32⟩)
    (f48 : BufTy.Contents (Elt F) ⟨S2x512,.f32⟩ → BufTy.Contents (Elt F) ⟨S2x512,.f32⟩ → BufTy.Contents (Elt F) ⟨S2x512,.f32⟩)
    (c49 : BufTy.Contents (Elt F) ⟨S_,.f32⟩)
    (f50 : BufTy.Contents (Elt F) ⟨S2x512,.f32⟩ → BufTy.Contents (Elt F) ⟨S_,.f32⟩ → BufTy.Contents (Elt F) ⟨S2,.f32⟩)

abbrev callLine (k : CallRefs) : List (HloOp τ sig (Elt F)) :=
  [ TRef.binary k.x k.w k.v0 f1,
    TRef.unary k.b k.v1 f2,
    TRef.unary k.v1 k.v2 f3,
    TRef.binary k.v0 k.v2 k.v3 f4,
    TRef.nullary k.lsm.cst c5,
    TRef.binary k.v3 k.lsm.cst k.lsm.v0 f6,
    TRef.nullary k.lsm.cst_0 c7,
    TRef.unary k.lsm.cst_0 k.lsm.v1 f8,
    TRef.binary k.lsm.v1 k.lsm.v0 k.lsm.v2 f9,
    TRef.unary k.lsm.v2 k.lsm.v3 f10,
    TRef.unary k.lsm.v3 k.lsm.v4 f11,
    TRef.binary k.v3 k.lsm.v4 k.lsm.v5 f12,
    TRef.unary k.lsm.v5 k.lsm.v6 f13,
    TRef.nullary k.lsm.cst_1 c14,
    TRef.binary k.lsm.v6 k.lsm.cst_1 k.lsm.v7 f15,
    TRef.unary k.lsm.v7 k.lsm.v8 f16,
    TRef.unary k.lsm.v8 k.lsm.v9 f17,
    TRef.unary k.lsm.v9 k.lsm.v10 f18,
    TRef.binary k.lsm.v5 k.lsm.v10 k.lsm.v11 f19,
    TRef.unary k.t k.v5 f20,
    TRef.nullary k.take.c c21,
    TRef.unary k.take.c k.take.v0 f22,
    TRef.binary k.v5 k.take.v0 k.take.v1 f23,
    TRef.nullary k.take.c_0 c24,
    TRef.unary k.take.c_0 k.take.v2 f25,
    TRef.binary k.v5 k.take.v2 k.take.v3 f26,
    TRef.ternary k.take.v1 k.take.v3 k.v5 k.take.v4 f27,
    TRef.reshape k.take.v4 k.take.v5 rfl shapeCasts_S2x512x1_S2x512x1x1,
    TRef.nullary k.take.c_1 c29,
    TRef.nullary k.take.c_2 c30,
    TRef.unary k.take.c_2 k.take.v6 f31,
    TRef.binary k.take.v5 k.take.v6 k.take.v7 f32,
    TRef.unary k.take.c_1 k.take.v8 f33,
    TRef.unary k.take.v8 k.take.v9 f34,
    TRef.binary k.take.v5 k.take.v9 k.take.v10 f35,
    TRef.binary k.take.v7 k.take.v10 k.take.v11 f36,
    TRef.nullary k.take.c_3 c37,
    TRef.binary k.take.v11 k.take.c_3 k.take.v12 f38,
    TRef.binary k.lsm.v11 k.take.v5 k.take.v13 f39,
    TRef.nullary k.take.cst c40,
    TRef.unary k.take.cst k.take.v14 f41,
    TRef.ternary k.take.v12 k.take.v13 k.take.v14 k.take.v15 f42,
    TRef.reshape k.take.v15 k.v7 rfl shapeCasts_S2x512x1_S2x512,
    TRef.nullary k.c c44,
    TRef.unary k.c k.v8 f45,
    TRef.binary k.t k.v8 k.v9 f46,
    TRef.unary k.v9 k.v10 f47,
    TRef.binary k.v7 k.v10 k.v11 f48,
    TRef.nullary k.cst c49,
    TRef.binary k.v11 k.cst k.v12 f50 ]

/-- The functions of a call composed along its data flow (each operation reads what earlier ones wrote; no buffer is written twice). -/
def lineVal (x : BufTy.Contents (Elt F) ⟨S2x512x2048,.f32⟩) (w : BufTy.Contents (Elt F) ⟨S32000x2048,.f32⟩)
    (b : BufTy.Contents (Elt F) ⟨S32000,.f32⟩) (t : BufTy.Contents (Elt F) ⟨S2x512,.i32⟩) : BufTy.Contents (Elt F) ⟨S2,.f32⟩ :=
  (f50 (f48 (fun i => shapeCast S2x512 (f42 (f38 (f36 (f32 (fun i => shapeCast S2x512x1x1 (f27 (f23 (f20 t) (f22 c21)) (f26 (f20 t) (f25 c24)) (f20 t)) shapeCasts_S2x512x1_S2x512x1x1 i) (f31 c30)) (f35 (fun i => shapeCast S2x512x1x1 (f27 (f23 (f20 t) (f22 c21)) (f26 (f20 t) (f25 c24)) (f20 t)) shapeCasts_S2x512x1_S2x512x1x1 i) (f34 (f33 c29)))) c37) (f39 (f19 (f12 (f4 (f1 x w) (f3 (f2 b))) (f11 (f10 (f9 (f8 c7) (f6 (f4 (f1 x w) (f3 (f2 b))) c5))))) (f18 (f17 (f16 (f15 (f13 (f12 (f4 (f1 x w) (f3 (f2 b))) (f11 (f10 (f9 (f8 c7) (f6 (f4 (f1 x w) (f3 (f2 b))) c5)))))) c14))))) (fun i => shapeCast S2x512x1x1 (f27 (f23 (f20 t) (f22 c21)) (f26 (f20 t) (f25 c24)) (f20 t)) shapeCasts_S2x512x1_S2x512x1x1 i)) (f41 c40)) shapeCasts_S2x512x1_S2x512 i) (f47 (f46 t (f45 c44)))) c49)

theorem lineA_val (V : Valuation τ sig (Elt F)) :
    after (callLine f1 f2 f3 f4 c5 f6 c7 f8 f9 f10 f11 f12 f13 c14 f15 f16 f17 f18 f19 f20 c21 f22 f23 c24 f25 f26 f27 c29 c30 f31 f32 f33 f34 f35 f36 c37 f38 f39 c40 f41 f42 c44 f45 f46 f47 f48 c49 f50 callA) V (main_v12 : DevRef τ sig)
      = lineVal f1 f2 f3 f4 c5 f6 c7 f8 f9 f10 f11 f12 f13 c14 f15 f16 f17 f18 f19 f20 c21 f22 f23 c24 f25 f26 f27 c29 c30 f31 f32 f33 f34 f35 f36 c37 f38 f39 c40 f41 f42 c44 f45 f46 f47 f48 c49 f50 (V (main_arg0 : DevRef τ sig)) (V (main_arg4 : DevRef τ sig)) (V (main_arg5 : DevRef τ sig)) (V (main_arg8 : DevRef τ sig)) := by
  unfold lineVal
  after_results_simp
  simp only [TRef.ofBuf, TRef.toBuf, cast_eq]
  rfl

theorem lineB_val (V : Valuation τ sig (Elt F)) :
    after (callLine f1 f2 f3 f4 c5 f6 c7 f8 f9 f10 f11 f12 f13 c14 f15 f16 f17 f18 f19 f20 c21 f22 f23 c24 f25 f26 f27 c29 c30 f31 f32 f33 f34 f35 f36 c37 f38 f39 c40 f41 f42 c44 f45 f46 f47 f48 c49 f50 callB) V (main_v25 : DevRef τ sig)
      = lineVal f1 f2 f3 f4 c5 f6 c7 f8 f9 f10 f11 f12 f13 c14 f15 f16 f17 f18 f19 f20 c21 f22 f23 c24 f25 f26 f27 c29 c30 f31 f32 f33 f34 f35 f36 c37 f38 f39 c40 f41 f42 c44 f45 f46 f47 f48 c49 f50 (V (main_arg1 : DevRef τ sig)) (V (main_arg4 : DevRef τ sig)) (V (main_arg5 : DevRef τ sig)) (V (main_arg9 : DevRef τ sig)) := by
  unfold lineVal
  after_results_simp
  simp only [TRef.ofBuf, TRef.toBuf, cast_eq]
  rfl

theorem lineC_val (V : Valuation τ sig (Elt F)) :
    after (callLine f1 f2 f3 f4 c5 f6 c7 f8 f9 f10 f11 f12 f13 c14 f15 f16 f17 f18 f19 f20 c21 f22 f23 c24 f25 f26 f27 c29 c30 f31 f32 f33 f34 f35 f36 c37 f38 f39 c40 f41 f42 c44 f45 f46 f47 f48 c49 f50 callC) V (main_v38 : DevRef τ sig)
      = lineVal f1 f2 f3 f4 c5 f6 c7 f8 f9 f10 f11 f12 f13 c14 f15 f16 f17 f18 f19 f20 c21 f22 f23 c24 f25 f26 f27 c29 c30 f31 f32 f33 f34 f35 f36 c37 f38 f39 c40 f41 f42 c44 f45 f46 f47 f48 c49 f50 (V (main_arg2 : DevRef τ sig)) (V (main_arg6 : DevRef τ sig)) (V (main_arg7 : DevRef τ sig)) (V (main_arg8 : DevRef τ sig)) := by
  unfold lineVal
  after_results_simp
  simp only [TRef.ofBuf, TRef.toBuf, cast_eq]
  rfl

theorem lineD_val (V : Valuation τ sig (Elt F)) :
    after (callLine f1 f2 f3 f4 c5 f6 c7 f8 f9 f10 f11 f12 f13 c14 f15 f16 f17 f18 f19 f20 c21 f22 f23 c24 f25 f26 f27 c29 c30 f31 f32 f33 f34 f35 f36 c37 f38 f39 c40 f41 f42 c44 f45 f46 f47 f48 c49 f50 callD) V (main_v51 : DevRef τ sig)
      = lineVal f1 f2 f3 f4 c5 f6 c7 f8 f9 f10 f11 f12 f13 c14 f15 f16 f17 f18 f19 f20 c21 f22 f23 c24 f25 f26 f27 c29 c30 f31 f32 f33 f34 f35 f36 c37 f38 f39 c40 f41 f42 c44 f45 f46 f47 f48 c49 f50 (V (main_arg3 : DevRef τ sig)) (V (main_arg6 : DevRef τ sig)) (V (main_arg7 : DevRef τ sig)) (V (main_arg9 : DevRef τ sig)) := by
  unfold lineVal
  after_results_simp
  simp only [TRef.ofBuf, TRef.toBuf, cast_eq]
  rfl

end Line

theorem callStretches_flatten (k : CallRefs) :
    (callStretches (F := F) k).flatten = callLine
      (fun l r => Host.dotGeneral dot_S2x512x2048_S32000x2048_S2x512x32000_2_1_01_0_n_n none l r)
      (broadcastInDim S1x1x32000 ![2] bcast_S32000_S1x1x32000_2)
      (broadcastInDim S2x512x32000 ![0, 1, 2] bcast_S1x1x32000_S2x512x32000_0_1_2)
      addf
      (constant S_ .f32 0xFF800000#32)
      (fun x v => Host.reduce FloatOps.maximumf x v reducesTo_S2x512x32000_S2x512_d2 h_S_)
      (constant S_ .f32 0xFF800000#32)
      (broadcastInDim S2x512 ![] bcast_S_S2x512)
      maximumf
      (broadcastInDim S2x512x1 ![0, 1] bcast_S2x512_S2x512x1_0_1)
      (broadcastInDim S2x512x32000 ![0, 1, 2] bcast_S2x512x1_S2x512x32000_0_1_2)
      subf
      Host.exp
      (constant S_ .f32 0x00000000#32)
      (fun x v => Host.reduceAdd x v reducesTo_S2x512x32000_S2x512_d2 h_S_)
      (broadcastInDim S2x512x1 ![0, 1] bcast_S2x512_S2x512x1_0_1)
      Host.log
      (broadcastInDim S2x512x32000 ![0, 1, 2] bcast_S2x512x1_S2x512x32000_0_1_2)
      subf
      (broadcastInDim S2x512x1 ![0, 1] bcast_S2x512_S2x512x1_0_1)
      (constantI S_ 32 0#32)
      (broadcastInDim S2x512x1 ![] bcast_S_S2x512x1)
      (cmpi .slt)
      (constantI S_ 32 32000#32)
      (broadcastInDim S2x512x1 ![] bcast_S_S2x512x1)
      addi
      select
      (constantI S1 32 31999#32)
      (constantI S_ 32 0#32)
      (broadcastInDim S2x512x1x1 ![] bcast_S_S2x512x1x1)
      (cmpi .sge)
      (broadcastInDim S1x1x1x1 ![3] bcast_S1_S1x1x1x1_3)
      (broadcastInDim S2x512x1x1 ![0, 1, 2, 3] bcast_S1x1x1x1_S2x512x1x1_0_1_2_3)
      (cmpi .sle)
      andi
      (constantI S_ 1 1#1)
      (fun x v => Host.reduce IntOp.andi x v reducesTo_S2x512x1x1_S2x512x1_d3 h_S_)
      (fun x i => Host.gather gather_S2x512x32000_S2x512x1x1_S2x512x1_n_2_01_01_2_3_111 x i)
      (constant S_ .f32 0x7FC00000#32)
      (broadcastInDim S2x512x1 ![] bcast_S_S2x512x1)
      select
      (constantI S_ 32 4294967196#32)
      (broadcastInDim S2x512 ![] bcast_S_S2x512)
      (cmpi .ne)
      (uitofp .f32)
      mulf
      (constant S_ .f32 0x00000000#32)
      (fun x v => Host.reduceAdd x v reducesTo_S2x512_S2_d1 h_S_)
      k := rfl

theorem callA_val (V : Valuation τ sig (Elt F)) :
    after (callStretches callA).flatten V (main_v12 : DevRef τ sig)
      = seqLogp (V (main_arg0 : DevRef τ sig)) (V (main_arg4 : DevRef τ sig)) (V (main_arg5 : DevRef τ sig))
          (V (main_arg8 : DevRef τ sig)) := by
  rw [callStretches_flatten, lineA_val]
  simp only [lineVal, seqLogp, tokLogps, takeAlong, takeOk, takeIdx, labelMask, logSoftmax, lsmDen, lsmShift, lsmMax, logits]
  rfl

theorem callB_val (V : Valuation τ sig (Elt F)) :
    after (callStretches callB).flatten V (main_v25 : DevRef τ sig)
      = seqLogp (V (main_arg1 : DevRef τ sig)) (V (main_arg4 : DevRef τ sig)) (V (main_arg5 : DevRef τ sig))
          (V (main_arg9 : DevRef τ sig)) := by
  rw [callStretches_flatten, lineB_val]
  simp only [lineVal, seqLogp, tokLogps, takeAlong, takeOk, takeIdx, labelMask, logSoftmax, lsmDen, lsmShift, lsmMax, logits]
  rfl

theorem callC_val (V : Valuation τ sig (Elt F)) :
    after (callStretches callC).flatten V (main_v38 : DevRef τ sig)
      = seqLogp (V (main_arg2 : DevRef τ sig)) (V (main_arg6 : DevRef τ sig)) (V (main_arg7 : DevRef τ sig))
          (V (main_arg8 : DevRef τ sig)) := by
  rw [callStretches_flatten, lineC_val]
  simp only [lineVal, seqLogp, tokLogps, takeAlong, takeOk, takeIdx, labelMask, logSoftmax, lsmDen, lsmShift, lsmMax, logits]
  rfl

theorem callD_val (V : Valuation τ sig (Elt F)) :
    after (callStretches callD).flatten V (main_v51 : DevRef τ sig)
      = seqLogp (V (main_arg3 : DevRef τ sig)) (V (main_arg6 : DevRef τ sig)) (V (main_arg7 : DevRef τ sig))
          (V (main_arg9 : DevRef τ sig)) := by
  rw [callStretches_flatten, lineD_val]
  simp only [lineVal, seqLogp, tokLogps, takeAlong, takeOk, takeIdx, labelMask, logSoftmax, lsmDen, lsmShift, lsmMax, logits]
  rfl

end Cert.ReferenceIdeal.Hand

end
-- ==== Proof.RefRun4.lean ====
import proofs.«421999_j71975061946951_3_alg».proof.Proof.RefStages
import proofs.«421999_j71975061946951_3_alg».proof.Proof.RefRun2

noncomputable section

namespace Cert.ReferenceIdeal.Hand

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F]

theorem single_sub {W : List (Ref sig .tc)} {y : Ref sig .tc} (h : y ∈ W) :
    ({Proc.devRef (τ := τ) .tc y} : Finset (DevRef τ sig)) ⊆ (W.map (Proc.devRef (τ := τ) .tc)).toFinset := by
  intro b hb
  rw [Finset.mem_singleton] at hb
  subst hb
  exact List.mem_toFinset.2 (List.mem_map.2 ⟨y, h, rfl⟩)

abbrev lsmW (φ : fn_log_softmax.Bufs) : List (Ref sig .tc) :=
  [φ.cst.ref, φ.v0.ref, φ.cst_0.ref, φ.v1.ref, φ.v2.ref, φ.v3.ref, φ.v4.ref, φ.v5.ref, φ.v6.ref, φ.cst_1.ref, φ.v7.ref,
    φ.v8.ref, φ.v9.ref, φ.v10.ref, φ.v11.ref]

abbrev takeW (φ : fn_take_along_axis.Bufs) : List (Ref sig .tc) :=
  [φ.c.ref, φ.v0.ref, φ.v1.ref, φ.c_0.ref, φ.v2.ref, φ.v3.ref, φ.v4.ref, φ.v5.ref, φ.c_1.ref, φ.c_2.ref, φ.v6.ref, φ.v7.ref,
    φ.v8.ref, φ.v9.ref, φ.v10.ref, φ.v11.ref, φ.c_3.ref, φ.v12.ref, φ.v13.ref, φ.cst.ref, φ.v14.ref, φ.v15.ref]

abbrev logSigmoidW (φ : fn_log_sigmoid.Bufs) : List (Ref sig .tc) :=
  [φ.v0.ref, φ.call0.cst.ref, φ.call0.v0.ref, φ.call0.v1.ref, φ.call0.v2.ref, φ.call0.v3.ref, φ.call0.v4.ref, φ.call0.v5.ref,
    φ.call0.v6.ref, φ.call0.v7.ref, φ.call0.v8.ref, φ.call0.v9.ref, φ.call0.v10.ref, φ.call0.v11.ref, φ.call0.v12.ref, φ.v2.ref]

abbrev callW (k : CallRefs) : List (Ref sig .tc) :=
  [k.v0.ref, k.v1.ref, k.v2.ref, k.v3.ref, k.v5.ref, k.v7.ref, k.c.ref, k.v8.ref, k.v9.ref, k.v10.ref, k.v11.ref, k.cst.ref,
    k.v12.ref] ++ (lsmW k.lsm ++ takeW k.take)

abbrev tailW : List (Ref sig .tc) :=
  [main_v52, main_v53, main_v54, main_cst_6, main_v55, main_v56,
    main_cst_7, main_v58, main_v59, main_cst_8, main_v60, main_v61, main_cst_9, main_v62,
    main_v63, main_v64, main_cst_10, main_v65, main_v66, main_v67, main_cst_11, main_v68,
    main_cst_12, main_v69, main_v70, main_v71, main_cst_13, main_v72, main_cst_14, main_v73,
    main_cst_15, main_v74, main_cst_16, main_v75, main_cst_17, main_v76, main_cst_18, main_v77,
    main_cst_19] ++ logSigmoidW main_call8

macro "writes_in " W:ident : tactic =>
  `(tactic| (refine List.forall_iff_forall_mem.2 ?_
             intro _ h
             repeat (cases h with
               | head => exact single_sub (by simp only [$W:ident, callW, lsmW, takeW, logSigmoidW, List.mem_append, List.mem_cons, true_or, or_true])
               | tail _ h => ?_)
             exact nomatch h))

theorem call_writes (k : CallRefs) :
    (callStretches (F := F) k).flatten.Forall fun op => op.writes ⊆ ((callW k).map (Proc.devRef (τ := τ) .tc)).toFinset := by
  refine forall_flatten ⟨?_, ?_, ?_, ?_, ?_⟩
  · writes_in callW
  · writes_in callW
  · writes_in callW
  · writes_in callW
  · show (postOps (F := F) k).Forall fun op => op.writes ⊆ ((callW k).map (Proc.devRef (τ := τ) .tc)).toFinset
    writes_in callW

abbrev tailOps : List (HloOp τ sig (Elt F)) := [tailPre, logSigmoidOps (.of main_v56) main_call8, tailPost].flatten

theorem tail_writes :
    (tailOps (F := F)).Forall fun op => op.writes ⊆ (tailW.map (Proc.devRef (τ := τ) .tc)).toFinset := by
  refine forall_flatten ⟨?_, ?_, ?_⟩
  · writes_in tailW
  · writes_in tailW
  · show (tailPost (F := F)).Forall fun op => op.writes ⊆ (tailW.map (Proc.devRef (τ := τ) .tc)).toFinset
    writes_in tailW

theorem call_keep (k : CallRefs) (V : Valuation τ sig (Elt F)) {r : Ref sig .tc} (hr : r ∉ callW k) :
    after (callStretches k).flatten V (Proc.devRef .tc r) = V (Proc.devRef .tc r) :=
  after_of_writes_sub _ V (call_writes k) hr

theorem tail_keep (V : Valuation τ sig (Elt F)) {r : Ref sig .tc} (hr : r ∉ tailW) :
    after tailOps V (Proc.devRef .tc r) = V (Proc.devRef .tc r) :=
  after_of_writes_sub _ V tail_writes hr

theorem after_stretches (V : Valuation τ sig (Elt F)) :
    after (stretches (F := F)).flatten V
      = after tailOps (after (callStretches callD).flatten (after (callStretches callC).flatten
          (after (callStretches callB).flatten (after (callStretches callA).flatten V)))) := by
  simp only [stretches, tailOps, List.flatten_append, after_append]

theorem tail_v60 (W : Valuation τ sig (Elt F)) :
    after tailOps W (main_v60 : DevRef τ sig) = refLoss (W (main_v12 : DevRef τ sig)) (W (main_v25 : DevRef τ sig)) (W (main_v38 : DevRef τ sig)) (W (main_v51 : DevRef τ sig)) := by
  simp only [tailOps, List.flatten_cons, List.flatten_nil, List.cons_append, List.nil_append, List.append_nil]
  after_results_simp
  try simp only [TRef.ofBuf, TRef.toBuf, cast_eq]
  rfl

theorem tail_v75 (W : Valuation τ sig (Elt F)) :
    after tailOps W (main_v75 : DevRef τ sig) = refChosenMean (W (main_v12 : DevRef τ sig)) (W (main_v25 : DevRef τ sig)) (W (main_v38 : DevRef τ sig)) (W (main_v51 : DevRef τ sig)) := by
  simp only [tailOps, List.flatten_cons, List.flatten_nil, List.cons_append, List.nil_append, List.append_nil]
  after_results_simp
  try simp only [TRef.ofBuf, TRef.toBuf, cast_eq]
  rfl

theorem tail_v77 (W : Valuation τ sig (Elt F)) :
    after tailOps W (main_v77 : DevRef τ sig) = refRejectedMean (W (main_v12 : DevRef τ sig)) (W (main_v25 : DevRef τ sig)) (W (main_v38 : DevRef τ sig)) (W (main_v51 : DevRef τ sig)) := by
  simp only [tailOps, List.flatten_cons, List.flatten_nil, List.cons_append, List.nil_append, List.append_nil]
  after_results_simp
  try simp only [TRef.ofBuf, TRef.toBuf, cast_eq]
  rfl

theorem tail_v69 (W : Valuation τ sig (Elt F)) :
    after tailOps W (main_v69 : DevRef τ sig) = refMargin (W (main_v12 : DevRef τ sig)) (W (main_v25 : DevRef τ sig)) (W (main_v38 : DevRef τ sig)) (W (main_v51 : DevRef τ sig)) := by
  simp only [tailOps, List.flatten_cons, List.flatten_nil, List.cons_append, List.nil_append, List.append_nil]
  after_results_simp
  try simp only [TRef.ofBuf, TRef.toBuf, cast_eq]
  rfl

theorem tail_v73 (W : Valuation τ sig (Elt F)) :
    after tailOps W (main_v73 : DevRef τ sig) = refAcc (W (main_v12 : DevRef τ sig)) (W (main_v25 : DevRef τ sig)) (W (main_v38 : DevRef τ sig)) (W (main_v51 : DevRef τ sig)) := by
  simp only [tailOps, List.flatten_cons, List.flatten_nil, List.cons_append, List.nil_append, List.append_nil]
  after_results_simp
  try simp only [TRef.ofBuf, TRef.toBuf, cast_eq]
  rfl

theorem tail_cst_19 (W : Valuation τ sig (Elt F)) :
    after tailOps W (main_cst_19 : DevRef τ sig) = refNll (W (main_v12 : DevRef τ sig)) (W (main_v25 : DevRef τ sig)) (W (main_v38 : DevRef τ sig)) (W (main_v51 : DevRef τ sig)) := by
  simp only [tailOps, List.flatten_cons, List.flatten_nil, List.cons_append, List.nil_append, List.append_nil]
  after_results_simp
  try simp only [TRef.ofBuf, TRef.toBuf, cast_eq]
  rfl

end Cert.ReferenceIdeal.Hand

end
-- ==== Proof.RefRun.lean ====
import proofs.«421999_j71975061946951_3_alg».proof.Proof.RefRun3
import proofs.«421999_j71975061946951_3_alg».proof.Proof.RefRun4

noncomputable section

namespace Cert.ReferenceIdeal.Hand

open Cert.ReferenceIdeal Idealize.ShloMosaic Idealize.ShloMosaic.TcCoe Idealize.SL.Sem Idealize.ShloMosaic.StableHlo

variable {F : FTy → Type} [FloatOps F]

abbrev afterCalls (V : Valuation τ sig (Elt F)) : Valuation τ sig (Elt F) :=
  after (callStretches callD).flatten (after (callStretches callC).flatten
    (after (callStretches callB).flatten (after (callStretches callA).flatten V)))

theorem afterCalls_v12 (V : Valuation τ sig (Elt F)) :
    afterCalls V (main_v12 : DevRef τ sig) = (seqLogp (V (main_arg0 : DevRef τ sig)) (V (main_arg4 : DevRef τ sig)) (V (main_arg5 : DevRef τ sig)) (V (main_arg8 : DevRef τ sig))) := by
  rw [afterCalls, call_keep callD _ (r := main_v12) (by decide), call_keep callC _ (r := main_v12) (by decide),
    call_keep callB _ (r := main_v12) (by decide), callA_val]

theorem afterCalls_v25 (V : Valuation τ sig (Elt F)) :
    afterCalls V (main_v25 : DevRef τ sig) = (seqLogp (V (main_arg1 : DevRef τ sig)) (V (main_arg4 : DevRef τ sig)) (V (main_arg5 : DevRef τ sig)) (V (main_arg9 : DevRef τ sig))) := by
  rw [afterCalls, call_keep callD _ (r := main_v25) (by decide), call_keep callC _ (r := main_v25) (by decide), callB_val,
    call_keep callA _ (r := main_arg1) (by decide), call_keep callA _ (r := main_arg4) (by decide), call_keep callA _ (r := main_arg5) (by decide), call_keep callA _ (r := main_arg9) (by decide)]

theorem afterCalls_v38 (V : Valuation τ sig (Elt F)) :
    afterCalls V (main_v38 : DevRef τ sig) = (seqLogp (V (main_arg2 : DevRef τ sig)) (V (main_arg6 : DevRef τ sig)) (V (main_arg7 : DevRef τ sig)) (V (main_arg8 : DevRef τ sig))) := by
  rw [afterCalls, call_keep callD _ (r := main_v38) (by decide), callC_val,
    call_keep callB _ (r := main_arg2) (by decide), call_keep callB _ (r := main_arg6) (by decide), call_keep callB _ (r := main_arg7) (by decide), call_keep callB _ (r := main_arg8) (by decide),
    call_keep callA _ (r := main_arg2) (by decide), call_keep callA _ (r := main_arg6) (by decide), call_keep callA _ (r := main_arg7) (by decide), call_keep callA _ (r := main_arg8) (by decide)]

theorem afterCalls_v51 (V : Valuation τ sig (Elt F)) :
    afterCalls V (main_v51 : DevRef τ sig) = (seqLogp (V (main_arg3 : DevRef τ sig)) (V (main_arg6 : DevRef τ sig)) (V (main_arg7 : DevRef τ sig)) (V (main_arg9 : DevRef τ sig))) := by
  rw [afterCalls, callD_val,
    call_keep callC _ (r := main_arg3) (by decide), call_keep callC _ (r := main_arg6) (by decide), call_keep callC _ (r := main_arg7) (by decide), call_keep callC _ (r := main_arg9) (by decide),
    call_keep callB _ (r := main_arg3) (by decide), call_keep callB _ (r := main_arg6) (by decide), call_keep callB _ (r := main_arg7) (by decide), call_keep callB _ (r := main_arg9) (by decide),
    call_keep callA _ (r := main_arg3) (by decide), call_keep callA _ (r := main_arg6) (by decide), call_keep callA _ (r := main_arg7) (by decide), call_keep callA _ (r := main_arg9) (by decide)]

theorem after_arg (V : Valuation τ sig (Elt F)) {r : Ref sig .tc} (hT : r ∉ tailW) (hD : r ∉ callW callD) (hC : r ∉ callW callC)
    (hB : r ∉ callW callB) (hA : r ∉ callW callA) :
    after (stretches (F := F)).flatten V (Proc.devRef .tc r) = V (Proc.devRef .tc r) := by
  rw [after_stretches, tail_keep _ hT, call_keep callD _ hD, call_keep callC _ hC, call_keep callB _ hB, call_keep callA _ hA]

theorem after_result (V : Valuation τ sig (Elt F)) {b : DevRef τ sig}
    {f : Vec F S2 .f32 → Vec F S2 .f32 → Vec F S2 .f32 → Vec F S2 .f32 → b.ty.Contents (Elt F)}
    (h : ∀ W : Valuation τ sig (Elt F), after tailOps W b
      = f (W (main_v12 : DevRef τ sig)) (W (main_v25 : DevRef τ sig)) (W (main_v38 : DevRef τ sig)) (W (main_v51 : DevRef τ sig))) :
    after (stretches (F := F)).flatten V b
      = f (seqLogp (V (main_arg0 : DevRef τ sig)) (V (main_arg4 : DevRef τ sig)) (V (main_arg5 : DevRef τ sig)) (V (main_arg8 : DevRef τ sig)))
          (seqLogp (V (main_arg1 : DevRef τ sig)) (V (main_arg4 : DevRef τ sig)) (V (main_arg5 : DevRef τ sig)) (V (main_arg9 : DevRef τ sig)))
          (seqLogp (V (main_arg2 : DevRef τ sig)) (V (main_arg6 : DevRef τ sig)) (V (main_arg7 : DevRef τ sig)) (V (main_arg8 : DevRef τ sig)))
          (seqLogp (V (main_arg3 : DevRef τ sig)) (V (main_arg6 : DevRef τ sig)) (V (main_arg7 : DevRef τ sig)) (V (main_arg9 : DevRef τ sig))) := by
  rw [after_stretches, h, ← afterCalls, afterCalls_v12, afterCalls_v25, afterCalls_v38, afterCalls_v51]

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v60) = refLoss (F := F) (seqLogp (F := F) (m ((c.tc : Thread nD τ).loc main_arg0)) (m ((c.tc : Thread nD τ).loc main_arg4)) (m ((c.tc : Thread nD τ).loc main_arg5)) (m ((c.tc : Thread nD τ).loc main_arg8))) (seqLogp (F := F) (m ((c.tc : Thread nD τ).loc main_arg1)) (m ((c.tc : Thread nD τ).loc main_arg4)) (m ((c.tc : Thread nD τ).loc main_arg5)) (m ((c.tc : Thread nD τ).loc main_arg9))) (seqLogp (F := F) (m ((c.tc : Thread nD τ).loc main_arg2)) (m ((c.tc : Thread nD τ).loc main_arg6)) (m ((c.tc : Thread nD τ).loc main_arg7)) (m ((c.tc : Thread nD τ).loc main_arg8))) (seqLogp (F := F) (m ((c.tc : Thread nD τ).loc main_arg3)) (m ((c.tc : Thread nD τ).loc main_arg6)) (m ((c.tc : Thread nD τ).loc main_arg7)) (m ((c.tc : Thread nD τ).loc main_arg9)))
      ∧
      r.2.mem ((c.tc : Thread nD τ).loc main_v75) = refChosenMean (F := F) (seqLogp (F := F) (m ((c.tc : Thread nD τ).loc main_arg0)) (m ((c.tc : Thread nD τ).loc main_arg4)) (m ((c.tc : Thread nD τ).loc main_arg5)) (m ((c.tc : Thread nD τ).loc main_arg8))) (seqLogp (F := F) (m ((c.tc : Thread nD τ).loc main_arg1)) (m ((c.tc : Thread nD τ).loc main_arg4)) (m ((c.tc : Thread nD τ).loc main_arg5)) (m ((c.tc : Thread nD τ).loc main_arg9))) (seqLogp (F := F) (m ((c.tc : Thread nD τ).loc main_arg2)) (m ((c.tc : Thread nD τ).loc main_arg6)) (m ((c.tc : Thread nD τ).loc main_arg7)) (m ((c.tc : Thread nD τ).loc main_arg8))) (seqLogp (F := F) (m ((c.tc : Thread nD τ).loc main_arg3)) (m ((c.tc : Thread nD τ).loc main_arg6)) (m ((c.tc : Thread nD τ).loc main_arg7)) (m ((c.tc : Thread nD τ).loc main_arg9)))
      ∧
      r.2.mem ((c.tc : Thread nD τ).loc main_v77) = refRejectedMean (F := F) (seqLogp (F := F) (m ((c.tc : Thread nD τ).loc main_arg0)) (m ((c.tc : Thread nD τ).loc main_arg4)) (m ((c.tc : Thread nD τ).loc main_arg5)) (m ((c.tc : Thread nD τ).loc main_arg8))) (seqLogp (F := F) (m ((c.tc : Thread nD τ).loc main_arg1)) (m ((c.tc : Thread nD τ).loc main_arg4)) (m ((c.tc : Thread nD τ).loc main_arg5)) (m ((c.tc : Thread nD τ).loc main_arg9))) (seqLogp (F := F) (m ((c.tc : Thread nD τ).loc main_arg2)) (m ((c.tc : Thread nD τ).loc main_arg6)) (m ((c.tc : Thread nD τ).loc main_arg7)) (m ((c.tc : Thread nD τ).loc main_arg8))) (seqLogp (F := F) (m ((c.tc : Thread nD τ).loc main_arg3)) (m ((c.tc : Thread nD τ).loc main_arg6)) (m ((c.tc : Thread nD τ).loc main_arg7)) (m ((c.tc : Thread nD τ).loc main_arg9)))
      ∧
      r.2.mem ((c.tc : Thread nD τ).loc main_v69) = refMargin (F := F) (seqLogp (F := F) (m ((c.tc : Thread nD τ).loc main_arg0)) (m ((c.tc : Thread nD τ).loc main_arg4)) (m ((c.tc : Thread nD τ).loc main_arg5)) (m ((c.tc : Thread nD τ).loc main_arg8))) (seqLogp (F := F) (m ((c.tc : Thread nD τ).loc main_arg1)) (m ((c.tc : Thread nD τ).loc main_arg4)) (m ((c.tc : Thread nD τ).loc main_arg5)) (m ((c.tc : Thread nD τ).loc main_arg9))) (seqLogp (F := F) (m ((c.tc : Thread nD τ).loc main_arg2)) (m ((c.tc : Thread nD τ).loc main_arg6)) (m ((c.tc : Thread nD τ).loc main_arg7)) (m ((c.tc : Thread nD τ).loc main_arg8))) (seqLogp (F := F) (m ((c.tc : Thread nD τ).loc main_arg3)) (m ((c.tc : Thread nD τ).loc main_arg6)) (m ((c.tc : Thread nD τ).loc main_arg7)) (m ((c.tc : Thread nD τ).loc main_arg9)))
      ∧
      r.2.mem ((c.tc : Thread nD τ).loc main_v73) = refAcc (F := F) (seqLogp (F := F) (m ((c.tc : Thread nD τ).loc main_arg0)) (m ((c.tc : Thread nD τ).loc main_arg4)) (m ((c.tc : Thread nD τ).loc main_arg5)) (m ((c.tc : Thread nD τ).loc main_arg8))) (seqLogp (F := F) (m ((c.tc : Thread nD τ).loc main_arg1)) (m ((c.tc : Thread nD τ).loc main_arg4)) (m ((c.tc : Thread nD τ).loc main_arg5)) (m ((c.tc : Thread nD τ).loc main_arg9))) (seqLogp (F := F) (m ((c.tc : Thread nD τ).loc main_arg2)) (m ((c.tc : Thread nD τ).loc main_arg6)) (m ((c.tc : Thread nD τ).loc main_arg7)) (m ((c.tc : Thread nD τ).loc main_arg8))) (seqLogp (F := F) (m ((c.tc : Thread nD τ).loc main_arg3)) (m ((c.tc : Thread nD τ).loc main_arg6)) (m ((c.tc : Thread nD τ).loc main_arg7)) (m ((c.tc : Thread nD τ).loc main_arg9)))
      ∧
      r.2.mem ((c.tc : Thread nD τ).loc main_cst_19) = refNll (F := F) (seqLogp (F := F) (m ((c.tc : Thread nD τ).loc main_arg0)) (m ((c.tc : Thread nD τ).loc main_arg4)) (m ((c.tc : Thread nD τ).loc main_arg5)) (m ((c.tc : Thread nD τ).loc main_arg8))) (seqLogp (F := F) (m ((c.tc : Thread nD τ).loc main_arg1)) (m ((c.tc : Thread nD τ).loc main_arg4)) (m ((c.tc : Thread nD τ).loc main_arg5)) (m ((c.tc : Thread nD τ).loc main_arg9))) (seqLogp (F := F) (m ((c.tc : Thread nD τ).loc main_arg2)) (m ((c.tc : Thread nD τ).loc main_arg6)) (m ((c.tc : Thread nD τ).loc main_arg7)) (m ((c.tc : Thread nD τ).loc main_arg8))) (seqLogp (F := F) (m ((c.tc : Thread nD τ).loc main_arg3)) (m ((c.tc : Thread nD τ).loc main_arg6)) (m ((c.tc : Thread nD τ).loc main_arg7)) (m ((c.tc : Thread nD τ).loc main_arg9)))
      ∧
      r.2.mem ((c.tc : Thread nD τ).loc main_arg0) = m ((c.tc : Thread nD τ).loc main_arg0)
      ∧
      r.2.mem ((c.tc : Thread nD τ).loc main_arg1) = m ((c.tc : Thread nD τ).loc main_arg1)
      ∧
      r.2.mem ((c.tc : Thread nD τ).loc main_arg2) = m ((c.tc : Thread nD τ).loc main_arg2)
      ∧
      r.2.mem ((c.tc : Thread nD τ).loc main_arg3) = m ((c.tc : Thread nD τ).loc main_arg3)
      ∧
      r.2.mem ((c.tc : Thread nD τ).loc main_arg4) = m ((c.tc : Thread nD τ).loc main_arg4)
      ∧
      r.2.mem ((c.tc : Thread nD τ).loc main_arg5) = m ((c.tc : Thread nD τ).loc main_arg5)
      ∧
      r.2.mem ((c.tc : Thread nD τ).loc main_arg6) = m ((c.tc : Thread nD τ).loc main_arg6)
      ∧
      r.2.mem ((c.tc : Thread nD τ).loc main_arg7) = m ((c.tc : Thread nD τ).loc main_arg7)
      ∧
      r.2.mem ((c.tc : Thread nD τ).loc main_arg8) = m ((c.tc : Thread nD τ).loc main_arg8)
      ∧
      r.2.mem ((c.tc : Thread nD τ).loc main_arg9) = m ((c.tc : Thread nD τ).loc main_arg9)) :=
  (θ_run defs _ _).mono (fun _ h c =>
    ⟨(h c main_v60).trans (after_result _ tail_v60), (h c main_v75).trans (after_result _ tail_v75),
      (h c main_v77).trans (after_result _ tail_v77), (h c main_v69).trans (after_result _ tail_v69),
      (h c main_v73).trans (after_result _ tail_v73), (h c main_cst_19).trans (after_result _ tail_cst_19),
      (h c main_arg0).trans (after_arg _ (by decide) (by decide) (by decide) (by decide) (by decide)),
      (h c main_arg1).trans (after_arg _ (by decide) (by decide) (by decide) (by decide) (by decide)),
      (h c main_arg2).trans (after_arg _ (by decide) (by decide) (by decide) (by decide) (by decide)),
      (h c main_arg3).trans (after_arg _ (by decide) (by decide) (by decide) (by decide) (by decide)),
      (h c main_arg4).trans (after_arg _ (by decide) (by decide) (by decide) (by decide) (by decide)),
      (h c main_arg5).trans (after_arg _ (by decide) (by decide) (by decide) (by decide) (by decide)),
      (h c main_arg6).trans (after_arg _ (by decide) (by decide) (by decide) (by decide) (by decide)),
      (h c main_arg7).trans (after_arg _ (by decide) (by decide) (by decide) (by decide) (by decide)),
      (h c main_arg8).trans (after_arg _ (by decide) (by decide) (by decide) (by decide) (by decide)),
      (h c main_arg9).trans (after_arg _ (by decide) (by decide) (by decide) (by decide) (by decide))⟩)
    (run_fold m ρ)

end Cert.ReferenceIdeal.Hand

end
-- ==== Proof.lean ====
import proofs.«421999_j71975061946951_3_alg».proof.Defs
import proofs.«421999_j71975061946951_3_alg».proof.Proof.Gen.Kernel
import proofs.«421999_j71975061946951_3_alg».proof.Proof.Gen.KernelIdeal
import proofs.«421999_j71975061946951_3_alg».proof.Proof.Gen.ReferenceIdeal
import proofs.«421999_j71975061946951_3_alg».proof.Proof.Gen.Pre_finite_inputs
import proofs.«421999_j71975061946951_3_alg».proof.Proof.Launch
import proofs.«421999_j71975061946951_3_alg».proof.Proof.KHost
import proofs.«421999_j71975061946951_3_alg».proof.Proof.KValue
import proofs.«421999_j71975061946951_3_alg».proof.Proof.RefRun

noncomputable section

namespace Cert.Proof

open Idealize.ShloMosaic Idealize.SL.Sem
open Cert.KernelIdeal.Gen Cert.KernelIdeal.Hand

/-- However the floats are read, the program runs to the end and no item of it writes one of the ten arguments. -/
theorem run_kept {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => ∀ c : Dev Cert.KernelIdeal.nD,
      (∀ b ∈ Pipeline.ucRefs Cert.KernelIdeal.τ Cert.KernelIdeal.sig, r.2.mem ((c.tc : Thread Cert.KernelIdeal.nD Cert.KernelIdeal.τ).1, b) = V7 m (outsK m) c b)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run (Cert.KernelIdeal.defs (F := F)) _ _).mono (fun r h c =>
    ⟨h c, (h c _ (mem_uc Cert.KernelIdeal.main_arg0 (by decide))).trans (V7_main_arg0 m _ c),
      (h c _ (mem_uc Cert.KernelIdeal.main_arg1 (by decide))).trans (V7_main_arg1 m _ c),
      (h c _ (mem_uc Cert.KernelIdeal.main_arg2 (by decide))).trans (V7_main_arg2 m _ c),
      (h c _ (mem_uc Cert.KernelIdeal.main_arg3 (by decide))).trans (V7_main_arg3 m _ c),
      (h c _ (mem_uc Cert.KernelIdeal.main_arg4 (by decide))).trans (V7_main_arg4 m _ c),
      (h c _ (mem_uc Cert.KernelIdeal.main_arg5 (by decide))).trans (V7_main_arg5 m _ c),
      (h c _ (mem_uc Cert.KernelIdeal.main_arg6 (by decide))).trans (V7_main_arg6 m _ c),
      (h c _ (mem_uc Cert.KernelIdeal.main_arg7 (by decide))).trans (V7_main_arg7 m _ c),
      (h c _ (mem_uc Cert.KernelIdeal.main_arg8 (by decide))).trans (V7_main_arg8 m _ c),
      (h c _ (mem_uc Cert.KernelIdeal.main_arg9 (by decide))).trans (V7_main_arg9 m _ c)⟩)
    (run_all m ρ)

/-! The claim's first program is the idealized program's text under another name: its two kernel bodies and its @main are
    the same terms, so the run above is also its run. -/

set_option maxHeartbeats 1000000 in
theorem k0_eq : @Cert.Kernel.cc0__seqlogp_kernel Bits _ _ = @Cert.KernelIdeal.cc0__seqlogp_kernel Bits _ _ := rfl

set_option maxHeartbeats 1000000 in
theorem k1_eq : @Cert.Kernel.cc1__seqlogp_kernel Bits _ _ = @Cert.KernelIdeal.cc1__seqlogp_kernel Bits _ _ := rfl

set_option maxHeartbeats 1000000 in
theorem main_eq : @Cert.Kernel.main Bits _ _ = @Cert.KernelIdeal.main Bits _ _ := rfl

set_option maxHeartbeats 1000000 in
theorem defs_eq : @Cert.Kernel.defs Bits _ _ = @Cert.KernelIdeal.defs Bits _ _ := by
  refine congrArg (Pipeline.defs (Cert.KernelIdeal.pcfgs (F := Bits))) ?_
  unfold Cert.Kernel.defs₀ Cert.KernelIdeal.defs₀
  congr 1
  funext l a
  match l, a with
  | 0, (t, s) =>
    simp only [k0_eq]
    rfl
  | 1, (t, s) =>
    simp only [k1_eq]
    rfl
  | ⟨_ + 2, h⟩, _ => exact absurd h (Nat.not_lt.2 (Nat.le_add_left _ _))

set_option maxHeartbeats 1000000 in
theorem frame_k : Cert.frame_Kernel := fun m ρ _ => by
  have h := (θ_run (Cert.KernelIdeal.defs (F := Bits)) _ _).mono (fun _ h c => (h c).2) (run_kept (F := Bits) m ρ)
  rw [← defs_eq, ← main_eq] at h
  exact h

theorem frame_ki : Cert.frame_KernelIdeal := fun m ρ _ =>
  (θ_run (Cert.KernelIdeal.defs (F := Ideal)) _ _).mono (fun _ h c => (h c).2) (run_kept m ρ)

theorem frame_ri : Cert.frame_ReferenceIdeal := fun m ρ _ =>
  (θ_run (Cert.ReferenceIdeal.defs (F := Ideal)) _ _).mono (fun r h c => (h c).2.2.2.2.2.2)
    (Cert.ReferenceIdeal.Hand.run (F := Ideal) m ρ)

abbrev sumA (m : (ℓ : Loc Cert.KernelIdeal.nD Cert.KernelIdeal.τ Cert.KernelIdeal.sig) → Buf (Elt Ideal) ℓ) (c : Dev Cert.KernelIdeal.nD) :=
  (Cert.ReferenceIdeal.Hand.seqLogp (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)))
abbrev sumB (m : (ℓ : Loc Cert.KernelIdeal.nD Cert.KernelIdeal.τ Cert.KernelIdeal.sig) → Buf (Elt Ideal) ℓ) (c : Dev Cert.KernelIdeal.nD) :=
  (Cert.ReferenceIdeal.Hand.seqLogp (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)))
abbrev sumC (m : (ℓ : Loc Cert.KernelIdeal.nD Cert.KernelIdeal.τ Cert.KernelIdeal.sig) → Buf (Elt Ideal) ℓ) (c : Dev Cert.KernelIdeal.nD) :=
  (Cert.ReferenceIdeal.Hand.seqLogp (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
abbrev sumD (m : (ℓ : Loc Cert.KernelIdeal.nD Cert.KernelIdeal.τ Cert.KernelIdeal.sig) → Buf (Elt Ideal) ℓ) (c : Dev Cert.KernelIdeal.nD) :=
  (Cert.ReferenceIdeal.Hand.seqLogp (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)))

/-- Both programs apply one scalar tail to four per-sequence sums, and the kernel program's sums are the reference's. -/
theorem algebraic : Cert.algebraic_KernelIdeal_ReferenceIdeal := by
  intro m ρ m' ρ' hpre hagree
  refine ⟨fun c => Cert.ReferenceIdeal.Hand.refLoss (F := Ideal) (sumA m c) (sumB m c) (sumC m c) (sumD m c),
    fun c => Cert.ReferenceIdeal.Hand.refChosenMean (F := Ideal) (sumA m c) (sumB m c) (sumC m c) (sumD m c),
    fun c => Cert.ReferenceIdeal.Hand.refRejectedMean (F := Ideal) (sumA m c) (sumB m c) (sumC m c) (sumD m c),
    fun c => Cert.ReferenceIdeal.Hand.refMargin (F := Ideal) (sumA m c) (sumB m c) (sumC m c) (sumD m c),
    fun c => Cert.ReferenceIdeal.Hand.refAcc (F := Ideal) (sumA m c) (sumB m c) (sumC m c) (sumD m c),
    fun c => Cert.ReferenceIdeal.Hand.refNll (F := Ideal) (sumA m c) (sumB m c) (sumC m c) (sumD m c),
    ?_, ?_⟩
  rotate_left
  · refine (θ_run (Cert.ReferenceIdeal.defs (F := Ideal)) _ _).mono (fun r h c => ?_)
      (Cert.ReferenceIdeal.Hand.run (F := Ideal) m' ρ')
    obtain ⟨h1, h2, h3, h4, h5, h6, hargs⟩ := h c
    rw [(hagree c).1, (hagree c).2.1, (hagree c).2.2.1, (hagree c).2.2.2.1, (hagree c).2.2.2.2.1,
      (hagree c).2.2.2.2.2.1, (hagree c).2.2.2.2.2.2.1, (hagree c).2.2.2.2.2.2.2.1,
      (hagree c).2.2.2.2.2.2.2.2.1, (hagree c).2.2.2.2.2.2.2.2.2] at h1 h2 h3 h4 h5 h6
    exact ⟨h1, h2, h3, h4, h5, h6, hargs⟩
  · refine (θ_run (Cert.KernelIdeal.defs (F := Ideal)) _ _).mono (fun r h c => ?_) (run_kept (F := Ideal) m ρ)
    have t0 := tail_loss m (outsK m) c
    have t1 := tail_chosenMean m (outsK m) c
    have t2 := tail_rejectedMean m (outsK m) c
    have t3 := tail_margin m (outsK m) c
    have t4 := tail_acc m (outsK m) c
    have t5 := tail_nll m (outsK m) c
    rw [seq12_eq m hpre c, seq16_eq m hpre c, seq29_eq m hpre c, seq33_eq m hpre c] at t0 t1 t2 t3 t4 t5
    exact ⟨((h c).1 _ (mem_uc Cert.KernelIdeal.main_v42 (by decide))).trans t0,
      ((h c).1 _ (mem_uc Cert.KernelIdeal.main_v57 (by decide))).trans t1,
      ((h c).1 _ (mem_uc Cert.KernelIdeal.main_v59 (by decide))).trans t2,
      ((h c).1 _ (mem_uc Cert.KernelIdeal.main_v51 (by decide))).trans t3,
      ((h c).1 _ (mem_uc Cert.KernelIdeal.main_v55 (by decide))).trans t4,
      ((h c).1 _ (mem_uc Cert.KernelIdeal.main_cst_16 (by decide))).trans t5,
      (h c).2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
